-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3040x384 : Shape := ⟨2, ![3040, 384]⟩
abbrev S3040x3040 : Shape := ⟨2, ![3040, 3040]⟩
abbrev S3040x100x100 : Shape := ⟨3, ![3040, 100, 100]⟩
abbrev S3040x100 : Shape := ⟨2, ![3040, 100]⟩
abbrev S43x75 : Shape := ⟨2, ![43, 75]⟩
abbrev S3040x75x128 : Shape := ⟨3, ![3040, 75, 128]⟩
abbrev S3040x128x128 : Shape := ⟨3, ![3040, 128, 128]⟩
abbrev S512x256 : Shape := ⟨2, ![512, 256]⟩
abbrev S256x256 : Shape := ⟨2, ![256, 256]⟩
abbrev S256x512 : Shape := ⟨2, ![256, 512]⟩
abbrev S_ : Shape := ⟨0, ![]⟩

class Facts : Prop where
  bcast_S_S3040x384 : S_.BroadcastsInDim S3040x384 (![] : Fin 0 → Fin S3040x384.rank)
  reducesTo_S3040x384_S_d0_1 : S3040x384.ReducesTo [0, 1] S_
  h_S_ : 0 < S_.numel
  bcast_S_S3040x3040 : S_.BroadcastsInDim S3040x3040 (![] : Fin 0 → Fin S3040x3040.rank)
  reducesTo_S3040x3040_S_d0_1 : S3040x3040.ReducesTo [0, 1] S_
  bcast_S_S3040x100x100 : S_.BroadcastsInDim S3040x100x100 (![] : Fin 0 → Fin S3040x100x100.rank)
  reducesTo_S3040x100x100_S_d0_1_2 : S3040x100x100.ReducesTo [0, 1, 2] S_
  bcast_S_S43x75 : S_.BroadcastsInDim S43x75 (![] : Fin 0 → Fin S43x75.rank)
  reducesTo_S43x75_S_d0_1 : S43x75.ReducesTo [0, 1] S_
  bcast_S_S3040x75x128 : S_.BroadcastsInDim S3040x75x128 (![] : Fin 0 → Fin S3040x75x128.rank)
  reducesTo_S3040x75x128_S_d0_1_2 : S3040x75x128.ReducesTo [0, 1, 2] S_
  bcast_S_S3040x128x128 : S_.BroadcastsInDim S3040x128x128 (![] : Fin 0 → Fin S3040x128x128.rank)
  reducesTo_S3040x128x128_S_d0_1_2 : S3040x128x128.ReducesTo [0, 1, 2] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S3040x100 : S_.BroadcastsInDim S3040x100 (![] : Fin 0 → Fin S3040x100.rank)
  reducesTo_S3040x100_S_d0_1 : S3040x100.ReducesTo [0, 1] S_

variable [Facts]

def fn_part4 {F : FTy → Type} [FloatOps F] (main_arg4 : IVec S3040x100 32) (main_arg15 : FVec F S256x256 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_c_28 : IVec S_ 32 := constantI S_ 32 0#32
  let main_v74 : IVec S3040x100 32 := broadcastInDim S3040x100 ![] bcast_S_S3040x100 main_c_28
  let main_v75 : IVec S3040x100 1 := cmpi .sge main_arg4 main_v74
  let main_c_29 : IVec S_ 1 := constantI S_ 1 1#1
  let main_v76 : IVec S_ 1 := (fun x v => Host.reduce IntOp.andi x v reducesTo_S3040x100_S_d0_1 h_S_) main_v75 main_c_29
  let main_v77 : IVec S_ 1 := andi main_v73 main_v76
  let main_c_30 : IVec S_ 32 := constantI S_ 32 43#32
  let main_v78 : IVec S3040x100 32 := broadcastInDim S3040x100 ![] bcast_S_S3040x100 main_c_30
  let main_v79 : IVec S3040x100 1 := cmpi .slt main_arg4 main_v78
  let main_c_31 : IVec S_ 1 := constantI S_ 1 1#1
  let main_v80 : IVec S_ 1 := (fun x v => Host.reduce IntOp.andi x v reducesTo_S3040x100_S_d0_1 h_S_) main_v79 main_c_31
  let main_v81 : IVec S_ 1 := andi main_v77 main_v80
  main_v81

def fn_part3 {F : FTy → Type} [FloatOps F] (main_arg4 : IVec S3040x100 32) (main_arg12 : FVec F S512x256 .f32) (main_arg13 : FVec F S256x512 .f32) (main_arg14 : FVec F S512x256 .f32) (main_arg15 : FVec F S256x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256x512 .f32 := Host.absf main_arg13
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S512x256 .f32 := Host.absf main_arg14
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg4 main_arg15 main_v63 main_v67

def fn_part2 {F : FTy → Type} [FloatOps F] (main_arg4 : IVec S3040x100 32) (main_arg8 : FVec F S512x256 .f32) (main_arg9 : FVec F S256x256 .f32) (main_arg10 : FVec F S512x256 .f32) (main_arg11 : FVec F S256x256 .f32) (main_arg12 : FVec F S512x256 .f32) (main_arg13 : FVec F S256x512 .f32) (main_arg14 : FVec F S512x256 .f32) (main_arg15 : FVec F S256x256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S512x256 .f32 := Host.absf main_arg10
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg4 main_arg12 main_arg13 main_arg14 main_arg15 main_v48 main_v49 main_v50

def fn_part1 {F : FTy → Type} [FloatOps F] (main_arg4 : IVec S3040x100 32) (main_arg5 : FVec F S43x75 .f32) (main_arg6 : FVec F S3040x75x128 .f32) (main_arg7 : FVec F S3040x128x128 .f32) (main_arg8 : FVec F S512x256 .f32) (main_arg9 : FVec F S256x256 .f32) (main_arg10 : FVec F S512x256 .f32) (main_arg11 : FVec F S256x256 .f32) (main_arg12 : FVec F S512x256 .f32) (main_arg13 : FVec F S256x512 .f32) (main_arg14 : FVec F S512x256 .f32) (main_arg15 : FVec F S256x256 .f32) (main_v13 : IVec S_ 1) (main_v16 : IVec S3040x100x100 1) : IVec S_ 1 :=
  let main_c_5 : IVec S_ 1 := constantI S_ 1 1#1
  let main_v17 : IVec S_ 1 := (fun x v => Host.reduce IntOp.andi x v reducesTo_S3040x100x100_S_d0_1_2 h_S_) main_v16 main_c_5
  let main_v18 : IVec S_ 1 := andi main_v13 main_v17
  let main_v19 : FVec F S43x75 .f32 := Host.absf main_arg5
  let main_cst_6 : FVec F S_ .f32 := constant S_ .f32 0x7F800000#32
  let main_v20 : FVec F S43x75 .f32 := broadcastInDim S43x75 ![] bcast_S_S43x75 main_cst_6
  let main_v21 : IVec S43x75 1 := cmpf .olt main_v19 main_v20
  let main_c_7 : IVec S_ 1 := constantI S_ 1 1#1
  let main_v22 : IVec S_ 1 := (fun x v => Host.reduce IntOp.andi x v reducesTo_S43x75_S_d0_1 h_S_) main_v21 main_c_7
  let main_v23 : IVec S_ 1 := andi main_v18 main_v22
  let main_v24 : FVec F S3040x75x128 .f32 := Host.absf main_arg6
  let main_cst_8 : FVec F S_ .f32 := constant S_ .f32 0x7F800000#32
  let main_v25 : FVec F S3040x75x128 .f32 := broadcastInDim S3040x75x128 ![] bcast_S_S3040x75x128 main_cst_8
  let main_v26 : IVec S3040x75x128 1 := cmpf .olt main_v24 main_v25
  let main_c_9 : IVec S_ 1 := constantI S_ 1 1#1
  let main_v27 : IVec S_ 1 := (fun x v => Host.reduce IntOp.andi x v reducesTo_S3040x75x128_S_d0_1_2 h_S_) main_v26 main_c_9
  let main_v28 : IVec S_ 1 := andi main_v23 main_v27
  let main_v29 : FVec F S3040x128x128 .f32 := Host.absf main_arg7
  let main_cst_10 : FVec F S_ .f32 := constant S_ .f32 0x7F800000#32
  let main_v30 : FVec F S3040x128x128 .f32 := broadcastInDim S3040x128x128 ![] bcast_S_S3040x128x128 main_cst_10
  let main_v31 : IVec S3040x128x128 1 := cmpf .olt main_v29 main_v30
  let main_c_11 : IVec S_ 1 := constantI S_ 1 1#1
  let main_v32 : IVec S_ 1 := (fun x v => Host.reduce IntOp.andi x v reducesTo_S3040x128x128_S_d0_1_2 h_S_) main_v31 main_c_11
  let main_v33 : IVec S_ 1 := andi main_v28 main_v32
  fn_part2 (F := F) main_arg4 main_arg8 main_arg9 main_arg10 main_arg11 main_arg12 main_arg13 main_arg14 main_arg15 main_v33

def fn {F : FTy → Type} [FloatOps F] (main_arg0 : FVec F S3040x384 .f32) (main_arg1 : FVec F S3040x3040 .f32) (main_arg2 : FVec F S3040x3040 .f32) (main_arg3 : FVec F S3040x100x100 .f32) (main_arg4 : IVec S3040x100 32) (main_arg5 : FVec F S43x75 .f32) (main_arg6 : FVec F S3040x75x128 .f32) (main_arg7 : FVec F S3040x128x128 .f32) (main_arg8 : FVec F S512x256 .f32) (main_arg9 : FVec F S256x256 .f32) (main_arg10 : FVec F S512x256 .f32) (main_arg11 : FVec F S256x256 .f32) (main_arg12 : FVec F S512x256 .f32) (main_arg13 : FVec F S256x512 .f32) (main_arg14 : FVec F S512x256 .f32) (main_arg15 : FVec F S256x256 .f32) : IVec S_ 1 :=
  let main_v0 : FVec F S3040x384 .f32 := Host.absf main_arg0
  let main_cst : FVec F S_ .f32 := constant S_ .f32 0x7F800000#32
  let main_v1 : FVec F S3040x384 .f32 := broadcastInDim S3040x384 ![] bcast_S_S3040x384 main_cst
  let main_v2 : IVec S3040x384 1 := cmpf .olt main_v0 main_v1
  let main_c : IVec S_ 1 := constantI S_ 1 1#1
  let main_v3 : IVec S_ 1 := (fun x v => Host.reduce IntOp.andi x v reducesTo_S3040x384_S_d0_1 h_S_) main_v2 main_c
  let main_v4 : FVec F S3040x3040 .f32 := Host.absf main_arg1
  let main_cst_0 : FVec F S_ .f32 := constant S_ .f32 0x7F800000#32
  let main_v5 : FVec F S3040x3040 .f32 := broadcastInDim S3040x3040 ![] bcast_S_S3040x3040 main_cst_0
  let main_v6 : IVec S3040x3040 1 := cmpf .olt main_v4 main_v5
  let main_c_1 : IVec S_ 1 := constantI S_ 1 1#1
  let main_v7 : IVec S_ 1 := (fun x v => Host.reduce IntOp.andi x v reducesTo_S3040x3040_S_d0_1 h_S_) main_v6 main_c_1
  let main_v8 : IVec S_ 1 := andi main_v3 main_v7
  let main_v9 : FVec F S3040x3040 .f32 := Host.absf main_arg2
  let main_cst_2 : FVec F S_ .f32 := constant S_ .f32 0x7F800000#32
  let main_v10 : FVec F S3040x3040 .f32 := broadcastInDim S3040x3040 ![] bcast_S_S3040x3040 main_cst_2
  let main_v11 : IVec S3040x3040 1 := cmpf .olt main_v9 main_v10
  let main_c_3 : IVec S_ 1 := constantI S_ 1 1#1
  let main_v12 : IVec S_ 1 := (fun x v => Host.reduce IntOp.andi x v reducesTo_S3040x3040_S_d0_1 h_S_) main_v11 main_c_3
  let main_v13 : IVec S_ 1 := andi main_v8 main_v12
  let main_v14 : FVec F S3040x100x100 .f32 := Host.absf main_arg3
  let main_cst_4 : FVec F S_ .f32 := constant S_ .f32 0x7F800000#32
  let main_v15 : FVec F S3040x100x100 .f32 := broadcastInDim S3040x100x100 ![] bcast_S_S3040x100x100 main_cst_4
  let main_v16 : IVec S3040x100x100 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S3040x384 : Shape := ⟨2, ![3040, 384]⟩
abbrev S3040x3040 : Shape := ⟨2, ![3040, 3040]⟩
abbrev S3040x100x100 : Shape := ⟨3, ![3040, 100, 100]⟩
abbrev S3040x100 : Shape := ⟨2, ![3040, 100]⟩
abbrev S43x75 : Shape := ⟨2, ![43, 75]⟩
abbrev S3040x75x128 : Shape := ⟨3, ![3040, 75, 128]⟩
abbrev S3040x128x128 : Shape := ⟨3, ![3040, 128, 128]⟩
abbrev S512x256 : Shape := ⟨2, ![512, 256]⟩
abbrev S256x256 : Shape := ⟨2, ![256, 256]⟩
abbrev S256x512 : Shape := ⟨2, ![256, 512]⟩
abbrev S3040x128 : Shape := ⟨2, ![3040, 128]⟩
abbrev S80x100 : Shape := ⟨2, ![80, 100]⟩
abbrev S80x100x100 : Shape := ⟨3, ![80, 100, 100]⟩
abbrev S80x75x128 : Shape := ⟨3, ![80, 75, 128]⟩
abbrev S80x128x128 : Shape := ⟨3, ![80, 128, 128]⟩
abbrev S80x128 : Shape := ⟨2, ![80, 128]⟩
abbrev S80x100x43 : Shape := ⟨3, ![80, 100, 43]⟩
abbrev S80x100x1 : Shape := ⟨3, ![80, 100, 1]⟩
abbrev S1x43x75 : Shape := ⟨3, ![1, 43, 75]⟩
abbrev S80x43x75 : Shape := ⟨3, ![80, 43, 75]⟩
abbrev S80x43x128 : Shape := ⟨3, ![80, 43, 128]⟩
abbrev S80x100x128 : Shape := ⟨3, ![80, 100, 128]⟩
abbrev S384x256 : Shape := ⟨2, ![384, 256]⟩
abbrev S128x256 : Shape := ⟨2, ![128, 256]⟩
abbrev S3040x256 : Shape := ⟨2, ![3040, 256]⟩
abbrev S152x384 : Shape := ⟨2, ![152, 384]⟩
abbrev S152x128 : Shape := ⟨2, ![152, 128]⟩
abbrev S152x256 : Shape := ⟨2, ![152, 256]⟩
abbrev S304x3040 : Shape := ⟨2, ![304, 3040]⟩
abbrev S304x256 : Shape := ⟨2, ![304, 256]⟩
abbrev S152x512 : Shape := ⟨2, ![152, 512]⟩

abbrev nBuf : Space → Nat
  | .hbm => 32
  | .vmem => 75
  | .smem => 0
  | _ => 0

abbrev bufTy : (tb : Table) → Fin (tcTables nBuf tb) → BufTy
  | .hbm, ⟨0, _⟩ => ⟨S3040x384, .f32⟩
  | .hbm, ⟨1, _⟩ => ⟨S3040x3040, .f32⟩
  | .hbm, ⟨2, _⟩ => ⟨S3040x3040, .f32⟩
  | .hbm, ⟨3, _⟩ => ⟨S3040x100x100, .f32⟩
  | .hbm, ⟨4, _⟩ => ⟨S3040x100, .i32⟩
  | .hbm, ⟨5, _⟩ => ⟨S43x75, .f32⟩
  | .hbm, ⟨6, _⟩ => ⟨S3040x75x128, .f32⟩
  | .hbm, ⟨7, _⟩ => ⟨S3040x128x128, .f32⟩
  | .hbm, ⟨8, _⟩ => ⟨S512x256, .f32⟩
  | .hbm, ⟨9, _⟩ => ⟨S256x256, .f32⟩
  | .hbm, ⟨10, _⟩ => ⟨S512x256, .f32⟩
  | .hbm, ⟨11, _⟩ => ⟨S256x256, .f32⟩
  | .hbm, ⟨12, _⟩ => ⟨S512x256, .f32⟩
  | .hbm, ⟨13, _⟩ => ⟨S256x512, .f32⟩
  | .hbm, ⟨14, _⟩ => ⟨S512x256, .f32⟩
  | .hbm, ⟨15, _⟩ => ⟨S256x256, .f32⟩
  | .hbm, ⟨16, _⟩ => ⟨S3040x128, .f32⟩
  | .hbm, ⟨17, _⟩ => ⟨S384x256, .f32⟩
  | .hbm, ⟨18, _⟩ => ⟨S128x256, .f32⟩
  | .hbm, ⟨19, _⟩ => ⟨S384x256, .f32⟩
  | .hbm, ⟨20, _⟩ => ⟨S128x256, .f32⟩
  | .hbm, ⟨21, _⟩ => ⟨S3040x256, .f32⟩
  | .hbm, ⟨22, _⟩ => ⟨S3040x256, .f32⟩
  | .hbm, ⟨23, _⟩ => ⟨S3040x256, .f32⟩
  | .hbm, ⟨24, _⟩ => ⟨S3040x256, .f32⟩
  | .hbm, ⟨25, _⟩ => ⟨S3040x256, .f32⟩
  | .hbm, ⟨26, _⟩ => ⟨S3040x256, .f32⟩
  | .hbm, ⟨27, _⟩ => ⟨S256x256, .f32⟩
  | .hbm, ⟨28, _⟩ => ⟨S256x256, .f32⟩
  | .hbm, ⟨29, _⟩ => ⟨S3040x256, .f32⟩
  | .hbm, ⟨30, _⟩ => ⟨S3040x256, .f32⟩
  | .hbm, ⟨31, _⟩ => ⟨S3040x3040, .f32⟩
  | .local _ .vmem, ⟨0, _⟩ => ⟨S80x100, .i32⟩
  | .local _ .vmem, ⟨1, _⟩ => ⟨S80x100, .i32⟩
  | .local _ .vmem, ⟨2, _⟩ => ⟨S80x100x100, .f32⟩
  | .local _ .vmem, ⟨3, _⟩ => ⟨S80x100x100, .f32⟩
  | .local _ .vmem, ⟨4, _⟩ => ⟨S43x75, .f32⟩
  | .local _ .vmem, ⟨5, _⟩ => ⟨S80x75x128, .f32⟩
  | .local _ .vmem, ⟨6, _⟩ => ⟨S80x75x128, .f32⟩
  | .local _ .vmem, ⟨7, _⟩ => ⟨S80x128x128, .f32⟩
  | .local _ .vmem, ⟨8, _⟩ => ⟨S80x128x128, .f32⟩
  | .local _ .vmem, ⟨9, _⟩ => ⟨S80x128, .f32⟩
  | .local _ .vmem, ⟨10, _⟩ => ⟨S80x128, .f32⟩
  | .local _ .vmem, ⟨11, _⟩ => ⟨S152x384, .f32⟩
  | .local _ .vmem, ⟨12, _⟩ => ⟨S152x384, .f32⟩
  | .local _ .vmem, ⟨13, _⟩ => ⟨S152x128, .f32⟩
  | .local _ .vmem, ⟨14, _⟩ => ⟨S152x128, .f32⟩
  | .local _ .vmem, ⟨15, _⟩ => ⟨S384x256, .f32⟩
  | .local _ .vmem, ⟨16, _⟩ => ⟨S128x256, .f32⟩
  | .local _ .vmem, ⟨17, _⟩ => ⟨S384x256, .f32⟩
  | .local _ .vmem, ⟨18, _⟩ => ⟨S128x256, .f32⟩
  | .local _ .vmem, ⟨19, _⟩ => ⟨S152x256, .f32⟩
  | .local _ .vmem, ⟨20, _⟩ => ⟨S152x256, .f32⟩
  | .local _ .vmem, ⟨21, _⟩ => ⟨S152x256, .f32⟩
  | .local _ .vmem, ⟨22, _⟩ => ⟨S152x256, .f32⟩
  | .local _ .vmem, ⟨23, _⟩ => ⟨S304x3040, .f32⟩
  | .local _ .vmem, ⟨24, _⟩ => ⟨S304x3040, .f32⟩
  | .local _ .vmem, ⟨25, _⟩ => ⟨S3040x256, .f32⟩
  | .local _ .vmem, ⟨26, _⟩ => ⟨S256x256, .f32⟩
  | .local _ .vmem, ⟨27, _⟩ => ⟨S304x256, .f32⟩
  | .local _ .vmem, ⟨28, _⟩ => ⟨S304x256, .f32⟩
  | .local _ .vmem, ⟨29, _⟩ => ⟨S3040x256, .bf16⟩
  | .local _ .vmem, ⟨30, _⟩ => ⟨S256x256, .bf16⟩
  | .local _ .vmem, ⟨31, _⟩ => ⟨S304x3040, .f32⟩
  | .local _ .vmem, ⟨32, _⟩ => ⟨S304x3040, .f32⟩
  | .local _ .vmem, ⟨33, _⟩ => ⟨S3040x256, .f32⟩
  | .local _ .vmem, ⟨34, _⟩ => ⟨S304x256, .f32⟩
  | .local _ .vmem, ⟨35, _⟩ => ⟨S304x256, .f32⟩
  | .local _ .vmem, ⟨36, _⟩ => ⟨S3040x256, .bf16⟩
  | .local _ .vmem, ⟨37, _⟩ => ⟨S304x3040, .f32⟩
  | .local _ .vmem, ⟨38, _⟩ => ⟨S304x3040, .f32⟩
  | .local _ .vmem, ⟨39, _⟩ => ⟨S3040x256, .f32⟩
  | .local _ .vmem, ⟨40, _⟩ => ⟨S256x256, .f32⟩
  | .local _ .vmem, ⟨41, _⟩ => ⟨S304x256, .f32⟩
  | .local _ .vmem, ⟨42, _⟩ => ⟨S304x256, .f32⟩
  | .local _ .vmem, ⟨43, _⟩ => ⟨S3040x256, .bf16⟩
  | .local _ .vmem, ⟨44, _⟩ => ⟨S256x256, .bf16⟩
  | .local _ .vmem, ⟨45, _⟩ => ⟨S304x3040, .f32⟩
  | .local _ .vmem, ⟨46, _⟩ => ⟨S304x3040, .f32⟩
  | .local _ .vmem, ⟨47, _⟩ => ⟨S3040x256, .f32⟩
  | .local _ .vmem, ⟨48, _⟩ => ⟨S304x256, .f32⟩
  | .local _ .vmem, ⟨49, _⟩ => ⟨S304x256, .f32⟩
  | .local _ .vmem, ⟨50, _⟩ => ⟨S3040x256, .bf16⟩
  | .local _ .vmem, ⟨51, _⟩ => ⟨S152x256, .f32⟩
  | .local _ .vmem, ⟨52, _⟩ => ⟨S152x256, .f32⟩
  | .local _ .vmem, ⟨53, _⟩ => ⟨S152x256, .f32⟩
  | .local _ .vmem, ⟨54, _⟩ => ⟨S152x256, .f32⟩
  | .local _ .vmem, ⟨55, _⟩ => ⟨S256x256, .f32⟩
  | .local _ .vmem, ⟨56, _⟩ => ⟨S256x256, .f32⟩
  | .local _ .vmem, ⟨57, _⟩ => ⟨S256x512, .f32⟩
  | .local _ .vmem, ⟨58, _⟩ => ⟨S512x256, .f32⟩
  | .local _ .vmem, ⟨59, _⟩ => ⟨S256x256, .f32⟩
  | .local _ .vmem, ⟨60, _⟩ => ⟨S152x256, .f32⟩
  | .local _ .vmem, ⟨61, _⟩ => ⟨S152x256, .f32⟩
  | .local _ .vmem, ⟨62, _⟩ => ⟨S152x256, .f32⟩
  | .local _ .vmem, ⟨63, _⟩ => ⟨S152x256, .f32⟩
  | .local _ .vmem, ⟨64, _⟩ => ⟨S256x256, .bf16⟩
  | .local _ .vmem, ⟨65, _⟩ => ⟨S256x256, .bf16⟩
  | .local _ .vmem, ⟨66, _⟩ => ⟨S256x512, .bf16⟩
  | .local _ .vmem, ⟨67, _⟩ => ⟨S512x256, .bf16⟩
  | .local _ .vmem, ⟨68, _⟩ => ⟨S256x256, .bf16⟩
  | .local _ .vmem, ⟨69, _⟩ => ⟨S304x256, .f32⟩
  | .local _ .vmem, ⟨70, _⟩ => ⟨S304x256, .f32⟩
  | .local _ .vmem, ⟨71, _⟩ => ⟨S3040x256, .f32⟩
  | .local _ .vmem, ⟨72, _⟩ => ⟨S304x3040, .f32⟩
  | .local _ .vmem, ⟨73, _⟩ => ⟨S304x3040, .f32⟩
  | .local _ .vmem, ⟨74, _⟩ => ⟨S3040x256, .bf16⟩
  | _, _ => ⟨S3040x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v13 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc4_scratch1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc5_scratch0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg6_0 : Ref sig .tc := ⟨.vmem, 59, rfl⟩
abbrev cc6_stg7_0 : Ref sig .tc := ⟨.vmem, 60, rfl⟩
abbrev cc6_stg7_1 : Ref sig .tc := ⟨.vmem, 61, rfl⟩
abbrev cc6_stg8_0 : Ref sig .tc := ⟨.vmem, 62, rfl⟩
abbrev cc6_stg8_1 : Ref sig .tc := ⟨.vmem, 63, rfl⟩
abbrev cc6_scratch0 : Ref sig .tc := ⟨.vmem, 64, rfl⟩
abbrev cc6_scratch1 : Ref sig .tc := ⟨.vmem, 65, rfl⟩
abbrev cc6_scratch2 : Ref sig .tc := ⟨.vmem, 66, rfl⟩
abbrev cc6_scratch3 : Ref sig .tc := ⟨.vmem, 67, rfl⟩
abbrev cc6_scratch4 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg2_1 : Ref sig .tc := ⟨.vmem, 73, rfl⟩
abbrev cc7_scratch0 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem7_1 : DmaSem sig := 55
abbrev cc6_sem8_0 : DmaSem sig := 56
abbrev cc6_sem8_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem2_1 : DmaSem sig := 62

abbrev nD : Nat := 1
abbrev τ : Topo := Topo.v7x

variable {F : FTy → Type} [FloatOps F]

abbrev grid0 : Pipeline.Grid := ⟨1, ![38], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x100 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x100x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S43x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S80x75x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S152x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S152x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S152x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S152x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S304x3040 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3040x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S304x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S304x3040 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3040x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S304x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S304x3040 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3040x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S304x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S304x3040 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3040x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S304x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S152x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S152x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S152x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S152x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S304x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3040x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S304x3040 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S80x100_S80x100_0_0 : ∀ a, (![0, 0] : Fin 2 → Nat) a + S80x100.size a ≤ S80x100.size a
  h_S80x100 : 0 < S80x100.numel
  iota_S80x100x43_d2_w32 : S80x100x43.Iotas .tc 32 [2]
  shapeCasts_S80x100_S80x100x1 : S80x100.ShapeCasts S80x100x1
  broadcasts_S80x100x1_S80x100x43 : S80x100x1.Broadcasts S80x100x43
  natLt_1_32 : 1 < 32
  bitsLt_bf16_f32 : FTy.bits .bf16 < FTy.bits .f32
  inb_S43x75_S43x75_0_0 : ∀ a, (![0, 0] : Fin 2 → Nat) a + S43x75.size a ≤ S43x75.size a
  h_S43x75 : 0 < S43x75.numel
  shapeCasts_S43x75_S1x43x75 : S43x75.ShapeCasts S1x43x75
  shapeCasts_S1x43x75_S1x43x75 : S1x43x75.ShapeCasts S1x43x75
  broadcasts_S1x43x75_S80x43x75 : S1x43x75.Broadcasts S80x43x75
  inb_S80x75x128_S80x75x128_0_0_0 : ∀ a, (![0, 0, 0] : Fin 3 → Nat) a + S80x75x128.size a ≤ S80x75x128.size a
  h_S80x75x128 : 0 < S80x75x128.numel
  inb_S80x100x100_S80x100x100_0_0_0 : ∀ a, (![0, 0, 0] : Fin 3 → Nat) a + S80x100x100.size a ≤ S80x100x100.size a
  h_S80x100x100 : 0 < S80x100x100.numel
  inb_S80x128x128_S80x128x128_0_0_0 : ∀ a, (![0, 0, 0] : Fin 3 → Nat) a + S80x128x128.size a ≤ S80x128x128.size a
  h_S80x128x128 : 0 < S80x128x128.numel
  reduces_S80x100x128_S80x128 : S80x100x128.Reduces [1] S80x128
  inb_S80x128_S80x128_0_0 : ∀ a, (![0, 0] : Fin 2 → Nat) a + S80x128.size a ≤ S80x128.size a
  h_S80x128 : 0 < S80x128.numel
  slices_S512x256_S384x256_0_0 : S512x256.Slices ![0, 0] S384x256
  slices_S512x256_S128x256_384_0 : S512x256.Slices ![384, 0] S128x256
  inb_S152x384_S152x384_0_0 : ∀ a, (![0, 0] : Fin 2 → Nat) a + S152x384.size a ≤ S152x384.size a
  h_S152x384 : 0 < S152x384.numel
  inb_S152x128_S152x128_0_0 : ∀ a, (![0, 0] : Fin 2 → Nat) a + S152x128.size a ≤ S152x128.size a
  h_S152x128 : 0 < S152x128.numel
  shapeCasts_S152x128_S152x128 : S152x128.ShapeCasts S152x128
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S152x256_S152x256_0_0 : ∀ a, (![0, 0] : Fin 2 → Nat) a + S152x256.size a ≤ S152x256.size a
  h_S152x256 : 0 < S152x256.numel
  inb_S3040x256_S3040x256_0_0 : ∀ a, (![0, 0] : Fin 2 → Nat) a + S3040x256.size a ≤ S3040x256.size a
  h_S3040x256 : 0 < S3040x256.numel
  shapeCasts_S3040x256_S3040x256 : S3040x256.ShapeCasts S3040x256
  packedbf16_S3040x256_S3040x256_0_0 : (Rect.unit (s := S3040x256) ![0, 0] S3040x256.size inb_S3040x256_S3040x256_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S304x3040_S304x3040_0_0 : ∀ a, (![0, 0] : Fin 2 → Nat) a + S304x3040.size a ≤ S304x3040.size a
  h_S304x3040 : 0 < S304x3040.numel
  inb_S304x256_S304x256_0_0 : ∀ a, (![0, 0] : Fin 2 → Nat) a + S304x256.size a ≤ S304x256.size a
  h_S304x256 : 0 < S304x256.numel
  slices_S512x256_S256x256_0_0 : S512x256.Slices ![0, 0] S256x256
  slices_S512x256_S256x256_256_0 : S512x256.Slices ![256, 0] S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  packedbf16_S256x512_S256x512_0_0 : (Rect.unit (s := S256x512) ![0, 0] S256x512.size inb_S256x512_S256x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  shapeCasts_S152x256_S152x256 : S152x256.ShapeCasts S152x256
  shapeCasts_S304x256_S304x256 : S304x256.ShapeCasts S304x256
  dot_S80x43x75_S80x75x128_S80x43x128_2_1_1_2_0_0_wf : DotDims.WF S80x43x75 S80x75x128 S80x43x128 [2] [1] [1] [2] [0] [0]
  dot_S80x100x43_S80x43x128_S80x100x128_2_1_1_2_0_0_wf : DotDims.WF S80x100x43 S80x43x128 S80x100x128 [2] [1] [1] [2] [0] [0]
  dot_S80x100x100_S80x100x128_S80x100x128_1_1_2_2_0_0_wf : DotDims.WF S80x100x100 S80x100x128 S80x100x128 [1] [1] [2] [2] [0] [0]
  dot_S80x100x128_S80x128x128_S80x100x128_2_1_1_2_0_0_wf : DotDims.WF S80x100x128 S80x128x128 S80x100x128 [2] [1] [1] [2] [0] [0]
  dot_S152x384_S384x256_S152x256_1_0_0_1_n_n_wf : DotDims.WF S152x384 S384x256 S152x256 [1] [0] [0] [1] [] []
  dot_S152x128_S128x256_S152x256_1_0_0_1_n_n_wf : DotDims.WF S152x128 S128x256 S152x256 [1] [0] [0] [1] [] []
  dot_S304x3040_S3040x256_S304x256_1_0_0_1_n_n_wf : DotDims.WF S304x3040 S3040x256 S304x256 [1] [0] [0] [1] [] []
  dot_S304x256_S256x256_S304x256_1_0_0_1_n_n_wf : DotDims.WF S304x256 S256x256 S304x256 [1] [0] [0] [1] [] []
  dot_S152x256_S256x256_S152x256_1_0_0_1_n_n_wf : DotDims.WF S152x256 S256x256 S152x256 [1] [0] [0] [1] [] []
  dot_S152x256_S256x512_S152x512_1_0_0_1_n_n_wf : DotDims.WF S152x256 S256x512 S152x512 [1] [0] [0] [1] [] []
  dot_S152x512_S512x256_S152x256_1_0_0_1_n_n_wf : DotDims.WF S152x512 S512x256 S152x256 [1] [0] [0] [1] [] []
  dot_S304x256_S3040x256_S304x3040_1_1_0_0_n_n_wf : DotDims.WF S304x256 S3040x256 S304x3040 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x100.size a ≤ S3040x100.size a
  hwx0_0 : ∀ i : grid0.Coords, EltTy.bits .i32 = 32 ∨ (Rect.block (s := S3040x100) S80x100.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x100x100.size a ≤ S3040x100x100.size a
  hwx0_1 : ∀ i : grid0.Coords, EltTy.bits .f32 = 32 ∨ (Rect.block (s := S3040x100x100) S80x100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S43x75.size a ≤ S43x75.size a
  hwx0_2 : ∀ i : grid0.Coords, EltTy.bits .f32 = 32 ∨ (Rect.block (s := S43x75) S43x75.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x75x128.size a ≤ S3040x75x128.size a
  hwx0_3 : ∀ i : grid0.Coords, EltTy.bits .f32 = 32 ∨ (Rect.block (s := S3040x75x128) S80x75x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x128x128.size a ≤ S3040x128x128.size a
  hwx0_4 : ∀ i : grid0.Coords, EltTy.bits .f32 = 32 ∨ (Rect.block (s := S3040x128x128) S80x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x128.size a ≤ S3040x128.size a
  hwx0_5 : ∀ i : grid0.Coords, EltTy.bits .f32 = 32 ∨ (Rect.block (s := S3040x128) S80x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S152x384.size a ≤ S3040x384.size a
  hwx1_0 : ∀ i : grid1.Coords, EltTy.bits .f32 = 32 ∨ (Rect.block (s := S3040x384) S152x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S152x128.size a ≤ S3040x128.size a
  hwx1_1 : ∀ i : grid1.Coords, EltTy.bits .f32 = 32 ∨ (Rect.block (s := S3040x128) S152x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x256.size a ≤ S384x256.size a
  hwx1_2 : ∀ i : grid1.Coords, EltTy.bits .f32 = 32 ∨ (Rect.block (s := S384x256) S384x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x256.size a ≤ S384x256.size a
  hwx1_4 : ∀ i : grid1.Coords, EltTy.bits .f32 = 32 ∨ (Rect.block (s := S384x256) S384x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S152x256.size a ≤ S3040x256.size a
  hwx1_6 : ∀ i : grid1.Coords, EltTy.bits .f32 = 32 ∨ (Rect.block (s := S3040x256) S152x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S152x256.size a ≤ S3040x256.size a
  hwx1_7 : ∀ i : grid1.Coords, EltTy.bits .f32 = 32 ∨ (Rect.block (s := S3040x256) S152x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S304x3040.size a ≤ S3040x3040.size a
  hwx2_0 : ∀ i : grid2.Coords, EltTy.bits .f32 = 32 ∨ (Rect.block (s := S3040x3040) S304x3040.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3040x256.size a ≤ S3040x256.size a
  hwx2_1 : ∀ i : grid2.Coords, EltTy.bits .f32 = 32 ∨ (Rect.block (s := S3040x256) S3040x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S304x256.size a ≤ S3040x256.size a
  hwx2_3 : ∀ i : grid2.Coords, EltTy.bits .f32 = 32 ∨ (Rect.block (s := S3040x256) S304x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S304x3040.size a ≤ S3040x3040.size a
  hwx3_0 : ∀ i : grid3.Coords, EltTy.bits .f32 = 32 ∨ (Rect.block (s := S3040x3040) S304x3040.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S3040x256.size a ≤ S3040x256.size a
  hwx3_1 : ∀ i : grid3.Coords, EltTy.bits .f32 = 32 ∨ (Rect.block (s := S3040x256) S3040x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S304x256.size a ≤ S3040x256.size a
  hwx3_2 : ∀ i : grid3.Coords, EltTy.bits .f32 = 32 ∨ (Rect.block (s := S3040x256) S304x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S304x3040.size a ≤ S3040x3040.size a
  hwx4_0 : ∀ i : grid4.Coords, EltTy.bits .f32 = 32 ∨ (Rect.block (s := S3040x3040) S304x3040.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3040x256.size a ≤ S3040x256.size a
  hwx4_1 : ∀ i : grid4.Coords, EltTy.bits .f32 = 32 ∨ (Rect.block (s := S3040x256) S3040x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S304x256.size a ≤ S3040x256.size a
  hwx4_3 : ∀ i : grid4.Coords, EltTy.bits .f32 = 32 ∨ (Rect.block (s := S3040x256) S304x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S304x3040.size a ≤ S3040x3040.size a
  hwx5_0 : ∀ i : grid5.Coords, EltTy.bits .f32 = 32 ∨ (Rect.block (s := S3040x3040) S304x3040.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3040x256.size a ≤ S3040x256.size a
  hwx5_1 : ∀ i : grid5.Coords, EltTy.bits .f32 = 32 ∨ (Rect.block (s := S3040x256) S3040x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S304x256.size a ≤ S3040x256.size a
  hwx5_2 : ∀ i : grid5.Coords, EltTy.bits .f32 = 32 ∨ (Rect.block (s := S3040x256) S304x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S152x256.size a ≤ S3040x256.size a
  hwx6_0 : ∀ i : grid6.Coords, EltTy.bits .f32 = 32 ∨ (Rect.block (s := S3040x256) S152x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S152x256.size a ≤ S3040x256.size a
  hwx6_1 : ∀ i : grid6.Coords, EltTy.bits .f32 = 32 ∨ (Rect.block (s := S3040x256) S152x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x512.size a ≤ S256x512.size a
  hwx6_4 : ∀ i : grid6.Coords, EltTy.bits .f32 = 32 ∨ (Rect.block (s := S256x512) S256x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x256.size a ≤ S512x256.size a
  hwx6_5 : ∀ i : grid6.Coords, EltTy.bits .f32 = 32 ∨ (Rect.block (s := S512x256) S512x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x256.size a ≤ S256x256.size a
  hwx6_6 : ∀ i : grid6.Coords, EltTy.bits .f32 = 32 ∨ (Rect.block (s := S256x256) S256x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S152x256.size a ≤ S3040x256.size a
  hwx6_7 : ∀ i : grid6.Coords, EltTy.bits .f32 = 32 ∨ (Rect.block (s := S3040x256) S152x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S152x256.size a ≤ S3040x256.size a
  hwx6_8 : ∀ i : grid6.Coords, EltTy.bits .f32 = 32 ∨ (Rect.block (s := S3040x256) S152x256.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S304x256.size a ≤ S3040x256.size a
  hwx7_0 : ∀ i : grid7.Coords, EltTy.bits .f32 = 32 ∨ (Rect.block (s := S3040x256) S304x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S3040x256.size a ≤ S3040x256.size a
  hwx7_1 : ∀ i : grid7.Coords, EltTy.bits .f32 = 32 ∨ (Rect.block (s := S3040x256) S3040x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S304x3040.size a ≤ S3040x3040.size a
  hwx7_2 : ∀ i : grid7.Coords, EltTy.bits .f32 = 32 ∨ (Rect.block (s := S3040x3040) S304x3040.size (cc7_transform_2 i) (hinb7_2 i)).WholeWords (EltTy.packing .f32)

variable [Facts₀]

def dot_S80x43x75_S80x75x128_S80x43x128_2_1_1_2_0_0 : DotDims S80x43x75 S80x75x128 S80x43x128 where
  lhsContracting := [2]
  rhsContracting := [1]
  lhsNonContracting := [1]
  rhsNonContracting := [2]
  lhsBatch := [0]
  rhsBatch := [0]
  wf := dot_S80x43x75_S80x75x128_S80x43x128_2_1_1_2_0_0_wf
def dot_S80x100x43_S80x43x128_S80x100x128_2_1_1_2_0_0 : DotDims S80x100x43 S80x43x128 S80x100x128 where
  lhsContracting := [2]
  rhsContracting := [1]
  lhsNonContracting := [1]
  rhsNonContracting := [2]
  lhsBatch := [0]
  rhsBatch := [0]
  wf := dot_S80x100x43_S80x43x128_S80x100x128_2_1_1_2_0_0_wf
def dot_S80x100x100_S80x100x128_S80x100x128_1_1_2_2_0_0 : DotDims S80x100x100 S80x100x128 S80x100x128 where
  lhsContracting := [1]
  rhsContracting := [1]
  lhsNonContracting := [2]
  rhsNonContracting := [2]
  lhsBatch := [0]
  rhsBatch := [0]
  wf := dot_S80x100x100_S80x100x128_S80x100x128_1_1_2_2_0_0_wf
def dot_S80x100x128_S80x128x128_S80x100x128_2_1_1_2_0_0 : DotDims S80x100x128 S80x128x128 S80x100x128 where
  lhsContracting := [2]
  rhsContracting := [1]
  lhsNonContracting := [1]
  rhsNonContracting := [2]
  lhsBatch := [0]
  rhsBatch := [0]
  wf := dot_S80x100x128_S80x128x128_S80x100x128_2_1_1_2_0_0_wf
def dot_S152x384_S384x256_S152x256_1_0_0_1_n_n : DotDims S152x384 S384x256 S152x256 where
  lhsContracting := [1]
  rhsContracting := [0]
  lhsNonContracting := [0]
  rhsNonContracting := [1]
  lhsBatch := []
  rhsBatch := []
  wf := dot_S152x384_S384x256_S152x256_1_0_0_1_n_n_wf
def dot_S152x128_S128x256_S152x256_1_0_0_1_n_n : DotDims S152x128 S128x256 S152x256 where
  lhsContracting := [1]
  rhsContracting := [0]
  lhsNonContracting := [0]
  rhsNonContracting := [1]
  lhsBatch := []
  rhsBatch := []
  wf := dot_S152x128_S128x256_S152x256_1_0_0_1_n_n_wf
def dot_S304x3040_S3040x256_S304x256_1_0_0_1_n_n : DotDims S304x3040 S3040x256 S304x256 where
  lhsContracting := [1]
  rhsContracting := [0]
  lhsNonContracting := [0]
  rhsNonContracting := [1]
  lhsBatch := []
  rhsBatch := []
  wf := dot_S304x3040_S3040x256_S304x256_1_0_0_1_n_n_wf
def dot_S304x256_S256x256_S304x256_1_0_0_1_n_n : DotDims S304x256 S256x256 S304x256 where
  lhsContracting := [1]
  rhsContracting := [0]
  lhsNonContracting := [0]
  rhsNonContracting := [1]
  lhsBatch := []
  rhsBatch := []
  wf := dot_S304x256_S256x256_S304x256_1_0_0_1_n_n_wf
def dot_S152x256_S256x256_S152x256_1_0_0_1_n_n : DotDims S152x256 S256x256 S152x256 where
  lhsContracting := [1]
  rhsContracting := [0]
  lhsNonContracting := [0]
  rhsNonContracting := [1]
  lhsBatch := []
  rhsBatch := []
  wf := dot_S152x256_S256x256_S152x256_1_0_0_1_n_n_wf
def dot_S152x256_S256x512_S152x512_1_0_0_1_n_n : DotDims S152x256 S256x512 S152x512 where
  lhsContracting := [1]
  rhsContracting := [0]
  lhsNonContracting := [0]
  rhsNonContracting := [1]
  lhsBatch := []
  rhsBatch := []
  wf := dot_S152x256_S256x512_S152x512_1_0_0_1_n_n_wf
def dot_S152x512_S512x256_S152x256_1_0_0_1_n_n : DotDims S152x512 S512x256 S152x256 where
  lhsContracting := [1]
  rhsContracting := [0]
  lhsNonContracting := [0]
  rhsNonContracting := [1]
  lhsBatch := []
  rhsBatch := []
  wf := dot_S152x512_S512x256_S152x256_1_0_0_1_n_n_wf
def dot_S304x256_S3040x256_S304x3040_1_1_0_0_n_n : DotDims S304x256 S3040x256 S304x3040 where
  lhsContracting := [1]
  rhsContracting := [1]
  lhsNonContracting := [0]
  rhsNonContracting := [0]
  lhsBatch := []
  rhsBatch := []
  wf := dot_S304x256_S3040x256_S304x3040_1_1_0_0_n_n_wf

abbrev win0_0 : Pipeline.Window sig grid0 :=
  Pipeline.Window.ofSpec (Memref.whole main_arg4) S80x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S80x100x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S43x75.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S80x75x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S80x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S80x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S152x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S152x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S384x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S384x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S152x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S152x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S304x3040.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S3040x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S304x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S304x3040.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S3040x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S304x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg2) S304x3040.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5_1) S3040x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S304x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S304x3040.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S3040x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v9) S304x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v7) S152x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S152x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v10) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v11) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg13) S256x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg14) S512x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg15) S256x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v12_0) S152x256.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v12_1) S152x256.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v12_1) S304x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12_0) S3040x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v13) S304x3040.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S3040x384 : Shape := ⟨2, ![3040, 384]⟩
abbrev S3040x3040 : Shape := ⟨2, ![3040, 3040]⟩
abbrev S3040x100x100 : Shape := ⟨3, ![3040, 100, 100]⟩
abbrev S3040x100 : Shape := ⟨2, ![3040, 100]⟩
abbrev S43x75 : Shape := ⟨2, ![43, 75]⟩
abbrev S3040x75x128 : Shape := ⟨3, ![3040, 75, 128]⟩
abbrev S3040x128x128 : Shape := ⟨3, ![3040, 128, 128]⟩
abbrev S512x256 : Shape := ⟨2, ![512, 256]⟩
abbrev S256x256 : Shape := ⟨2, ![256, 256]⟩
abbrev S256x512 : Shape := ⟨2, ![256, 512]⟩
abbrev S_ : Shape := ⟨0, ![]⟩
abbrev S3040x100x1 : Shape := ⟨3, ![3040, 100, 1]⟩
abbrev S3040x100x75 : Shape := ⟨3, ![3040, 100, 75]⟩
abbrev S3040x75x100 : Shape := ⟨3, ![3040, 75, 100]⟩
abbrev S3040x100x128 : Shape := ⟨3, ![3040, 100, 128]⟩
abbrev S3040x128x100 : Shape := ⟨3, ![3040, 128, 100]⟩
abbrev S3040x128 : Shape := ⟨2, ![3040, 128]⟩
abbrev S3040x512 : Shape := ⟨2, ![3040, 512]⟩
abbrev S3040x256 : Shape := ⟨2, ![3040, 256]⟩
abbrev S256x3040 : Shape := ⟨2, ![256, 3040]⟩

abbrev nBuf : Space → Nat
  | .hbm => 59
  | .vmem => 0
  | .smem => 0
  | _ => 0

abbrev bufTy : (tb : Table) → Fin (tcTables nBuf tb) → BufTy
  | .hbm, ⟨0, _⟩ => ⟨S3040x384, .f32⟩
  | .hbm, ⟨1, _⟩ => ⟨S3040x3040, .f32⟩
  | .hbm, ⟨2, _⟩ => ⟨S3040x3040, .f32⟩
  | .hbm, ⟨3, _⟩ => ⟨S3040x100x100, .f32⟩
  | .hbm, ⟨4, _⟩ => ⟨S3040x100, .i32⟩
  | .hbm, ⟨5, _⟩ => ⟨S43x75, .f32⟩
  | .hbm, ⟨6, _⟩ => ⟨S3040x75x128, .f32⟩
  | .hbm, ⟨7, _⟩ => ⟨S3040x128x128, .f32⟩
  | .hbm, ⟨8, _⟩ => ⟨S512x256, .f32⟩
  | .hbm, ⟨9, _⟩ => ⟨S256x256, .f32⟩
  | .hbm, ⟨10, _⟩ => ⟨S512x256, .f32⟩
  | .hbm, ⟨11, _⟩ => ⟨S256x256, .f32⟩
  | .hbm, ⟨12, _⟩ => ⟨S512x256, .f32⟩
  | .hbm, ⟨13, _⟩ => ⟨S256x512, .f32⟩
  | .hbm, ⟨14, _⟩ => ⟨S512x256, .f32⟩
  | .hbm, ⟨15, _⟩ => ⟨S256x256, .f32⟩
  | .hbm, ⟨16, _⟩ => ⟨S_, .i32⟩
  | .hbm, ⟨17, _⟩ => ⟨S3040x100, .i32⟩
  | .hbm, ⟨18, _⟩ => ⟨S3040x100, .i1⟩
  | .hbm, ⟨19, _⟩ => ⟨S_, .i32⟩
  | .hbm, ⟨20, _⟩ => ⟨S3040x100, .i32⟩
  | .hbm, ⟨21, _⟩ => ⟨S3040x100, .i32⟩
  | .hbm, ⟨22, _⟩ => ⟨S3040x100, .i32⟩
  | .hbm, ⟨23, _⟩ => ⟨S3040x100x1, .i32⟩
  | .hbm, ⟨24, _⟩ => ⟨S3040x100x75, .f32⟩
  | .hbm, ⟨25, _⟩ => ⟨S3040x75x100, .f32⟩
  | .hbm, ⟨26, _⟩ => ⟨S3040x100x128, .f32⟩
  | .hbm, ⟨27, _⟩ => ⟨S3040x128x100, .f32⟩
  | .hbm, ⟨28, _⟩ => ⟨S3040x100x128, .f32⟩
  | .hbm, ⟨29, _⟩ => ⟨S_, .f32⟩
  | .hbm, ⟨30, _⟩ => ⟨S3040x128, .f32⟩
  | .hbm, ⟨31, _⟩ => ⟨S3040x512, .f32⟩
  | .hbm, ⟨32, _⟩ => ⟨S3040x256, .f32⟩
  | .hbm, ⟨33, _⟩ => ⟨S3040x256, .f32⟩
  | .hbm, ⟨34, _⟩ => ⟨S_, .f32⟩
  | .hbm, ⟨35, _⟩ => ⟨S3040x256, .f32⟩
  | .hbm, ⟨36, _⟩ => ⟨S3040x256, .f32⟩
  | .hbm, ⟨37, _⟩ => ⟨S3040x256, .f32⟩
  | .hbm, ⟨38, _⟩ => ⟨S3040x256, .f32⟩
  | .hbm, ⟨39, _⟩ => ⟨S3040x256, .f32⟩
  | .hbm, ⟨40, _⟩ => ⟨S3040x256, .f32⟩
  | .hbm, ⟨41, _⟩ => ⟨S_, .f32⟩
  | .hbm, ⟨42, _⟩ => ⟨S3040x256, .f32⟩
  | .hbm, ⟨43, _⟩ => ⟨S3040x256, .f32⟩
  | .hbm, ⟨44, _⟩ => ⟨S3040x256, .f32⟩
  | .hbm, ⟨45, _⟩ => ⟨S3040x256, .f32⟩
  | .hbm, ⟨46, _⟩ => ⟨S3040x512, .f32⟩
  | .hbm, ⟨47, _⟩ => ⟨S3040x256, .f32⟩
  | .hbm, ⟨48, _⟩ => ⟨S_, .f32⟩
  | .hbm, ⟨49, _⟩ => ⟨S3040x256, .f32⟩
  | .hbm, ⟨50, _⟩ => ⟨S3040x256, .f32⟩
  | .hbm, ⟨51, _⟩ => ⟨S3040x512, .f32⟩
  | .hbm, ⟨52, _⟩ => ⟨S_, .f32⟩
  | .hbm, ⟨53, _⟩ => ⟨S3040x512, .f32⟩
  | .hbm, ⟨54, _⟩ => ⟨S3040x512, .f32⟩
  | .hbm, ⟨55, _⟩ => ⟨S3040x256, .f32⟩
  | .hbm, ⟨56, _⟩ => ⟨S3040x256, .f32⟩
  | .hbm, ⟨57, _⟩ => ⟨S256x3040, .f32⟩
  | .hbm, ⟨58, _⟩ => ⟨S3040x3040, .f32⟩
  | _, _ => ⟨S3040x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_cst : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_cst : Ref sig .tc := ⟨.hbm, 41, rfl⟩
abbrev main_call1_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call2_cst : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_call3_cst : Ref sig .tc := ⟨.hbm, 52, rfl⟩
abbrev main_call3_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]

class Facts₀ : Prop where
  bcast_S_S3040x100 : S_.BroadcastsInDim S3040x100 (![] : Fin 0 → Fin S3040x100.rank)
  bcast_S3040x100_S3040x100x1_0_1 : S3040x100.BroadcastsInDim S3040x100x1 (![0, 1] : Fin 2 → Fin S3040x100x1.rank)
  reducesTo_S3040x100x128_S3040x128_d1 : S3040x100x128.ReducesTo [1] S3040x128
  h_S_ : 0 < S_.numel
  concatenates_S3040x384_S3040x128_S3040x512_d1 : Shape.Concatenates [S3040x384, S3040x128] S3040x512 1
  bcast_S_S3040x256 : S_.BroadcastsInDim S3040x256 (![] : Fin 0 → Fin S3040x256.rank)
  concatenates_S3040x256_S3040x256_S3040x512_d1 : Shape.Concatenates [S3040x256, S3040x256] S3040x512 1
  bcast_S_S3040x512 : S_.BroadcastsInDim S3040x512 (![] : Fin 0 → Fin S3040x512.rank)
  transposes_S3040x256_S256x3040_1_0 : S3040x256.Transposes [1, 0] S256x3040
  gather_S43x75_S3040x100x1_S3040x100x75_2_0_n_n_0_2_175_wf : GatherDims.WF S43x75 S3040x100x1 S3040x100x75 [2] [0] [] [0] [] 2 ![1, 75]
  dot_S3040x100x75_S3040x100x100_S3040x75x100_1_1_2_2_0_0_wf : DotDims.WF S3040x100x75 S3040x100x100 S3040x75x100 [1] [1] [2] [2] [0] [0]
  dot_S3040x75x100_S3040x75x128_S3040x100x128_1_1_2_2_0_0_wf : DotDims.WF S3040x75x100 S3040x75x128 S3040x100x128 [1] [1] [2] [2] [0] [0]
  dot_S3040x100x128_S3040x100x100_S3040x128x100_1_1_2_2_0_0_wf : DotDims.WF S3040x100x128 S3040x100x100 S3040x128x100 [1] [1] [2] [2] [0] [0]
  dot_S3040x128x100_S3040x128x128_S3040x100x128_1_1_2_2_0_0_wf : DotDims.WF S3040x128x100 S3040x128x128 S3040x100x128 [1] [1] [2] [2] [0] [0]
  dot_S3040x512_S512x256_S3040x256_1_0_0_1_n_n_wf : DotDims.WF S3040x512 S512x256 S3040x256 [1] [0] [0] [1] [] []
  dot_S3040x3040_S3040x256_S3040x256_1_0_0_1_n_n_wf : DotDims.WF S3040x3040 S3040x256 S3040x256 [1] [0] [0] [1] [] []
  dot_S3040x256_S256x256_S3040x256_1_0_0_1_n_n_wf : DotDims.WF S3040x256 S256x256 S3040x256 [1] [0] [0] [1] [] []
  dot_S3040x256_S256x512_S3040x512_1_0_0_1_n_n_wf : DotDims.WF S3040x256 S256x512 S3040x512 [1] [0] [0] [1] [] []
  dot_S3040x256_S256x3040_S3040x3040_1_0_0_1_n_n_wf : DotDims.WF S3040x256 S256x3040 S3040x3040 [1] [0] [0] [1] [] []

variable [Facts₀]

def gather_S43x75_S3040x100x1_S3040x100x75_2_0_n_n_0_2_175 : GatherDims S43x75 S3040x100x1 S3040x100x75 where
  offsetDims := [2]
  collapsedSliceDims := [0]
  operandBatchingDims := []
  startIndicesBatchingDims := []
  startIndexMap := [0]
  indexVectorDim := 2
  sliceSizes := ![1, 75]
  wf := gather_S43x75_S3040x100x1_S3040x100x75_2_0_n_n_0_2_175_wf
def dot_S3040x100x75_S3040x100x100_S3040x75x100_1_1_2_2_0_0 : DotDims S3040x100x75 S3040x100x100 S3040x75x100 where
  lhsContracting := [1]
  rhsContracting := [1]
  lhsNonContracting := [2]
  rhsNonContracting := [2]
  lhsBatch := [0]
  rhsBatch := [0]
  wf := dot_S3040x100x75_S3040x100x100_S3040x75x100_1_1_2_2_0_0_wf
def dot_S3040x75x100_S3040x75x128_S3040x100x128_1_1_2_2_0_0 : DotDims S3040x75x100 S3040x75x128 S3040x100x128 where
  lhsContracting := [1]
  rhsContracting := [1]
  lhsNonContracting := [2]
  rhsNonContracting := [2]
  lhsBatch := [0]
  rhsBatch := [0]
  wf := dot_S3040x75x100_S3040x75x128_S3040x100x128_1_1_2_2_0_0_wf
def dot_S3040x100x128_S3040x100x100_S3040x128x100_1_1_2_2_0_0 : DotDims S3040x100x128 S3040x100x100 S3040x128x100 where
  lhsContracting := [1]
  rhsContracting := [1]
  lhsNonContracting := [2]
  rhsNonContracting := [2]
  lhsBatch := [0]
  rhsBatch := [0]
  wf := dot_S3040x100x128_S3040x100x100_S3040x128x100_1_1_2_2_0_0_wf
def dot_S3040x128x100_S3040x128x128_S3040x100x128_1_1_2_2_0_0 : DotDims S3040x128x100 S3040x128x128 S3040x100x128 where
  lhsContracting := [1]
  rhsContracting := [1]
  lhsNonContracting := [2]
  rhsNonContracting := [2]
  lhsBatch := [0]
  rhsBatch := [0]
  wf := dot_S3040x128x100_S3040x128x128_S3040x100x128_1_1_2_2_0_0_wf
def dot_S3040x512_S512x256_S3040x256_1_0_0_1_n_n : DotDims S3040x512 S512x256 S3040x256 where
  lhsContracting := [1]
  rhsContracting := [0]
  lhsNonContracting := [0]
  rhsNonContracting := [1]
  lhsBatch := []
  rhsBatch := []
  wf := dot_S3040x512_S512x256_S3040x256_1_0_0_1_n_n_wf
def dot_S3040x3040_S3040x256_S3040x256_1_0_0_1_n_n : DotDims S3040x3040 S3040x256 S3040x256 where
  lhsContracting := [1]
  rhsContracting := [0]
  lhsNonContracting := [0]
  rhsNonContracting := [1]
  lhsBatch := []
  rhsBatch := []
  wf := dot_S3040x3040_S3040x256_S3040x256_1_0_0_1_n_n_wf
def dot_S3040x256_S256x256_S3040x256_1_0_0_1_n_n : DotDims S3040x256 S256x256 S3040x256 where
  lhsContracting := [1]
  rhsContracting := [0]
  lhsNonContracting := [0]
  rhsNonContracting := [1]
  lhsBatch := []
  rhsBatch := []
  wf := dot_S3040x256_S256x256_S3040x256_1_0_0_1_n_n_wf
def dot_S3040x256_S256x512_S3040x512_1_0_0_1_n_n : DotDims S3040x256 S256x512 S3040x512 where
  lhsContracting := [1]
  rhsContracting := [0]
  lhsNonContracting := [0]
  rhsNonContracting := [1]
  lhsBatch := []
  rhsBatch := []
  wf := dot_S3040x256_S256x512_S3040x512_1_0_0_1_n_n_wf
def dot_S3040x256_S256x3040_S3040x3040_1_0_0_1_n_n : DotDims S3040x256 S256x3040 S3040x3040 where
  lhsContracting := [1]
  rhsContracting := [0]
  lhsNonContracting := [0]
  rhsNonContracting := [1]
  lhsBatch := []
  rhsBatch := []
  wf := dot_S3040x256_S256x3040_S3040x3040_1_0_0_1_n_n_wf

class Facts : Prop extends Facts₀ where

variable [Facts]
-- ==== Proof.FrameW.R0.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev encAll0 : Rect S80x100 := Rect.unit (s := S80x100) ![0, 0] S80x100.size inb_S80x100_S80x100_0_0
abbrev adjAll0 : Rect S80x100x100 := Rect.unit (s := S80x100x100) ![0, 0, 0] S80x100x100.size inb_S80x100x100_S80x100x100_0_0_0
abbrev tokAll0 : Rect S43x75 := Rect.unit (s := S43x75) ![0, 0] S43x75.size inb_S43x75_S43x75_0_0
abbrev w1All0 : Rect S80x75x128 := Rect.unit (s := S80x75x128) ![0, 0, 0] S80x75x128.size inb_S80x75x128_S80x75x128_0_0_0
abbrev w2All0 : Rect S80x128x128 := Rect.unit (s := S80x128x128) ![0, 0, 0] S80x128x128.size inb_S80x128x128_S80x128x128_0_0_0
abbrev embAll0 : Rect S80x128 := Rect.unit (s := S80x128) ![0, 0] S80x128.size inb_S80x128_S80x128_0_0

def embTile (enc : Vec F S80x100 .i32) (adj : Vec F S80x100x100 .f32) (tok : Vec F S43x75 .f32)
    (w1 : Vec F S80x75x128 .f32) (w2 : Vec F S80x128x128 .f32) : Vec F S80x128 .f32 :=
  View.canon [⟨embAll0, k0_pay1 (View.ld enc encAll0) (View.ld tok tokAll0) (View.ld w1 w1All0) (View.ld adj adjAll0) (View.ld w2 w2All0)⟩]

set_option maxHeartbeats 1000000 in
/-- The body reads five arrays whole and writes `embTile` of them over the whole of the sixth: one piece of full size covers it. -/
theorem embBody_run (c : Dev nD) (E : Set ℕ) (i : grid0.Coords)
    (a1 : Memref sig .tc .vmem S80x100 .i32) (h1 : a1.IsWhole) (a2 : Memref sig .tc .vmem S80x100x100 .f32) (h2 : a2.IsWhole)
    (a3 : Memref sig .tc .vmem S43x75 .f32) (h3 : a3.IsWhole) (a4 : Memref sig .tc .vmem S80x75x128 .f32) (h4 : a4.IsWhole)
    (a5 : Memref sig .tc .vmem S80x128x128 .f32) (h5 : a5.IsWhole) (a6 : Memref sig .tc .vmem S80x128 .f32) (h6 : a6.IsWhole)
    (enc : Vec F S80x100 .i32) (adj : Vec F S80x100x100 .f32) (tok : Vec F S43x75 .f32)
    (w1 : Vec F S80x75x128 .f32) (w2 : Vec F S80x128x128 .f32) (d : Vec F S80x128 .f32) (K : PUnit → sProp 𝕄) :
    iprop((owns c a6 fullShare d ∗ owns c a1 fullShare enc ∗ owns c a2 fullShare adj
        ∗ owns c a3 fullShare tok ∗ owns c a4 fullShare w1 ∗ owns c a5 fullShare w2)
        ∗ (iprop(owns c a6 fullShare (embTile enc adj tok w1 w2) ∗ owns c a1 fullShare enc
            ∗ owns c a2 fullShare adj ∗ owns c a3 fullShare tok ∗ owns c a4 fullShare w1
            ∗ owns c a5 fullShare w2) -∗ K ⟨⟩))
      ⊢ wp frame (wpE (defs₀ (F := F)) Variants.none c none) E (cc0__gcn_smile_kernel i a1 h1 a2 h2 a3 h3 a4 h4 a5 h5 a6 h6) K := by
  simp only [cc0__gcn_smile_kernel_eq_skeleton]; unfold cc0__gcn_smile_kernel_skel owns
  iintro ⟨⟨⟨%f6, -, H6⟩, ⟨%f1, %e1, H1⟩, ⟨%f2, %e2, H2⟩, ⟨%f3, %e3, H3⟩, ⟨%f4, %e4, H4⟩, %f5, %e5, H5⟩, Hk⟩
  subst e1 e2 e3 e4 e5
  sl_exec
  sl_step
  iapply Hk
  isplitl [H6]
  · iexists _; isplitr
    swap; · iexact H6
    ipureintro; exact View.read_writes_eq_canon _ _ _ (View.cover_of_tiled _ S80x128.size (by rfl))
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => embTile (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem q_eq0 (c : Dev nD) (w : Fin cfg0.W) : (dat0 V c).q w = fullShare := rfl

theorem owed_eq0 (c : Dev nD) (t : Fin (cfg0.N + 1)) : (dat0 V c).owed t = 0 := rfl

theorem after0_5 (c : Dev nD) (t : Fin cfg0.N) : (dat0 V c).after 5 t
    = embTile (iblk0 V c 0 t) (iblk0 V c 1 t) (iblk0 V c 2 t) (iblk0 V c 3 t) (iblk0 V c 4 t) := by dsimp only [dat0]

/-- The body returns every input unchanged, so an input window reads its block at every point. -/
theorem before0 (c : Dev nD) : ∀ w : Fin cfg0.W, w ≠ 5 → ∀ (t : Fin cfg0.N) d, (dat0 V c).before w t d = (dat0 V c).fetched w t d
  | ⟨5, _⟩, h, _, _ => absurd rfl h
  | ⟨0, _⟩, _, t, d | ⟨1, _⟩, _, t, d | ⟨2, _⟩, _, t, d | ⟨3, _⟩, _, t, d | ⟨4, _⟩, _, t, d =>
    (dat0 V c).before_in_eq_fetched _ rfl (fun _ => rfl) (fun _ _ _ => rfl) (fun _ => rfl) t d

/-- At every point `embBody_run` applies to the windows' blocks; the invariant and the debt are framed. -/
theorem sound_body0 (c : Dev nD) (t : Fin cfg0.N) :
    iprop((dat0 V c).Φ t.castSucc ∗ (dat0 V c).owesAt () t.castSucc ∗ bigSep Finset.univ fun w : Fin cfg0.W =>
        iprop(∃ d, owns c ((cfg0.win w).stage (cfg0.slots t w)) fullShare ((dat0 V c).before w t d)))
      ⊢ wp frame (wpE (defs₀ (F := F)) Variants.none c none) Set.univ (bodyAt0 t) fun _ =>
        iprop((dat0 V c).Φ t.castSucc ∗ (dat0 V c).owesAt () t.castSucc ∗ bigSep Finset.univ fun w : Fin cfg0.W =>
          owns c ((cfg0.win w).stage (cfg0.slots t w)) fullShare ((dat0 V c).after w t)) := by
  rw [bigSep_W0, bigSep_W0]
  simp (disch := decide) only [before0 V c]
  dsimp only [dat0]
  iintro ⟨HΦ, Ho, ⟨%_, H0⟩, ⟨%_, H1⟩, ⟨%_, H2⟩, ⟨%_, H3⟩, ⟨%_, H4⟩, ⟨%_, H5⟩⟩
  iapply (embBody_run c Set.univ _ _ _ _ _ _ _ _ _ _ _ _ _ (iblk0 V c 0 t) (iblk0 V c 1 t) (iblk0 V c 2 t) (iblk0 V c 3 t) (iblk0 V c 4 t) _ _)
  isplitr [HΦ Ho]; · sl_close
  iintro ⟨H5, H0, H1, H2, H3, H4⟩
  iframe

theorem body_obligation0 (c : Dev nD) : BodyObligation (dat0 (F := F) V c) (defs₀ (F := F)) Variants.none () Set.univ := fun t => by
  have h := sound_body0 V c t
  rw [bigSep_W0, bigSep_W0] at h ⊢
  exact h

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Hand

end
-- ==== Proof.LibAccess.lean ====
import Idealize.ShloMosaic.Lib.Pipeline.FrameBody
import Idealize.ShloMosaic.Lib.Pipeline.Value
import Idealize.ShloMosaic.Lib.Tactic

namespace Cert.Access

open Idealize.ShloMosaic Idealize.SL Idealize.SL.RA Idealize.SL.BI
open scoped Idealize.SL.BI
open Idealize.SL.BI.BIBase Idealize.SL.BI.Laws Idealize.SL.ProofMode

-- An access to a whole rank-two buffer sits at the origin.
theorem at_origin : (![0, 0] : Fin 2 → ℕ) = fun _ => 0 := funext fun a => by fin_cases a <;> rfl

variable {Val : EltTy → Type} {sig : RefSig}

section
variable {κ : Kind} {sp : Space} {S : Shape} {e : EltTy}

-- One store over the whole shape leaves its payload, whatever was there: the store covers every index.
theorem read_store_origin [∀ e, Nonempty (Val e)] (v : View sig κ sp S e) (f : v.ty.Contents Val) {off : Fin S.rank → ℕ}
    (h : off = fun _ => 0) (inb : ∀ a, off a + S.size a ≤ S.size a) (w : S.Idx → Val e) :
    v.read Val (v.writes Val f [⟨Rect.unit off S.size inb, w⟩]) = w := by
  rw [View.read_writes_eq_canon _ _ _ fun y => ⟨_, List.mem_singleton_self _, View.mem_set_unit_zero h inb y⟩, View.canon_unit_zero h]

-- A load over the whole shape reads the contents.
theorem readAt_origin (v : View sig κ sp S e) (f : v.ty.Contents Val) {off : Fin S.rank → ℕ} (h : off = fun _ => 0)
    (inb : ∀ a, off a + S.size a ≤ S.size a) : v.readAt Val (Rect.unit off S.size inb).toLoadRect f = v.read Val f :=
  View.ld_unit_zero h inb _

end

variable {nD : Nat} {τ : Topo} {Ix : Type} [DecidableEq Ix] {Name : Type} [DecidableEq Name] {U : Type} [URA U] {Lvl : Type}

-- A points-to is ownership at whatever its contents read as.
theorem own_ret (c : Thread nD τ) {sp : Space} {sh : Shape} {e : EltTy} (m : Memref sig c.2.kind sp sh e) (q : PosShare TreeShare)
    (f : m.view.ty.Contents Val) {X : sh.Idx → Val e} (h : m.view.read Val f = X) :
    (m.view.loc c ↦[m.view.set]{q} f)
      ⊢ (iprop(∃ g, ⌜m.view.read Val g = X⌝ ∗ (m.view.loc c ↦[m.view.set]{q} g)) : sProp (MT nD τ sig Ix Val Name U Lvl)) := by
  iintro H; iexists f; isplitr; · ipureintro; exact h
  iexact H

end Cert.Access
-- ==== Proof.FrameW.R1.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.LibAccess
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Access

variable {F : FTy → Type} [FloatOps F]

local notation "𝕄" => MT nD τ sig Unit (Elt F) ℕ (UR sig nD τ) ℕ

variable (V : (c : Dev nD) → (b : Ref sig .tc) → Buf (Elt F) ((c : Thread nD τ).loc b))

def staged1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

set_option maxHeartbeats 1000000 in
/-- The body reads six arrays whole and writes the two projections of them over the whole of the other two. -/
theorem proj_body1 (c : Dev nD) (E : Set ℕ) (i : grid1.Coords) (a0 : Memref sig .tc .vmem S152x384 .f32) (h0 : a0.IsWhole)
    (a1 : Memref sig .tc .vmem S152x128 .f32) (h1 : a1.IsWhole) (a2 : Memref sig .tc .vmem S384x256 .f32) (h2 : a2.IsWhole)
    (a3 : Memref sig .tc .vmem S128x256 .f32) (h3 : a3.IsWhole) (a4 : Memref sig .tc .vmem S384x256 .f32) (h4 : a4.IsWhole)
    (a5 : Memref sig .tc .vmem S128x256 .f32) (h5 : a5.IsWhole) (a6 : Memref sig .tc .vmem S152x256 .f32) (h6 : a6.IsWhole)
    (a7 : Memref sig .tc .vmem S152x256 .f32) (h7 : a7.IsWhole)
    (x : Vec F S152x384 .f32) (e : Vec F S152x128 .f32) (wxP : Vec F S384x256 .f32) (weP : Vec F S128x256 .f32)
    (wxN : Vec F S384x256 .f32) (weN : Vec F S128x256 .f32) (d6 d7 : Vec F S152x256 .f32) (K : PUnit → sProp 𝕄) :
    iprop((owns c a6 fullShare d6 ∗ owns c a7 fullShare d7
        ∗ owns c a0 fullShare x ∗ owns c a1 fullShare e ∗ owns c a2 fullShare wxP
        ∗ owns c a3 fullShare weP ∗ owns c a4 fullShare wxN ∗ owns c a5 fullShare weN)
        ∗ (iprop(owns c a6 fullShare (k1_pay3 x e wxP weP) ∗ owns c a7 fullShare (k1_pay4 x e wxN weN)
        ∗ owns c a0 fullShare x ∗ owns c a1 fullShare e ∗ owns c a2 fullShare wxP
        ∗ owns c a3 fullShare weP ∗ owns c a4 fullShare wxN ∗ owns c a5 fullShare weN) -∗ K ⟨⟩))
      ⊢ wp frame (wpE (defs₀ (F := F)) Variants.none c none) E (cc1__proj_kernel i a0 h0 a1 h1 a2 h2 a3 h3 a4 h4 a5 h5 a6 h6 a7 h7) K := by
  simp only [cc1__proj_kernel_eq_skeleton]; unfold cc1__proj_kernel_skel owns
  iintro ⟨⟨⟨%f6, -, H6⟩, ⟨%f7, -, H7⟩, ⟨%f0, %e0, H0⟩, ⟨%f1, %e1, H1⟩, ⟨%f2, %e2, H2⟩, ⟨%f3, %e3, H3⟩, ⟨%f4, %e4, H4⟩, %f5, %e5, H5⟩, Hk⟩
  subst e0 e1 e2 e3 e4 e5
  sl_exec
  sl_step
  iapply Hk
  isplitl [H6]
  · iexists _; isplitr
    swap; · iexact H6
    ipureintro; rw [read_store_origin _ _ at_origin]; congr 1 <;> exact View.ld_unit_zero at_origin _ _
  isplitl [H7]
  · iexists _; isplitr
    swap; · iexact H7
    ipureintro; rw [read_store_origin _ _ at_origin]; congr 1 <;> exact View.ld_unit_zero at_origin _ _
  sl_close

def dat1 (c : Dev nD) : Dat τ (Elt F) Unit ℕ (UR sig nD τ) ℕ cfg1 c where
  A w := V c (Pipeline.arrRef spec1 w)
  after w t := match w with
    | ⟨0, _⟩ => staged1 V c 0 t
    | ⟨1, _⟩ => staged1 V c 1 t
    | ⟨2, _⟩ => staged1 V c 2 t
    | ⟨3, _⟩ => staged1 V c 3 t
    | ⟨4, _⟩ => staged1 V c 4 t
    | ⟨5, _⟩ => staged1 V c 5 t
    | ⟨6, _⟩ => k1_pay3 (staged1 V c 0 t) (staged1 V c 1 t) (staged1 V c 2 t) (staged1 V c 3 t)
    | ⟨7, _⟩ => k1_pay4 (staged1 V c 0 t) (staged1 V c 1 t) (staged1 V c 4 t) (staged1 V c 5 t)
  Φ _ := Pipeline.ΦA spec1 c
  q _ := fullShare
  owed _ := 0

theorem A_eq1 (c : Dev nD) (w : Fin cfg1.W) : (dat1 V c).A w = V c (Pipeline.arrRef spec1 w) := rfl

theorem q_eq1 (c : Dev nD) (w : Fin cfg1.W) : (dat1 V c).q w = fullShare := rfl

theorem owed_eq1 (c : Dev nD) (t : Fin (cfg1.N + 1)) : (dat1 V c).owed t = 0 := rfl

theorem after1_6 (c : Dev nD) (t : Fin cfg1.N) :
    (dat1 V c).after 6 t = k1_pay3 (staged1 V c 0 t) (staged1 V c 1 t) (staged1 V c 2 t) (staged1 V c 3 t) := by dsimp only [dat1]
theorem after1_7 (c : Dev nD) (t : Fin cfg1.N) :
    (dat1 V c).after 7 t = k1_pay4 (staged1 V c 0 t) (staged1 V c 1 t) (staged1 V c 4 t) (staged1 V c 5 t) := by dsimp only [dat1]

/-- The body returns every input unchanged, so an input window reads its block at every point. -/
theorem before1 (c : Dev nD) : ∀ w : Fin cfg1.W, w.val < 6 → ∀ (t : Fin cfg1.N) d, (dat1 V c).before w t d = (dat1 V c).fetched w t d
  | ⟨6, _⟩, h, _, _ | ⟨7, _⟩, h, _, _ => absurd h (by simp)
  | ⟨0, _⟩, _, t, d | ⟨1, _⟩, _, t, d | ⟨2, _⟩, _, t, d | ⟨3, _⟩, _, t, d | ⟨4, _⟩, _, t, d | ⟨5, _⟩, _, t, d =>
    (dat1 V c).before_in_eq_fetched _ rfl (fun _ => rfl) (fun _ _ _ => rfl) (fun _ => rfl) t d

/-- At every point `proj_body1` applies to the windows' blocks; the invariant and the debt are framed. -/
theorem body_at1 (c : Dev nD) (t : Fin cfg1.N) :
    iprop((dat1 V c).Φ t.castSucc ∗ (dat1 V c).owesAt () t.castSucc ∗ bigSep Finset.univ fun w : Fin cfg1.W =>
        iprop(∃ d, owns c ((cfg1.win w).stage (cfg1.slots t w)) fullShare ((dat1 V c).before w t d)))
      ⊢ wp frame (wpE (defs₀ (F := F)) Variants.none c none) Set.univ (bodyAt1 t) fun _ =>
        iprop((dat1 V c).Φ t.castSucc ∗ (dat1 V c).owesAt () t.castSucc ∗ bigSep Finset.univ fun w : Fin cfg1.W =>
          owns c ((cfg1.win w).stage (cfg1.slots t w)) fullShare ((dat1 V c).after w t)) := by
  rw [bigSep_W1, bigSep_W1]
  simp (disch := decide) only [before1 V c]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (proj_body1 c Set.univ _ _ _ _ _ _ _ _ _ _ _ _ _ _ _ _ _ (staged1 V c 0 t) (staged1 V c 1 t) (staged1 V c 2 t)
    (staged1 V c 3 t) (staged1 V c 4 t) (staged1 V c 5 t) _ _ _)
  isplitr [HΦ Ho]; · sl_close
  iintro ⟨H6, H7, H0, H1, H2, H3, H4, H5⟩
  iframe

theorem body_obligation1 (c : Dev nD) : BodyObligation (dat1 (F := F) V c) (defs₀ (F := F)) Variants.none () Set.univ := fun t => by
  have h := body_at1 V c t
  rw [bigSep_W1, bigSep_W1] at h ⊢
  exact h

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.Kernel.Hand

end
-- ==== Proof.FrameW.R2.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.LibAccess

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Access

variable {F : FTy → Type} [FloatOps F]

local notation "𝕄" => MT nD τ sig Unit (Elt F) ℕ (UR sig nD τ) ℕ

abbrev first2 (i : grid2.Coords) : Prop :=
  (Scalar.cmpi .ne (Scalar.extui (Scalar.cmpi .eq (BitVec.ofNat 32 (i 0).val) 0#32)) 0#32) = 1#1

theorem first2_iff : ∀ t : Fin cfg2.N, first2 (grid2.coords t) ↔ t.val = 0 :=
  (by decide +kernel : ∀ t : Fin grid2.N, first2 (grid2.coords t) ↔ t.val = 0)

section
variable (c : Dev nD) (E : Set ℕ) (i : grid2.Coords)
  (a : Memref sig .tc .vmem S304x3040 .f32) (ha : a.IsWhole) (b : Memref sig .tc .vmem S3040x256 .f32) (hb : b.IsWhole)
  (m : Memref sig .tc .vmem S256x256 .f32) (hm : m.IsWhole) (o : Memref sig .tc .vmem S304x256 .f32) (ho : o.IsWhole)
  (p : Memref sig .tc .vmem S3040x256 .bf16) (hp : p.IsWhole) (r : Memref sig .tc .vmem S256x256 .bf16) (hr : r.IsWhole)

-- Past the first point the two scratch buffers are only read, at `u` and `v`, and handed back as found; the second and third factors are not touched.
theorem run_later2 (hc : ¬first2 i) (x : Vec F S304x3040 .f32) (u : Vec F S3040x256 .bf16) (v : Vec F S256x256 .bf16) (K : PUnit → sProp 𝕄) :
    iprop(owns (c : Thread nD τ) a fullShare x ∗ (∃ d, owns (c : Thread nD τ) o fullShare d) ∗ owns (c : Thread nD τ) p fullShare u ∗ owns (c : Thread nD τ) r fullShare v
        ∗ (iprop(owns (c : Thread nD τ) o fullShare (k2_pay3 x u v) ∗ owns (c : Thread nD τ) a fullShare x ∗ owns (c : Thread nD τ) p fullShare u ∗ owns (c : Thread nD τ) r fullShare v) -∗ K ⟨⟩))
      ⊢ wp frame (wpE (defs₀ (F := F)) Variants.none c none) E (cc2__adj_relu_proj_kernel i a ha b hb m hm o ho p hp r hr) K := by
  simp only [cc2__adj_relu_proj_kernel_eq_skeleton]; unfold cc2__adj_relu_proj_kernel_skel owns
  iintro ⟨⟨%fa, %ea, Ha⟩, ⟨%_, %fo, -, Ho⟩, ⟨%fp, %ep, Hp⟩, ⟨%fr, %er, Hr⟩, Hk⟩
  subst ea ep er
  sl_exec (disch := exact hc)
  sl_step
  iapply Hk
  isplitl [Ho]
  · iapply (own_ret _ _ _ _ ?_) $$ Ho
    refine (read_store_origin _ _ at_origin _ _).trans ?_
    exact congr (congr (congrArg k2_pay3 (View.ld_unit_zero at_origin _ _)) (View.ld_unit_zero at_origin _ _)) (View.ld_unit_zero at_origin _ _)
  sl_close

-- At the first point the two scratch buffers first receive the narrowed copies of the second and third factors, whatever they held.
theorem run_first2 (hc : first2 i) (x : Vec F S304x3040 .f32) (y : Vec F S3040x256 .f32) (z : Vec F S256x256 .f32) (K : PUnit → sProp 𝕄) :
    iprop(owns (c : Thread nD τ) a fullShare x ∗ owns (c : Thread nD τ) b fullShare y ∗ owns (c : Thread nD τ) m fullShare z
        ∗ (∃ d, owns (c : Thread nD τ) o fullShare d) ∗ (∃ d, owns (c : Thread nD τ) p fullShare d) ∗ (∃ d, owns (c : Thread nD τ) r fullShare d)
        ∗ (iprop(owns (c : Thread nD τ) o fullShare (k2_pay3 x (k2_pay1 y) (k2_pay2 z))
            ∗ owns (c : Thread nD τ) p fullShare (k2_pay1 y) ∗ owns (c : Thread nD τ) r fullShare (k2_pay2 z)
            ∗ owns (c : Thread nD τ) a fullShare x ∗ owns (c : Thread nD τ) b fullShare y ∗ owns (c : Thread nD τ) m fullShare z) -∗ K ⟨⟩))
      ⊢ wp frame (wpE (defs₀ (F := F)) Variants.none c none) E (cc2__adj_relu_proj_kernel i a ha b hb m hm o ho p hp r hr) K := by
  simp only [cc2__adj_relu_proj_kernel_eq_skeleton]; unfold cc2__adj_relu_proj_kernel_skel owns
  iintro ⟨⟨%fa, %ea, Ha⟩, ⟨%fb, %eb, Hb⟩, ⟨%fm, %em, Hm⟩, ⟨%_, %fo, -, Ho⟩, ⟨%_, %fp, -, Hp⟩, ⟨%_, %fr, -, Hr⟩, Hk⟩
  subst ea eb em
  sl_exec (disch := exact hc)
  sl_step
  iapply Hk
  isplitl [Ho]
  · iapply (own_ret _ _ _ _ ?_) $$ Ho
    sl_unfold_run_names
    refine (read_store_origin _ _ at_origin _ _).trans ?_
    exact congr (congr (congrArg k2_pay3 (View.ld_unit_zero at_origin _ _))
      ((View.readCov_unit_zero _ at_origin _ _).trans (congrArg k2_pay1 (View.ld_unit_zero at_origin _ _))))
      ((View.readCov_unit_zero _ at_origin _ _).trans (congrArg k2_pay2 (View.ld_unit_zero at_origin _ _)))
  isplitl [Hp]
  · iapply (own_ret _ _ _ _ ?_) $$ Hp
    sl_unfold_run_names
    exact (read_store_origin _ _ at_origin _ _).trans (congrArg k2_pay1 (View.ld_unit_zero at_origin _ _))
  isplitl [Hr]
  · iapply (own_ret _ _ _ _ ?_) $$ Hr
    sl_unfold_run_names
    exact (read_store_origin _ _ at_origin _ _).trans (congrArg k2_pay2 (View.ld_unit_zero at_origin _ _))
  sl_close

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2_0 : Memref sig .tc .vmem S3040x256 .bf16 := Memref.whole cc2_scratch0
abbrev scr2_1 : Memref sig .tc .vmem S256x256 .bf16 := Memref.whole cc2_scratch1

-- The entry assertion with the two scratch buffers named, each owned at some contents.
theorem PhiA2_eq (c : Dev nD) :
    (Pipeline.ΦA spec2 c : sProp 𝕄)
      = iprop(iprop(iprop((∃ d, owns (c : Thread nD τ) scr2_0 fullShare d) ∗ (∃ d, owns (c : Thread nD τ) scr2_1 fullShare d))
          ∗ Pipeline.scopedRestBut spec2 c [cc2_scratch0, cc2_scratch1]) ∗ (∃ r, prngReg c r)) := by
  unfold Pipeline.ΦA; rw [scopedRest2_split]; simp only [scr2_0, scr2_1, owns_whole]; try rfl

-- What is carried past the first point: the scratch buffers at the narrowed copies stored there, all else as at entry.
def kept2 (c : Dev nD) : sProp 𝕄 :=
  iprop(iprop(iprop(owns (c : Thread nD τ) scr2_0 fullShare (k2_pay1 (iblk2 V c 1 t2_0)) ∗ owns (c : Thread nD τ) scr2_1 fullShare (k2_pay2 (iblk2 V c 2 t2_0)))
      ∗ Pipeline.scopedRestBut spec2 c [cc2_scratch0, cc2_scratch1]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 0 t) (k2_pay1 (iblk2 V c 1 t2_0)) (k2_pay2 (iblk2 V c 2 t2_0))
  Φ t := if t.val = 0 then Pipeline.ΦA spec2 c else kept2 V c
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem after2_3 (c : Dev nD) (t : Fin cfg2.N) :
    (dat2 V c).after 3 t = k2_pay3 (iblk2 V c 0 t) (k2_pay1 (iblk2 V c 1 t2_0)) (k2_pay2 (iblk2 V c 2 t2_0)) := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

-- The body at any point: the invariant lends the scratch buffers to the run and takes them back at the carried copies; all else is framed.
theorem body_obligation2 (c : Dev nD) : BodyObligation (dat2 (F := F) V c) (defs₀ (F := F)) Variants.none () Set.univ := fun t => by
  rw [bigSep_W2, bigSep_W2]
  simp only [before2_0, before2_1, before2_2]
  show _ ⊢ wp _ _ _ (bodyAt2 t) _
  unfold bodyAt2
  rw [show (dat2 V c).owesAt () t.succ = (dat2 V c).owesAt () t.castSucc from rfl,
    show (dat2 V c).Φ t.succ = kept2 V c from rfl,
    show (dat2 V c).after 0 t = iblk2 V c 0 t from rfl, show (dat2 V c).after 1 t = iblk2 V c 1 t from rfl,
    show (dat2 V c).after 2 t = iblk2 V c 2 t from rfl, after2_3]
  by_cases hz : t.val = 0
  · obtain rfl : t = t2_0 := Fin.ext hz
    rw [show (dat2 V c).Φ t2_0.castSucc = Pipeline.ΦA spec2 c from rfl, PhiA2_eq]
    unfold kept2
    iintro ⟨⟨⟨⟨Hp, Hr⟩, Hs⟩, Hg⟩, Hw, ⟨%_, Ha⟩, ⟨%_, Hb⟩, ⟨%_, Hm⟩, ⟨%_, Ho⟩⟩
    iapply (run_first2 c Set.univ _ _ _ _ _ _ _ _ _ _ _ _ _ ((first2_iff t2_0).mpr hz) (iblk2 V c 0 t2_0) (iblk2 V c 1 t2_0) (iblk2 V c 2 t2_0) _)
    iframe Ha Hb Hm Hp Hr
    isplitl [Ho]; · iexists _; iexact Ho
    iintro ⟨Ho, Hp, Hr, Ha, Hb, Hm⟩
    iframe
  · rw [show (dat2 V c).Φ t.castSucc = kept2 V c from if_neg hz]
    unfold kept2
    iintro ⟨⟨⟨⟨Hp, Hr⟩, Hs⟩, Hg⟩, Hw, ⟨%_, Ha⟩, ⟨%_, Hb⟩, ⟨%_, Hm⟩, ⟨%_, Ho⟩⟩
    iapply (run_later2 c Set.univ _ _ _ _ _ _ _ _ _ _ _ _ _ (fun h => hz ((first2_iff t).mp h)) (iblk2 V c 0 t)
      (k2_pay1 (iblk2 V c 1 t2_0)) (k2_pay2 (iblk2 V c 2 t2_0)) _)
    iframe Ha Hp Hr
    isplitl [Ho]; · iexists _; iexact Ho
    iintro ⟨Ho, Ha, Hp, Hr⟩
    iframe

theorem hin2 (c : Dev nD) : (Pipeline.ΦA spec2 c : sProp 𝕄) ⊢ (dat2 V c).Φ 0 := .rfl

-- Forgetting what the scratch buffers hold gives back the entry assertion.
theorem hout2 (c : Dev nD) : (dat2 V c).Φ (Fin.last cfg2.N) ⊢ (Pipeline.ΦA spec2 c : sProp 𝕄) := by
  rw [show (dat2 V c).Φ (Fin.last cfg2.N) = kept2 V c from rfl, PhiA2_eq]
  unfold kept2
  iintro ⟨⟨⟨Hp, Hr⟩, Hs⟩, Hg⟩
  iframe Hs Hg
  isplitl [Hp]; · iexists _; iexact Hp
  iexists _; iexact Hr

end Cert.Kernel.Hand

end
-- ==== Proof.FrameW.R3.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.LibAccess

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Access

variable {F : FTy → Type} [FloatOps F]

local notation "𝕄" => MT nD τ sig Unit (Elt F) ℕ (UR sig nD τ) ℕ

abbrev cond3 (i : grid3.Coords) : Prop :=
  Scalar.cmpi .ne (Scalar.extui (Scalar.cmpi .eq (BitVec.ofNat 32 (i 0).val) 0#32)) 0#32 = 1#1

theorem hcond3 : ∀ t : Fin cfg3.N, cond3 (grid3.coords t) ↔ t.val = 0 :=
  (by decide +kernel : ∀ t : Fin grid3.N, cond3 (grid3.coords t) ↔ t.val = 0)

section
variable (c : Dev nD) (E : Set ℕ) (i : grid3.Coords)
  (a : Memref sig .tc .vmem S304x3040 .f32) (ha : a.IsWhole) (b : Memref sig .tc .vmem S3040x256 .f32) (hb : b.IsWhole)
  (o : Memref sig .tc .vmem S304x256 .f32) (ho : o.IsWhole) (s : Memref sig .tc .vmem S3040x256 .bf16) (hs : s.IsWhole)

-- At the first point the scratch receives the narrowed second factor, whatever it held, and the product is taken with it.
theorem sound_kernel3_first (hc : cond3 i) (x : Vec F S304x3040 .f32) (y : Vec F S3040x256 .f32) (K : PUnit → sProp 𝕄) :
    iprop(owns (c : Thread nD τ) a fullShare x ∗ owns (c : Thread nD τ) b fullShare y
        ∗ (∃ d, owns (c : Thread nD τ) o fullShare d) ∗ (∃ d, owns (c : Thread nD τ) s fullShare d)
        ∗ (iprop(owns (c : Thread nD τ) o fullShare (k3_pay2 x (k3_pay1 y)) ∗ owns (c : Thread nD τ) s fullShare (k3_pay1 y)
            ∗ owns (c : Thread nD τ) a fullShare x ∗ owns (c : Thread nD τ) b fullShare y) -∗ K ⟨⟩))
      ⊢ wp frame (wpE (defs₀ (F := F)) Variants.none c none) E (cc3__matmul_kernel i a ha b hb o ho s hs) K := by
  simp only [cc3__matmul_kernel_eq_skeleton]; unfold cc3__matmul_kernel_skel owns
  iintro ⟨⟨%fa, %ea, Ha⟩, ⟨%fb, %eb, Hb⟩, ⟨%_, %fo, -, Ho⟩, ⟨%_, %fs, -, Hs⟩, Hk⟩
  subst ea eb
  sl_exec (disch := exact hc)
  sl_step
  iapply Hk
  isplitl [Ho]
  · iapply (own_ret _ _ _ _ ?_) $$ Ho
    sl_unfold_run_names
    rw [read_store_origin _ _ at_origin, View.readCov_unit_zero _ at_origin, readAt_origin _ _ at_origin, readAt_origin _ _ at_origin]
  isplitl [Hs]
  · iapply (own_ret _ _ _ _ ?_) $$ Hs
    sl_unfold_run_names
    rw [read_store_origin _ _ at_origin, readAt_origin _ _ at_origin]
  sl_close

-- Past the first point the scratch is only read, at `u`, and handed back as found; the second factor is not touched.
theorem sound_kernel3_later (hc : ¬ cond3 i) (x : Vec F S304x3040 .f32) (u : Vec F S3040x256 .bf16) (K : PUnit → sProp 𝕄) :
    iprop(owns (c : Thread nD τ) a fullShare x ∗ (∃ d, owns (c : Thread nD τ) o fullShare d) ∗ owns (c : Thread nD τ) s fullShare u
        ∗ (iprop(owns (c : Thread nD τ) o fullShare (k3_pay2 x u) ∗ owns (c : Thread nD τ) a fullShare x ∗ owns (c : Thread nD τ) s fullShare u) -∗ K ⟨⟩))
      ⊢ wp frame (wpE (defs₀ (F := F)) Variants.none c none) E (cc3__matmul_kernel i a ha b hb o ho s hs) K := by
  simp only [cc3__matmul_kernel_eq_skeleton]; unfold cc3__matmul_kernel_skel owns
  iintro ⟨⟨%fa, %ea, Ha⟩, ⟨%_, %fo, -, Ho⟩, ⟨%fs, %es, Hs⟩, Hk⟩
  subst ea es
  sl_exec (disch := exact hc)
  sl_step
  iapply Hk
  isplitl [Ho]
  · iapply (own_ret _ _ _ _ ?_) $$ Ho
    rw [read_store_origin _ _ at_origin, readAt_origin _ _ at_origin, readAt_origin _ _ at_origin]
  sl_close

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S3040x256 .bf16 := Memref.whole cc3_scratch0

-- The entry assertion with the scratch named, owned at some contents.
theorem PhiA3_eq (c : Dev nD) :
    (Pipeline.ΦA spec3 c : sProp 𝕄)
      = iprop(iprop(iprop((∃ d, owns (c : Thread nD τ) scM3 fullShare d)) ∗ Pipeline.scopedRestBut spec3 c [cc3_scratch0])
          ∗ (∃ r, prngReg c r)) := by
  unfold Pipeline.ΦA; rw [scopedRest3_split]; simp only [scM3, owns_whole]; try rfl

-- What is carried past the first point: the scratch at the narrowed second factor, all else as at entry.
def kept3 (c : Dev nD) : sProp 𝕄 :=
  iprop(iprop(owns (c : Thread nD τ) scM3 fullShare (k3_pay1 (iblk3 V c 1 t3_0)) ∗ Pipeline.scopedRestBut spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay2 (iblk3 V c 0 t) (k3_pay1 (iblk3 V c 1 t3_0))
  Φ t := if t.val = 0 then Pipeline.ΦA spec3 c else kept3 V c
  q _ := fullShare
  owed _ := 0

theorem A_eq3 (c : Dev nD) (w : Fin cfg3.W) : (dat3 V c).A w = V c (Pipeline.arrRef spec3 w) := rfl

theorem q_eq3 (c : Dev nD) (w : Fin cfg3.W) : (dat3 V c).q w = fullShare := rfl

theorem owed_eq3 (c : Dev nD) (t : Fin (cfg3.N + 1)) : (dat3 V c).owed t = 0 := rfl

theorem after3_2 (c : Dev nD) (t : Fin cfg3.N) :
    (dat3 V c).after 2 t = k3_pay2 (iblk3 V c 0 t) (k3_pay1 (iblk3 V c 1 t3_0)) := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- The body at any point: the invariant lends the scratch to the run and takes it back at the narrowed second factor; all else is framed.
theorem body_obligation3 (c : Dev nD) : BodyObligation (dat3 (F := F) V c) (defs₀ (F := F)) Variants.none () Set.univ := fun t => by
  rw [bigSep_W3, bigSep_W3]
  simp only [before3_0, before3_1]
  show _ ⊢ wp _ _ _ (bodyAt3 t) _
  unfold bodyAt3
  rw [show (dat3 V c).owesAt () t.succ = (dat3 V c).owesAt () t.castSucc from rfl,
    show (dat3 V c).Φ t.succ = kept3 V c from rfl,
    show (dat3 V c).after 0 t = iblk3 V c 0 t from rfl, show (dat3 V c).after 1 t = iblk3 V c 1 t from rfl, after3_2]
  by_cases hz : t.val = 0
  · obtain rfl : t = t3_0 := Fin.ext hz
    rw [show (dat3 V c).Φ t3_0.castSucc = Pipeline.ΦA spec3 c from rfl, PhiA3_eq]
    unfold kept3
    iintro ⟨⟨⟨Hs, Hr⟩, Hg⟩, Hw, ⟨%_, Ha⟩, ⟨%_, Hb⟩, ⟨%_, Ho⟩⟩
    iapply (sound_kernel3_first c Set.univ _ _ _ _ _ _ _ _ _ ((hcond3 t3_0).mpr hz) (iblk3 V c 0 t3_0) (iblk3 V c 1 t3_0) _)
    iframe Ha Hb Hs
    isplitl [Ho]; · iexists _; iexact Ho
    iintro ⟨Ho, Hs, Ha, Hb⟩
    iframe
  · rw [show (dat3 V c).Φ t.castSucc = kept3 V c from if_neg hz]
    unfold kept3
    iintro ⟨⟨⟨Hs, Hr⟩, Hg⟩, Hw, ⟨%_, Ha⟩, ⟨%_, Hb⟩, ⟨%_, Ho⟩⟩
    iapply (sound_kernel3_later c Set.univ _ _ _ _ _ _ _ _ _ (fun h => hz ((hcond3 t).mp h)) (iblk3 V c 0 t) (k3_pay1 (iblk3 V c 1 t3_0)) _)
    iframe Ha Hs
    isplitl [Ho]; · iexists _; iexact Ho
    iintro ⟨Ho, Ha, Hs⟩
    iframe

theorem hin3 (c : Dev nD) : (Pipeline.ΦA spec3 c : sProp 𝕄) ⊢ (dat3 V c).Φ 0 := .rfl

-- Forgetting what the scratch holds gives back the entry assertion.
theorem hout3 (c : Dev nD) : (dat3 V c).Φ (Fin.last cfg3.N) ⊢ (Pipeline.ΦA spec3 c : sProp 𝕄) := by
  rw [show (dat3 V c).Φ (Fin.last cfg3.N) = kept3 V c from rfl, PhiA3_eq]
  unfold kept3
  iintro ⟨⟨Hs, Hr⟩, Hg⟩
  iframe Hr Hg
  iexists _; iexact Hs

end Cert.Kernel.Hand

end
-- ==== Proof.FrameW.R4.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.LibAccess

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Access

variable {F : FTy → Type} [FloatOps F]

local notation "𝕄" => MT nD τ sig Unit (Elt F) ℕ (UR sig nD τ) ℕ

abbrev first4 (i : grid4.Coords) : Prop :=
  (Scalar.cmpi .ne (Scalar.extui (Scalar.cmpi .eq (BitVec.ofNat 32 (i 0).val) 0#32)) 0#32) = 1#1

theorem first4_iff : ∀ t : Fin cfg4.N, first4 (grid4.coords t) ↔ t.val = 0 :=
  (by decide +kernel : ∀ t : Fin grid4.N, first4 (grid4.coords t) ↔ t.val = 0)

section
variable (c : Dev nD) (E : Set ℕ) (i : grid4.Coords)
  (a : Memref sig .tc .vmem S304x3040 .f32) (ha : a.IsWhole) (b : Memref sig .tc .vmem S3040x256 .f32) (hb : b.IsWhole)
  (m : Memref sig .tc .vmem S256x256 .f32) (hm : m.IsWhole) (o : Memref sig .tc .vmem S304x256 .f32) (ho : o.IsWhole)
  (p : Memref sig .tc .vmem S3040x256 .bf16) (hp : p.IsWhole) (r : Memref sig .tc .vmem S256x256 .bf16) (hr : r.IsWhole)

-- Past the first point the two scratch buffers are only read, at `u` and `v`, and handed back as found; the second and third factors are not touched.
theorem run_later4 (hc : ¬first4 i) (x : Vec F S304x3040 .f32) (u : Vec F S3040x256 .bf16) (v : Vec F S256x256 .bf16) (K : PUnit → sProp 𝕄) :
    iprop(owns (c : Thread nD τ) a fullShare x ∗ (∃ d, owns (c : Thread nD τ) o fullShare d) ∗ owns (c : Thread nD τ) p fullShare u ∗ owns (c : Thread nD τ) r fullShare v
        ∗ (iprop(owns (c : Thread nD τ) o fullShare (k4_pay3 x u v) ∗ owns (c : Thread nD τ) a fullShare x ∗ owns (c : Thread nD τ) p fullShare u ∗ owns (c : Thread nD τ) r fullShare v) -∗ K ⟨⟩))
      ⊢ wp frame (wpE (defs₀ (F := F)) Variants.none c none) E (cc4__adj_relu_proj_kernel i a ha b hb m hm o ho p hp r hr) K := by
  simp only [cc4__adj_relu_proj_kernel_eq_skeleton]; unfold cc4__adj_relu_proj_kernel_skel owns
  iintro ⟨⟨%fa, %ea, Ha⟩, ⟨%_, %fo, -, Ho⟩, ⟨%fp, %ep, Hp⟩, ⟨%fr, %er, Hr⟩, Hk⟩
  subst ea ep er
  sl_exec (disch := exact hc)
  sl_step
  iapply Hk
  isplitl [Ho]
  · iapply (own_ret _ _ _ _ ?_) $$ Ho
    refine (read_store_origin _ _ at_origin _ _).trans ?_
    exact congr (congr (congrArg k4_pay3 (View.ld_unit_zero at_origin _ _)) (View.ld_unit_zero at_origin _ _)) (View.ld_unit_zero at_origin _ _)
  sl_close

-- At the first point the two scratch buffers first receive the narrowed copies of the second and third factors, whatever they held.
theorem run_first4 (hc : first4 i) (x : Vec F S304x3040 .f32) (y : Vec F S3040x256 .f32) (z : Vec F S256x256 .f32) (K : PUnit → sProp 𝕄) :
    iprop(owns (c : Thread nD τ) a fullShare x ∗ owns (c : Thread nD τ) b fullShare y ∗ owns (c : Thread nD τ) m fullShare z
        ∗ (∃ d, owns (c : Thread nD τ) o fullShare d) ∗ (∃ d, owns (c : Thread nD τ) p fullShare d) ∗ (∃ d, owns (c : Thread nD τ) r fullShare d)
        ∗ (iprop(owns (c : Thread nD τ) o fullShare (k4_pay3 x (k4_pay1 y) (k4_pay2 z))
            ∗ owns (c : Thread nD τ) p fullShare (k4_pay1 y) ∗ owns (c : Thread nD τ) r fullShare (k4_pay2 z)
            ∗ owns (c : Thread nD τ) a fullShare x ∗ owns (c : Thread nD τ) b fullShare y ∗ owns (c : Thread nD τ) m fullShare z) -∗ K ⟨⟩))
      ⊢ wp frame (wpE (defs₀ (F := F)) Variants.none c none) E (cc4__adj_relu_proj_kernel i a ha b hb m hm o ho p hp r hr) K := by
  simp only [cc4__adj_relu_proj_kernel_eq_skeleton]; unfold cc4__adj_relu_proj_kernel_skel owns
  iintro ⟨⟨%fa, %ea, Ha⟩, ⟨%fb, %eb, Hb⟩, ⟨%fm, %em, Hm⟩, ⟨%_, %fo, -, Ho⟩, ⟨%_, %fp, -, Hp⟩, ⟨%_, %fr, -, Hr⟩, Hk⟩
  subst ea eb em
  sl_exec (disch := exact hc)
  sl_step
  iapply Hk
  isplitl [Ho]
  · iapply (own_ret _ _ _ _ ?_) $$ Ho
    sl_unfold_run_names
    refine (read_store_origin _ _ at_origin _ _).trans ?_
    exact congr (congr (congrArg k4_pay3 (View.ld_unit_zero at_origin _ _))
      ((View.readCov_unit_zero _ at_origin _ _).trans (congrArg k4_pay1 (View.ld_unit_zero at_origin _ _))))
      ((View.readCov_unit_zero _ at_origin _ _).trans (congrArg k4_pay2 (View.ld_unit_zero at_origin _ _)))
  isplitl [Hp]
  · iapply (own_ret _ _ _ _ ?_) $$ Hp
    sl_unfold_run_names
    exact (read_store_origin _ _ at_origin _ _).trans (congrArg k4_pay1 (View.ld_unit_zero at_origin _ _))
  isplitl [Hr]
  · iapply (own_ret _ _ _ _ ?_) $$ Hr
    sl_unfold_run_names
    exact (read_store_origin _ _ at_origin _ _).trans (congrArg k4_pay2 (View.ld_unit_zero at_origin _ _))
  sl_close

end

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scr4_0 : Memref sig .tc .vmem S3040x256 .bf16 := Memref.whole cc4_scratch0
abbrev scr4_1 : Memref sig .tc .vmem S256x256 .bf16 := Memref.whole cc4_scratch1

-- The entry assertion with the two scratch buffers named, each owned at some contents.
theorem PhiA4_eq (c : Dev nD) :
    (Pipeline.ΦA spec4 c : sProp 𝕄)
      = iprop(iprop(iprop((∃ d, owns (c : Thread nD τ) scr4_0 fullShare d) ∗ (∃ d, owns (c : Thread nD τ) scr4_1 fullShare d))
          ∗ Pipeline.scopedRestBut spec4 c [cc4_scratch0, cc4_scratch1]) ∗ (∃ r, prngReg c r)) := by
  unfold Pipeline.ΦA; rw [scopedRest4_split]; simp only [scr4_0, scr4_1, owns_whole]; try rfl

-- What is carried past the first point: the scratch buffers at the narrowed copies stored there, all else as at entry.
def kept4 (c : Dev nD) : sProp 𝕄 :=
  iprop(iprop(iprop(owns (c : Thread nD τ) scr4_0 fullShare (k4_pay1 (iblk4 V c 1 t4_0)) ∗ owns (c : Thread nD τ) scr4_1 fullShare (k4_pay2 (iblk4 V c 2 t4_0)))
      ∗ Pipeline.scopedRestBut spec4 c [cc4_scratch0, cc4_scratch1]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 0 t) (k4_pay1 (iblk4 V c 1 t4_0)) (k4_pay2 (iblk4 V c 2 t4_0))
  Φ t := if t.val = 0 then Pipeline.ΦA spec4 c else kept4 V c
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem after4_3 (c : Dev nD) (t : Fin cfg4.N) :
    (dat4 V c).after 3 t = k4_pay3 (iblk4 V c 0 t) (k4_pay1 (iblk4 V c 1 t4_0)) (k4_pay2 (iblk4 V c 2 t4_0)) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- The body at any point: the invariant lends the scratch buffers to the run and takes them back at the carried copies; all else is framed.
theorem body_obligation4 (c : Dev nD) : BodyObligation (dat4 (F := F) V c) (defs₀ (F := F)) Variants.none () Set.univ := fun t => by
  rw [bigSep_W4, bigSep_W4]
  simp only [before4_0, before4_1, before4_2]
  show _ ⊢ wp _ _ _ (bodyAt4 t) _
  unfold bodyAt4
  rw [show (dat4 V c).owesAt () t.succ = (dat4 V c).owesAt () t.castSucc from rfl,
    show (dat4 V c).Φ t.succ = kept4 V c from rfl,
    show (dat4 V c).after 0 t = iblk4 V c 0 t from rfl, show (dat4 V c).after 1 t = iblk4 V c 1 t from rfl,
    show (dat4 V c).after 2 t = iblk4 V c 2 t from rfl, after4_3]
  by_cases hz : t.val = 0
  · obtain rfl : t = t4_0 := Fin.ext hz
    rw [show (dat4 V c).Φ t4_0.castSucc = Pipeline.ΦA spec4 c from rfl, PhiA4_eq]
    unfold kept4
    iintro ⟨⟨⟨⟨Hp, Hr⟩, Hs⟩, Hg⟩, Hw, ⟨%_, Ha⟩, ⟨%_, Hb⟩, ⟨%_, Hm⟩, ⟨%_, Ho⟩⟩
    iapply (run_first4 c Set.univ _ _ _ _ _ _ _ _ _ _ _ _ _ ((first4_iff t4_0).mpr hz) (iblk4 V c 0 t4_0) (iblk4 V c 1 t4_0) (iblk4 V c 2 t4_0) _)
    iframe Ha Hb Hm Hp Hr
    isplitl [Ho]; · iexists _; iexact Ho
    iintro ⟨Ho, Hp, Hr, Ha, Hb, Hm⟩
    iframe
  · rw [show (dat4 V c).Φ t.castSucc = kept4 V c from if_neg hz]
    unfold kept4
    iintro ⟨⟨⟨⟨Hp, Hr⟩, Hs⟩, Hg⟩, Hw, ⟨%_, Ha⟩, ⟨%_, Hb⟩, ⟨%_, Hm⟩, ⟨%_, Ho⟩⟩
    iapply (run_later4 c Set.univ _ _ _ _ _ _ _ _ _ _ _ _ _ (fun h => hz ((first4_iff t).mp h)) (iblk4 V c 0 t)
      (k4_pay1 (iblk4 V c 1 t4_0)) (k4_pay2 (iblk4 V c 2 t4_0)) _)
    iframe Ha Hp Hr
    isplitl [Ho]; · iexists _; iexact Ho
    iintro ⟨Ho, Ha, Hp, Hr⟩
    iframe

theorem hin4 (c : Dev nD) : (Pipeline.ΦA spec4 c : sProp 𝕄) ⊢ (dat4 V c).Φ 0 := .rfl

-- Forgetting what the scratch buffers hold gives back the entry assertion.
theorem hout4 (c : Dev nD) : (dat4 V c).Φ (Fin.last cfg4.N) ⊢ (Pipeline.ΦA spec4 c : sProp 𝕄) := by
  rw [show (dat4 V c).Φ (Fin.last cfg4.N) = kept4 V c from rfl, PhiA4_eq]
  unfold kept4
  iintro ⟨⟨⟨Hp, Hr⟩, Hs⟩, Hg⟩
  iframe Hs Hg
  isplitl [Hp]; · iexists _; iexact Hp
  iexists _; iexact Hr

end Cert.Kernel.Hand

end
-- ==== Proof.FrameW.R5.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.LibAccess

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Access

variable {F : FTy → Type} [FloatOps F]

local notation "𝕄" => MT nD τ sig Unit (Elt F) ℕ (UR sig nD τ) ℕ

abbrev cond5 (i : grid5.Coords) : Prop :=
  Scalar.cmpi .ne (Scalar.extui (Scalar.cmpi .eq (BitVec.ofNat 32 (i 0).val) 0#32)) 0#32 = 1#1

theorem hcond5 : ∀ t : Fin cfg5.N, cond5 (grid5.coords t) ↔ t.val = 0 :=
  (by decide +kernel : ∀ t : Fin grid5.N, cond5 (grid5.coords t) ↔ t.val = 0)

section
variable (c : Dev nD) (E : Set ℕ) (i : grid5.Coords)
  (a : Memref sig .tc .vmem S304x3040 .f32) (ha : a.IsWhole) (b : Memref sig .tc .vmem S3040x256 .f32) (hb : b.IsWhole)
  (o : Memref sig .tc .vmem S304x256 .f32) (ho : o.IsWhole) (s : Memref sig .tc .vmem S3040x256 .bf16) (hs : s.IsWhole)

-- At the first point the scratch receives the narrowed second factor, whatever it held, and the product is taken with it.
theorem sound_kernel5_first (hc : cond5 i) (x : Vec F S304x3040 .f32) (y : Vec F S3040x256 .f32) (K : PUnit → sProp 𝕄) :
    iprop(owns (c : Thread nD τ) a fullShare x ∗ owns (c : Thread nD τ) b fullShare y
        ∗ (∃ d, owns (c : Thread nD τ) o fullShare d) ∗ (∃ d, owns (c : Thread nD τ) s fullShare d)
        ∗ (iprop(owns (c : Thread nD τ) o fullShare (k5_pay2 x (k5_pay1 y)) ∗ owns (c : Thread nD τ) s fullShare (k5_pay1 y)
            ∗ owns (c : Thread nD τ) a fullShare x ∗ owns (c : Thread nD τ) b fullShare y) -∗ K ⟨⟩))
      ⊢ wp frame (wpE (defs₀ (F := F)) Variants.none c none) E (cc5__matmul_kernel i a ha b hb o ho s hs) K := by
  simp only [cc5__matmul_kernel_eq_skeleton]; unfold cc5__matmul_kernel_skel owns
  iintro ⟨⟨%fa, %ea, Ha⟩, ⟨%fb, %eb, Hb⟩, ⟨%_, %fo, -, Ho⟩, ⟨%_, %fs, -, Hs⟩, Hk⟩
  subst ea eb
  sl_exec (disch := exact hc)
  sl_step
  iapply Hk
  isplitl [Ho]
  · iapply (own_ret _ _ _ _ ?_) $$ Ho
    sl_unfold_run_names
    rw [read_store_origin _ _ at_origin, View.readCov_unit_zero _ at_origin, readAt_origin _ _ at_origin, readAt_origin _ _ at_origin]
  isplitl [Hs]
  · iapply (own_ret _ _ _ _ ?_) $$ Hs
    sl_unfold_run_names
    rw [read_store_origin _ _ at_origin, readAt_origin _ _ at_origin]
  sl_close

-- Past the first point the scratch is only read, at `u`, and handed back as found; the second factor is not touched.
theorem sound_kernel5_later (hc : ¬ cond5 i) (x : Vec F S304x3040 .f32) (u : Vec F S3040x256 .bf16) (K : PUnit → sProp 𝕄) :
    iprop(owns (c : Thread nD τ) a fullShare x ∗ (∃ d, owns (c : Thread nD τ) o fullShare d) ∗ owns (c : Thread nD τ) s fullShare u
        ∗ (iprop(owns (c : Thread nD τ) o fullShare (k5_pay2 x u) ∗ owns (c : Thread nD τ) a fullShare x ∗ owns (c : Thread nD τ) s fullShare u) -∗ K ⟨⟩))
      ⊢ wp frame (wpE (defs₀ (F := F)) Variants.none c none) E (cc5__matmul_kernel i a ha b hb o ho s hs) K := by
  simp only [cc5__matmul_kernel_eq_skeleton]; unfold cc5__matmul_kernel_skel owns
  iintro ⟨⟨%fa, %ea, Ha⟩, ⟨%_, %fo, -, Ho⟩, ⟨%fs, %es, Hs⟩, Hk⟩
  subst ea es
  sl_exec (disch := exact hc)
  sl_step
  iapply Hk
  isplitl [Ho]
  · iapply (own_ret _ _ _ _ ?_) $$ Ho
    rw [read_store_origin _ _ at_origin, readAt_origin _ _ at_origin, readAt_origin _ _ at_origin]
  sl_close

end

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S3040x256 .bf16 := Memref.whole cc5_scratch0

-- The entry assertion with the scratch named, owned at some contents.
theorem PhiA5_eq (c : Dev nD) :
    (Pipeline.ΦA spec5 c : sProp 𝕄)
      = iprop(iprop(iprop((∃ d, owns (c : Thread nD τ) scM5 fullShare d)) ∗ Pipeline.scopedRestBut spec5 c [cc5_scratch0])
          ∗ (∃ r, prngReg c r)) := by
  unfold Pipeline.ΦA; rw [scopedRest5_split]; simp only [scM5, owns_whole]; try rfl

-- What is carried past the first point: the scratch at the narrowed second factor, all else as at entry.
def kept5 (c : Dev nD) : sProp 𝕄 :=
  iprop(iprop(owns (c : Thread nD τ) scM5 fullShare (k5_pay1 (iblk5 V c 1 t5_0)) ∗ Pipeline.scopedRestBut spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay2 (iblk5 V c 0 t) (k5_pay1 (iblk5 V c 1 t5_0))
  Φ t := if t.val = 0 then Pipeline.ΦA spec5 c else kept5 V c
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem after5_2 (c : Dev nD) (t : Fin cfg5.N) :
    (dat5 V c).after 2 t = k5_pay2 (iblk5 V c 0 t) (k5_pay1 (iblk5 V c 1 t5_0)) := rfl

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

-- The body at any point: the invariant lends the scratch to the run and takes it back at the narrowed second factor; all else is framed.
theorem body_obligation5 (c : Dev nD) : BodyObligation (dat5 (F := F) V c) (defs₀ (F := F)) Variants.none () Set.univ := fun t => by
  rw [bigSep_W5, bigSep_W5]
  simp only [before5_0, before5_1]
  show _ ⊢ wp _ _ _ (bodyAt5 t) _
  unfold bodyAt5
  rw [show (dat5 V c).owesAt () t.succ = (dat5 V c).owesAt () t.castSucc from rfl,
    show (dat5 V c).Φ t.succ = kept5 V c from rfl,
    show (dat5 V c).after 0 t = iblk5 V c 0 t from rfl, show (dat5 V c).after 1 t = iblk5 V c 1 t from rfl, after5_2]
  by_cases hz : t.val = 0
  · obtain rfl : t = t5_0 := Fin.ext hz
    rw [show (dat5 V c).Φ t5_0.castSucc = Pipeline.ΦA spec5 c from rfl, PhiA5_eq]
    unfold kept5
    iintro ⟨⟨⟨Hs, Hr⟩, Hg⟩, Hw, ⟨%_, Ha⟩, ⟨%_, Hb⟩, ⟨%_, Ho⟩⟩
    iapply (sound_kernel5_first c Set.univ _ _ _ _ _ _ _ _ _ ((hcond5 t5_0).mpr hz) (iblk5 V c 0 t5_0) (iblk5 V c 1 t5_0) _)
    iframe Ha Hb Hs
    isplitl [Ho]; · iexists _; iexact Ho
    iintro ⟨Ho, Hs, Ha, Hb⟩
    iframe
  · rw [show (dat5 V c).Φ t.castSucc = kept5 V c from if_neg hz]
    unfold kept5
    iintro ⟨⟨⟨Hs, Hr⟩, Hg⟩, Hw, ⟨%_, Ha⟩, ⟨%_, Hb⟩, ⟨%_, Ho⟩⟩
    iapply (sound_kernel5_later c Set.univ _ _ _ _ _ _ _ _ _ (fun h => hz ((hcond5 t).mp h)) (iblk5 V c 0 t) (k5_pay1 (iblk5 V c 1 t5_0)) _)
    iframe Ha Hs
    isplitl [Ho]; · iexists _; iexact Ho
    iintro ⟨Ho, Ha, Hs⟩
    iframe

theorem hin5 (c : Dev nD) : (Pipeline.ΦA spec5 c : sProp 𝕄) ⊢ (dat5 V c).Φ 0 := .rfl

-- Forgetting what the scratch holds gives back the entry assertion.
theorem hout5 (c : Dev nD) : (dat5 V c).Φ (Fin.last cfg5.N) ⊢ (Pipeline.ΦA spec5 c : sProp 𝕄) := by
  rw [show (dat5 V c).Φ (Fin.last cfg5.N) = kept5 V c from rfl, PhiA5_eq]
  unfold kept5
  iintro ⟨⟨Hs, Hr⟩, Hg⟩
  iframe Hr Hg
  iexists _; iexact Hs

end Cert.Kernel.Hand

end
-- ==== Proof.FrameW.R6.Run.lean ====
import proofs.«407199_j78503412236482_3_alg».proof.Proof.Gen.Kernel.Skeleton
import proofs.«407199_j78503412236482_3_alg».proof.Proof.LibAccess
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Access

variable {F : FTy → Type} [FloatOps F]

local notation "𝕄" => MT nD τ sig Unit (Elt F) ℕ (UR sig nD τ) ℕ

local macro "close_pure" : tactic => `(tactic| (
  sl_unfold_run_names
  first
    | rw [read_store_origin (S := S152x256) _ _ at_origin]
    | rw [read_store_origin (S := S256x256) _ _ at_origin]
    | rw [read_store_origin (S := S256x512) _ _ at_origin]
    | rw [read_store_origin (S := S512x256) _ _ at_origin]
  try simp only [readAt_origin (S := S152x256) _ _ at_origin,
    readAt_origin (S := S256x256) _ _ at_origin,
    readAt_origin (S := S256x512) _ _ at_origin,
    readAt_origin (S := S512x256) _ _ at_origin,
    View.readCov_unit_zero (S := S256x256) _ at_origin,
    View.readCov_unit_zero (S := S256x512) _ at_origin,
    View.readCov_unit_zero (S := S512x256) _ at_origin]))

abbrev cond6 (i : grid6.Coords) : Prop :=
  (Scalar.cmpi .ne (Scalar.extui (Scalar.cmpi .eq (BitVec.ofNat 32 (i 0).val) 0#32) : BitVec 32) 0#32) = 1#1

theorem hcond6 : ∀ t : Fin cfg6.N, cond6 (grid6.coords t) ↔ t.val = 0 :=
  (by decide +kernel : ∀ t : Fin grid6.N, cond6 (grid6.coords t) ↔ t.val = 0)

set_option maxHeartbeats 4000000 in
-- The body on whole buffers, the scratch at `d·`: where the branch is taken it first fills the scratch from `x2 … x6`; `s·` is the scratch it then reads and leaves.
theorem sound_kernel6 (c : Dev nD) (E : Set ℕ) (i : grid6.Coords) (arg1 : Memref sig .tc .vmem S152x256 .f32) (harg1 : arg1.IsWhole) (arg2 : Memref sig .tc .vmem S152x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S152x256 .f32) (harg8 : arg8.IsWhole) (arg9 : Memref sig .tc .vmem S152x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x512 .bf16) (harg12 : arg12.IsWhole) (arg13 : Memref sig .tc .vmem S512x256 .bf16) (harg13 : arg13.IsWhole) (arg14 : Memref sig .tc .vmem S256x256 .bf16) (harg14 : arg14.IsWhole)
    (x0 x1 : Vec F S152x256 .f32) (x2 x3 : Vec F S256x256 .f32) (x4 : Vec F S256x512 .f32) (x5 : Vec F S512x256 .f32) (x6 : Vec F S256x256 .f32)
    (d0 d1 : Vec F S256x256 .bf16) (d2 : Vec F S256x512 .bf16) (d3 : Vec F S512x256 .bf16) (d4 : Vec F S256x256 .bf16)
    (s0 s1 : Vec F S256x256 .bf16) (s2 : Vec F S256x512 .bf16) (s3 : Vec F S512x256 .bf16) (s4 : Vec F S256x256 .bf16)
    (h0 : s0 = if cond6 i then k6_pay1 x2 else d0) (h1 : s1 = if cond6 i then k6_pay2 x3 else d1) (h2 : s2 = if cond6 i then k6_pay3 x4 else d2)
    (h3 : s3 = if cond6 i then k6_pay4 x5 else d3) (h4 : s4 = if cond6 i then k6_pay5 x6 else d4) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ owns (c : Thread nD τ) arg10 fullShare d0 ∗ owns (c : Thread nD τ) arg11 fullShare d1 ∗ owns (c : Thread nD τ) arg12 fullShare d2 ∗ owns (c : Thread nD τ) arg13 fullShare d3 ∗ owns (c : Thread nD τ) arg14 fullShare d4)
        ∗ (iprop(owns (c : Thread nD τ) arg8 fullShare (k6_pay6 x0 x1 s0 s1 s2 s3) ∗ owns (c : Thread nD τ) arg9 fullShare (k6_pay7 x0 x1 s0 s1 s2 s3 s4)
            ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4
            ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) -∗ K ⟨⟩))
      ⊢ wp frame (wpE (defs₀ (F := F)) Variants.none c none) E (cc6__dsn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc6__dsn_kernel_eq_skeleton]; unfold cc6__dsn_kernel_skel
  simp only [k6_part1_eq_skeleton]; unfold k6_part1_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, %f14, %hf14, H14⟩, Hk⟩
  subst hf1 hf2 hf3 hf4 hf5 hf6 hf7 hf10 hf11 hf12 hf13 hf14
  by_cases hc : cond6 i
  all_goals
    first | rw [if_pos hc] at h0 h1 h2 h3 h4 | rw [if_neg hc] at h0 h1 h2 h3 h4
    subst h0 h1 h2 h3 h4
    sl_exec (disch := first | exact hc)
    sl_step
    iapply Hk
    isplitl [H8]
    · iapply (own_ret _ _ _ _ ?_) $$ H8
      first | close_pure | rfl
    isplitl [H9]
    · iapply (own_ret _ _ _ _ ?_) $$ H9
      first | close_pure | rfl
    isplitl [H10]
    · iapply (own_ret _ _ _ _ ?_) $$ H10
      first | close_pure | rfl
    isplitl [H11]
    · iapply (own_ret _ _ _ _ ?_) $$ H11
      first | close_pure | rfl
    isplitl [H12]
    · iapply (own_ret _ _ _ _ ?_) $$ H12
      first | close_pure | rfl
    isplitl [H13]
    · iapply (own_ret _ _ _ _ ?_) $$ H13
      first | close_pure | rfl
    isplitl [H14]
    · iapply (own_ret _ _ _ _ ?_) $$ H14
      first | close_pure | rfl
    sl_close

end Cert.Kernel.Hand

end
-- ==== Proof.FrameW.R6.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.FrameW.R6.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def t6_0 : Fin cfg6.N := ⟨0, by show 0 < grid6.N; rw [N_6]; decide⟩

abbrev scM6_0 : Memref sig .tc .vmem S256x256 .bf16 := Memref.whole cc6_scratch0
abbrev scM6_1 : Memref sig .tc .vmem S256x256 .bf16 := Memref.whole cc6_scratch1
abbrev scM6_2 : Memref sig .tc .vmem S256x512 .bf16 := Memref.whole cc6_scratch2
abbrev scM6_3 : Memref sig .tc .vmem S512x256 .bf16 := Memref.whole cc6_scratch3
abbrev scM6_4 : Memref sig .tc .vmem S256x256 .bf16 := Memref.whole cc6_scratch4

def sc6_0 (c : Dev nD) : Vec F S256x256 .bf16 := k6_pay1 (iblk6 V c 2 t6_0)
def sc6_1 (c : Dev nD) : Vec F S256x256 .bf16 := k6_pay2 (iblk6 V c 3 t6_0)
def sc6_2 (c : Dev nD) : Vec F S256x512 .bf16 := k6_pay3 (iblk6 V c 4 t6_0)
def sc6_3 (c : Dev nD) : Vec F S512x256 .bf16 := k6_pay4 (iblk6 V c 5 t6_0)
def sc6_4 (c : Dev nD) : Vec F S256x256 .bf16 := k6_pay5 (iblk6 V c 6 t6_0)

abbrev RB6 (c : Dev nD) : sProp 𝕄 :=
  Pipeline.scopedRestBut (Ix := Unit) (Name := ℕ) (U := UR sig nD τ) (Lvl := ℕ) (Val := Elt F) spec6 c [cc6_scratch0, cc6_scratch1, cc6_scratch2, cc6_scratch3, cc6_scratch4]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d) ∗ (∃ d, owns (c : Thread nD τ) scM6_2 fullShare d) ∗ (∃ d, owns (c : Thread nD τ) scM6_3 fullShare d) ∗ (∃ d, owns (c : Thread nD τ) scM6_4 fullShare d)) ∗ RB6 (F := F) c) ∗ (∃ r, prngReg c r)) := by
  unfold Pipeline.ΦA; rw [scopedRest6_split]; simp only [scM6_0, scM6_1, scM6_2, scM6_3, scM6_4, owns_whole]; try rfl

-- The launch's invariant with the five scratch buffers holding what the first point writes to them.
def Phi6 (c : Dev nD) : sProp 𝕄 :=
  iprop(iprop(iprop(owns (c : Thread nD τ) scM6_0 fullShare (sc6_0 V c) ∗ owns (c : Thread nD τ) scM6_1 fullShare (sc6_1 V c) ∗ owns (c : Thread nD τ) scM6_2 fullShare (sc6_2 V c) ∗ owns (c : Thread nD τ) scM6_3 fullShare (sc6_3 V c) ∗ owns (c : Thread nD τ) scM6_4 fullShare (sc6_4 V c)) ∗ RB6 (F := F) c) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => k6_pay6 (iblk6 V c 0 t) (iblk6 V c 1 t) (sc6_0 V c) (sc6_1 V c) (sc6_2 V c) (sc6_3 V c)
    | ⟨8, _⟩ => k6_pay7 (iblk6 V c 0 t) (iblk6 V c 1 t) (sc6_0 V c) (sc6_1 V c) (sc6_2 V c) (sc6_3 V c) (sc6_4 V c)
  Φ t := if t.val = 0 then Pipeline.ΦA spec6 c else Phi6 V c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem after6_7 (c : Dev nD) (t : Fin cfg6.N) : (dat6 V c).after 7 t = k6_pay6 (iblk6 V c 0 t) (iblk6 V c 1 t) (sc6_0 V c) (sc6_1 V c) (sc6_2 V c) (sc6_3 V c) := by dsimp only [dat6]
theorem after6_8 (c : Dev nD) (t : Fin cfg6.N) : (dat6 V c).after 8 t = k6_pay7 (iblk6 V c 0 t) (iblk6 V c 1 t) (sc6_0 V c) (sc6_1 V c) (sc6_2 V c) (sc6_3 V c) (sc6_4 V c) := by dsimp only [dat6]

-- The body returns every input as it finds it, so what it finds at a point is what it leaves there.
theorem before6 (c : Dev nD) (t : Fin cfg6.N) (w : Fin cfg6.W) (hw : w.val < 7) (d) : (dat6 V c).before w t d = (dat6 V c).after w t := by
  obtain ⟨_|_|_|_|_|_|_|w, h⟩ := w
  all_goals first
    | exact (dat6 V c).before_in_eq_fetched _ rfl (fun _ => rfl) (fun _ _ _ => rfl) (fun _ => rfl) t d
    | exact absurd hw (Nat.not_lt.mpr (Nat.le_add_left 7 w))

-- The body at any point: at the first it takes the scratch buffers at any contents and fills them, later it only reads them.
theorem body_obligation6 (c : Dev nD) : BodyObligation (dat6 (F := F) V c) (defs₀ (F := F)) Variants.none () Set.univ := fun t => by
  rw [bigSep_W6, bigSep_W6]
  simp (disch := decide) only [before6 V c t]
  rw [show (dat6 V c).owesAt () t.succ = (dat6 V c).owesAt () t.castSucc from rfl]
  dsimp only [dat6, Fin.coe_castSucc, Fin.val_succ]
  rw [if_neg (Nat.add_one_ne_zero _)]
  by_cases hz : t.val = 0
  · rw [if_pos hz, PhiA6_eq]
    obtain rfl : t = t6_0 := Fin.ext hz
    have hc := (hcond6 t6_0).mpr rfl
    unfold Phi6 sc6_0 sc6_1 sc6_2 sc6_3 sc6_4
    iintro ⟨⟨⟨⟨⟨%_, HS0⟩, ⟨%_, HS1⟩, ⟨%_, HS2⟩, ⟨%_, HS3⟩, ⟨%_, HS4⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel6 c Set.univ (grid6.coords t6_0) _ _ _ _ _ _ _ _ _ _ _ _ _ _ _ _ _ _ _ _ _ _ _ _ _ _ _ _
      _ _ _ _ _ _ _ _ _ _ _ _ _ _ _ _ _
      (if_pos hc).symm (if_pos hc).symm (if_pos hc).symm (if_pos hc).symm (if_pos hc).symm _)
    isplitr [HR Hg Ho]; · sl_close
    iintro ⟨H7, H8, HS0, HS1, HS2, HS3, HS4, H0, H1, H2, H3, H4, H5, H6⟩
    iframe
  · rw [if_neg hz]
    have hc := fun h => hz ((hcond6 t).mp h)
    unfold Phi6
    iintro ⟨⟨⟨⟨HS0, HS1, HS2, HS3, HS4⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel6 c Set.univ (grid6.coords t) _ _ _ _ _ _ _ _ _ _ _ _ _ _ _ _ _ _ _ _ _ _ _ _ _ _ _ _
      _ _ _ _ _ _ _ _ _ _ _ _ _ _ _ _ _
      (if_neg hc).symm (if_neg hc).symm (if_neg hc).symm (if_neg hc).symm (if_neg hc).symm _)
    isplitr [HR Hg Ho]; · sl_close
    iintro ⟨H7, H8, HS0, HS1, HS2, HS3, HS4, H0, H1, H2, H3, H4, H5, H6⟩
    iframe

theorem hin6 (c : Dev nD) : (Pipeline.ΦA spec6 c : sProp 𝕄) ⊢ (dat6 V c).Φ 0 := .rfl

theorem hout6 (c : Dev nD) : (dat6 V c).Φ (Fin.last cfg6.N) ⊢ (Pipeline.ΦA spec6 c : sProp 𝕄) := by
  rw [show (dat6 V c).Φ (Fin.last cfg6.N) = Phi6 V c from rfl, PhiA6_eq]
  exact sep_mono_left (sep_mono_left (sep_mono (exists_intro _) (sep_mono (exists_intro _) (sep_mono (exists_intro _) (sep_mono (exists_intro _) (exists_intro _))))))

end Cert.Kernel.Hand

end
-- ==== Proof.FrameW.R7.lean ====
import proofs.«407199_j78503412236482_3_alg».proof.Proof.Gen.Kernel.Launch
import proofs.«407199_j78503412236482_3_alg».proof.Proof.Gen.Kernel.Skeleton
import proofs.«407199_j78503412236482_3_alg».proof.Proof.Gen.Kernel.Points
import proofs.«407199_j78503412236482_3_alg».proof.Proof.LibAccess

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Access

variable {F : FTy → Type} [FloatOps F]

local notation "𝕄" => MT nD τ sig Unit (Elt F) ℕ (UR sig nD τ) ℕ

abbrev cond7 (i : grid7.Coords) : Prop :=
  Scalar.cmpi .ne (Scalar.extui (Scalar.cmpi .eq (BitVec.ofNat 32 (i 0).val) 0#32)) 0#32 = 1#1

theorem hcond7 : ∀ t : Fin cfg7.N, cond7 (grid7.coords t) ↔ t.val = 0 :=
  (by decide +kernel : ∀ t : Fin grid7.N, cond7 (grid7.coords t) ↔ t.val = 0)

section
variable (c : Dev nD) (E : Set ℕ) (i : grid7.Coords)
  (a : Memref sig .tc .vmem S304x256 .f32) (ha : a.IsWhole) (b : Memref sig .tc .vmem S3040x256 .f32) (hb : b.IsWhole)
  (o : Memref sig .tc .vmem S304x3040 .f32) (ho : o.IsWhole) (s : Memref sig .tc .vmem S3040x256 .bf16) (hs : s.IsWhole)

-- At the first point the scratch receives the narrowed second factor, whatever it held, and the product is taken with it.
theorem sound_kernel7_first (hc : cond7 i) (x : Vec F S304x256 .f32) (y : Vec F S3040x256 .f32) (K : PUnit → sProp 𝕄) :
    iprop(owns (c : Thread nD τ) a fullShare x ∗ owns (c : Thread nD τ) b fullShare y
        ∗ (∃ d, owns (c : Thread nD τ) o fullShare d) ∗ (∃ d, owns (c : Thread nD τ) s fullShare d)
        ∗ (iprop(owns (c : Thread nD τ) o fullShare (k7_pay2 x (k7_pay1 y)) ∗ owns (c : Thread nD τ) s fullShare (k7_pay1 y)
            ∗ owns (c : Thread nD τ) a fullShare x ∗ owns (c : Thread nD τ) b fullShare y) -∗ K ⟨⟩))
      ⊢ wp frame (wpE (defs₀ (F := F)) Variants.none c none) E (cc7__matmul_kernel i a ha b hb o ho s hs) K := by
  simp only [cc7__matmul_kernel_eq_skeleton]; unfold cc7__matmul_kernel_skel owns
  iintro ⟨⟨%fa, %ea, Ha⟩, ⟨%fb, %eb, Hb⟩, ⟨%_, %fo, -, Ho⟩, ⟨%_, %fs, -, Hs⟩, Hk⟩
  subst ea eb
  sl_exec (disch := exact hc)
  sl_step
  iapply Hk
  isplitl [Ho]
  · iapply (own_ret _ _ _ _ ?_) $$ Ho
    sl_unfold_run_names
    rw [read_store_origin _ _ at_origin, View.readCov_unit_zero _ at_origin, readAt_origin _ _ at_origin, readAt_origin _ _ at_origin]
  isplitl [Hs]
  · iapply (own_ret _ _ _ _ ?_) $$ Hs
    sl_unfold_run_names
    rw [read_store_origin _ _ at_origin, readAt_origin _ _ at_origin]
  sl_close

-- Past the first point the scratch is only read, at `u`, and handed back as found; the second factor is not touched.
theorem sound_kernel7_later (hc : ¬ cond7 i) (x : Vec F S304x256 .f32) (u : Vec F S3040x256 .bf16) (K : PUnit → sProp 𝕄) :
    iprop(owns (c : Thread nD τ) a fullShare x ∗ (∃ d, owns (c : Thread nD τ) o fullShare d) ∗ owns (c : Thread nD τ) s fullShare u
        ∗ (iprop(owns (c : Thread nD τ) o fullShare (k7_pay2 x u) ∗ owns (c : Thread nD τ) a fullShare x ∗ owns (c : Thread nD τ) s fullShare u) -∗ K ⟨⟩))
      ⊢ wp frame (wpE (defs₀ (F := F)) Variants.none c none) E (cc7__matmul_kernel i a ha b hb o ho s hs) K := by
  simp only [cc7__matmul_kernel_eq_skeleton]; unfold cc7__matmul_kernel_skel owns
  iintro ⟨⟨%fa, %ea, Ha⟩, ⟨%_, %fo, -, Ho⟩, ⟨%fs, %es, Hs⟩, Hk⟩
  subst ea es
  sl_exec (disch := exact hc)
  sl_step
  iapply Hk
  isplitl [Ho]
  · iapply (own_ret _ _ _ _ ?_) $$ Ho
    rw [read_store_origin _ _ at_origin, readAt_origin _ _ at_origin, readAt_origin _ _ at_origin]
  sl_close

end

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- What the scratch holds from the first point on: the narrowed second factor.
def carried7 (c : Dev nD) : Vec F S3040x256 .bf16 := k7_pay1 (iblk7 V c 1 t7_0)

abbrev scM7 : Memref sig .tc .vmem S3040x256 .bf16 := Memref.whole cc7_scratch0

-- The entry assertion with the scratch named, owned at some contents.
theorem PhiA7_eq (c : Dev nD) :
    (Pipeline.ΦA spec7 c : sProp 𝕄)
      = iprop(iprop(iprop((∃ d, owns (c : Thread nD τ) scM7 fullShare d)) ∗ Pipeline.scopedRestBut spec7 c [cc7_scratch0])
          ∗ (∃ r, prngReg c r)) := by
  unfold Pipeline.ΦA; rw [scopedRest7_split]; simp only [scM7, owns_whole]; try rfl

-- What is carried past the first point: the scratch at the narrowed second factor, all else as at entry.
def kept7 (c : Dev nD) : sProp 𝕄 :=
  iprop(iprop(owns (c : Thread nD τ) scM7 fullShare (carried7 V c) ∗ Pipeline.scopedRestBut spec7 c [cc7_scratch0]) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay2 (iblk7 V c 0 t) (carried7 V c)
  Φ t := if t.val = 0 then Pipeline.ΦA spec7 c else kept7 V c
  q _ := fullShare
  owed _ := 0

theorem A_eq7 (c : Dev nD) (w : Fin cfg7.W) : (dat7 V c).A w = V c (Pipeline.arrRef spec7 w) := rfl

theorem q_eq7 (c : Dev nD) (w : Fin cfg7.W) : (dat7 V c).q w = fullShare := rfl

theorem owed_eq7 (c : Dev nD) (t : Fin (cfg7.N + 1)) : (dat7 V c).owed t = 0 := rfl

theorem after7_2 (c : Dev nD) (t : Fin cfg7.N) :
    (dat7 V c).after 2 t = k7_pay2 (iblk7 V c 0 t) (carried7 V c) := rfl

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

-- The body at any point: the invariant lends the scratch to the run and takes it back at the narrowed second factor; all else is framed.
theorem body_obligation7 (c : Dev nD) : BodyObligation (dat7 (F := F) V c) (defs₀ (F := F)) Variants.none () Set.univ := fun t => by
  rw [bigSep_W7, bigSep_W7]
  simp only [before7_0, before7_1]
  show _ ⊢ wp _ _ _ (bodyAt7 t) _
  unfold bodyAt7
  rw [show (dat7 V c).owesAt () t.succ = (dat7 V c).owesAt () t.castSucc from rfl,
    show (dat7 V c).Φ t.succ = kept7 V c from rfl,
    show (dat7 V c).after 0 t = iblk7 V c 0 t from rfl, show (dat7 V c).after 1 t = iblk7 V c 1 t from rfl, after7_2]
  by_cases hz : t.val = 0
  · obtain rfl : t = t7_0 := Fin.ext hz
    rw [show (dat7 V c).Φ t7_0.castSucc = Pipeline.ΦA spec7 c from rfl, PhiA7_eq]
    unfold kept7 carried7
    iintro ⟨⟨⟨Hs, Hr⟩, Hg⟩, Hw, ⟨%_, Ha⟩, ⟨%_, Hb⟩, ⟨%_, Ho⟩⟩
    iapply (sound_kernel7_first c Set.univ _ _ _ _ _ _ _ _ _ ((hcond7 t7_0).mpr hz) (iblk7 V c 0 t7_0) (iblk7 V c 1 t7_0) _)
    iframe Ha Hb Hs
    isplitl [Ho]; · iexists _; iexact Ho
    iintro ⟨Ho, Hs, Ha, Hb⟩
    iframe
  · rw [show (dat7 V c).Φ t.castSucc = kept7 V c from if_neg hz]
    unfold kept7 carried7
    iintro ⟨⟨⟨Hs, Hr⟩, Hg⟩, Hw, ⟨%_, Ha⟩, ⟨%_, Hb⟩, ⟨%_, Ho⟩⟩
    iapply (sound_kernel7_later c Set.univ _ _ _ _ _ _ _ _ _ (fun h => hz ((hcond7 t).mp h)) (iblk7 V c 0 t) (k7_pay1 (iblk7 V c 1 t7_0)) _)
    iframe Ha Hs
    isplitl [Ho]; · iexists _; iexact Ho
    iintro ⟨Ho, Ha, Hs⟩
    iframe

theorem hin7 (c : Dev nD) : (Pipeline.ΦA spec7 c : sProp 𝕄) ⊢ (dat7 V c).Φ 0 := .rfl

-- Forgetting what the scratch holds gives back the entry assertion.
theorem hout7 (c : Dev nD) : (dat7 V c).Φ (Fin.last cfg7.N) ⊢ (Pipeline.ΦA spec7 c : sProp 𝕄) := by
  rw [show (dat7 V c).Φ (Fin.last cfg7.N) = kept7 V c from rfl, PhiA7_eq]
  unfold kept7 carried7
  iintro ⟨⟨Hs, Hr⟩, Hg⟩
  iframe Hr Hg
  iexists _; iexact Hs

end Cert.Kernel.Hand

end
-- ==== Proof.FrameW.Vals.lean ====
import proofs.«407199_j78503412236482_3_alg».proof.Proof.Gen.Kernel.Regions
import proofs.«407199_j78503412236482_3_alg».proof.Proof.FrameW.R0
import proofs.«407199_j78503412236482_3_alg».proof.Proof.FrameW.R1
import proofs.«407199_j78503412236482_3_alg».proof.Proof.FrameW.R2
import proofs.«407199_j78503412236482_3_alg».proof.Proof.FrameW.R3
import proofs.«407199_j78503412236482_3_alg».proof.Proof.FrameW.R4
import proofs.«407199_j78503412236482_3_alg».proof.Proof.FrameW.R5
import proofs.«407199_j78503412236482_3_alg».proof.Proof.FrameW.R6
import proofs.«407199_j78503412236482_3_alg».proof.Proof.FrameW.R7

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def U1 (c : Dev nD) : Valuation τ sig (Elt F) :=
  Function.update (V0 m c) main_v0 ((dat0 (atTc (V0 m)) c).arrAt 5 cfg0.N)
def U2 (c : Dev nD) : Valuation τ sig (Elt F) := StableHlo.after hostOps1 (U1 m c)
def U3 (c : Dev nD) : Valuation τ sig (Elt F) :=
  Function.update (Function.update (U2 m c) main_v5_0 ((dat1 (atTc (U2 m)) c).arrAt 6 cfg1.N)) main_v5_1 ((dat1 (atTc (U2 m)) c).arrAt 7 cfg1.N)
def U4 (c : Dev nD) : Valuation τ sig (Elt F) :=
  Function.update (U3 m c) main_v6 ((dat2 (atTc (U3 m)) c).arrAt 3 cfg2.N)
def U5 (c : Dev nD) : Valuation τ sig (Elt F) :=
  Function.update (U4 m c) main_v7 ((dat3 (atTc (U4 m)) c).arrAt 2 cfg3.N)
def U6 (c : Dev nD) : Valuation τ sig (Elt F) :=
  Function.update (U5 m c) main_v8 ((dat4 (atTc (U5 m)) c).arrAt 3 cfg4.N)
def U7 (c : Dev nD) : Valuation τ sig (Elt F) :=
  Function.update (U6 m c) main_v9 ((dat5 (atTc (U6 m)) c).arrAt 2 cfg5.N)
def U8 (c : Dev nD) : Valuation τ sig (Elt F) := StableHlo.after hostOps6 (U7 m c)
def U9 (c : Dev nD) : Valuation τ sig (Elt F) :=
  Function.update (Function.update (U8 m c) main_v12_0 ((dat6 (atTc (U8 m)) c).arrAt 7 cfg6.N)) main_v12_1 ((dat6 (atTc (U8 m)) c).arrAt 8 cfg6.N)
def U10 (c : Dev nD) : Valuation τ sig (Elt F) :=
  Function.update (U9 m c) main_v13 ((dat7 (atTc (U9 m)) c).arrAt 2 cfg7.N)

def outs : Outs (F := F) := fun J r c =>
  match J with
  | 1 => U1 m c r
  | 3 => U3 m c r
  | 4 => U4 m c r
  | 5 => U5 m c r
  | 6 => U6 m c r
  | 7 => U7 m c r
  | 9 => U9 m c r
  | 10 => U10 m c r
  | _ => V0 m c r

/-- An update of `g`, written back at its point over a function equal to `g`, is that update. -/
theorem update_read {α : Type} [DecidableEq α] {β : α → Type} {f g : (a : α) → β a} (h : f = g) (a : α) (x : β a) :
    Function.update f a (Function.update g a x a) = Function.update g a x := by
  rw [h, Function.update_self]

/-- Two updates at distinct points, each with what the updated function holds there, give that function. -/
theorem update2_read {α : Type} [DecidableEq α] {β : α → Type} (f : (a : α) → β a) {a b : α} (hab : a ≠ b) (x : β a) (y : β b) :
    Function.update (Function.update f a (Function.update (Function.update f a x) b y a)) b (Function.update (Function.update f a x) b y b)
      = Function.update (Function.update f a x) b y := by
  rw [Function.update_self, Function.update_of_ne hab, Function.update_self]

theorem V1_eq (c : Dev nD) : V1 m (outs m) c = U1 m c := update_read rfl _ _
theorem V2_eq (c : Dev nD) : V2 m (outs m) c = U2 m c := congrArg (StableHlo.after hostOps1) (V1_eq m c)
theorem V3_eq (c : Dev nD) : V3 m (outs m) c = U3 m c := by
  show Function.update (Function.update (V2 m (outs m) c) main_v5_0 (U3 m c main_v5_0)) main_v5_1 (U3 m c main_v5_1) = U3 m c
  rw [V2_eq]; exact update2_read _ (StableHlo.devRef_ne_of_ne (by decide)) _ _
theorem V4_eq (c : Dev nD) : V4 m (outs m) c = U4 m c := update_read (V3_eq m c) _ _
theorem V5_eq (c : Dev nD) : V5 m (outs m) c = U5 m c := update_read (V4_eq m c) _ _
theorem V6_eq (c : Dev nD) : V6 m (outs m) c = U6 m c := update_read (V5_eq m c) _ _
theorem V7_eq (c : Dev nD) : V7 m (outs m) c = U7 m c := update_read (V6_eq m c) _ _
theorem V8_eq (c : Dev nD) : V8 m (outs m) c = U8 m c := congrArg (StableHlo.after hostOps6) (V7_eq m c)
theorem V9_eq (c : Dev nD) : V9 m (outs m) c = U9 m c := by
  show Function.update (Function.update (V8 m (outs m) c) main_v12_0 (U9 m c main_v12_0)) main_v12_1 (U9 m c main_v12_1) = U9 m c
  rw [V8_eq]; exact update2_read _ (StableHlo.devRef_ne_of_ne (by decide)) _ _
theorem V10_eq (c : Dev nD) : V10 m (outs m) c = U10 m c := update_read (V9_eq m c) _ _

theorem U1_of (c : Dev nD) (r : Ref sig .tc) (h : r ∉ ([main_v0] : List (Ref sig .tc))) : U1 m c r = V0 m c r := by
  rw [← V1_eq]; exact V1_of m (outs m) c r h
theorem U3_of (c : Dev nD) (r : Ref sig .tc) (h : r ∉ ([main_v5_0, main_v5_1] : List (Ref sig .tc))) : U3 m c r = U2 m c r := by
  rw [← V3_eq, ← V2_eq]; exact V3_of m (outs m) c r h
theorem U4_of (c : Dev nD) (r : Ref sig .tc) (h : r ∉ ([main_v6] : List (Ref sig .tc))) : U4 m c r = U3 m c r := by
  rw [← V4_eq, ← V3_eq]; exact V4_of m (outs m) c r h
theorem U5_of (c : Dev nD) (r : Ref sig .tc) (h : r ∉ ([main_v7] : List (Ref sig .tc))) : U5 m c r = U4 m c r := by
  rw [← V5_eq, ← V4_eq]; exact V5_of m (outs m) c r h
theorem U6_of (c : Dev nD) (r : Ref sig .tc) (h : r ∉ ([main_v8] : List (Ref sig .tc))) : U6 m c r = U5 m c r := by
  rw [← V6_eq, ← V5_eq]; exact V6_of m (outs m) c r h
theorem U7_of (c : Dev nD) (r : Ref sig .tc) (h : r ∉ ([main_v9] : List (Ref sig .tc))) : U7 m c r = U6 m c r := by
  rw [← V7_eq, ← V6_eq]; exact V7_of m (outs m) c r h
theorem U9_of (c : Dev nD) (r : Ref sig .tc) (h : r ∉ ([main_v12_0, main_v12_1] : List (Ref sig .tc))) : U9 m c r = U8 m c r := by
  rw [← V9_eq, ← V8_eq]; exact V9_of m (outs m) c r h
theorem U10_of (c : Dev nD) (r : Ref sig .tc) (h : r ∉ ([main_v13] : List (Ref sig .tc))) : U10 m c r = U9 m c r := by
  rw [← V10_eq, ← V9_eq]; exact V10_of m (outs m) c r h

theorem U1_out (c : Dev nD) : U1 m c main_v0 = (dat0 (atTc (V0 m)) c).arrAt 5 cfg0.N := Function.update_self _ _ _
theorem U3_out0 (c : Dev nD) : U3 m c main_v5_0 = (dat1 (atTc (U2 m)) c).arrAt 6 cfg1.N :=
  (Function.update_of_ne (StableHlo.devRef_ne_of_ne (by decide)) _ _).trans (Function.update_self _ _ _)
theorem U3_out1 (c : Dev nD) : U3 m c main_v5_1 = (dat1 (atTc (U2 m)) c).arrAt 7 cfg1.N := Function.update_self _ _ _
theorem U4_out (c : Dev nD) : U4 m c main_v6 = (dat2 (atTc (U3 m)) c).arrAt 3 cfg2.N := Function.update_self _ _ _
theorem U5_out (c : Dev nD) : U5 m c main_v7 = (dat3 (atTc (U4 m)) c).arrAt 2 cfg3.N := Function.update_self _ _ _
theorem U6_out (c : Dev nD) : U6 m c main_v8 = (dat4 (atTc (U5 m)) c).arrAt 3 cfg4.N := Function.update_self _ _ _
theorem U7_out (c : Dev nD) : U7 m c main_v9 = (dat5 (atTc (U6 m)) c).arrAt 2 cfg5.N := Function.update_self _ _ _
theorem U9_out0 (c : Dev nD) : U9 m c main_v12_0 = (dat6 (atTc (U8 m)) c).arrAt 7 cfg6.N :=
  (Function.update_of_ne (StableHlo.devRef_ne_of_ne (by decide)) _ _).trans (Function.update_self _ _ _)
theorem U9_out1 (c : Dev nD) : U9 m c main_v12_1 = (dat6 (atTc (U8 m)) c).arrAt 8 cfg6.N := Function.update_self _ _ _
theorem U10_out (c : Dev nD) : U10 m c main_v13 = (dat7 (atTc (U9 m)) c).arrAt 2 cfg7.N := Function.update_self _ _ _

def pdats : (p : Fin 8) → (c : Dev nD) → Dat τ (Elt F) Unit ℕ (UR sig nD τ) ℕ (cfgs p) c
  | ⟨0, _⟩ => fun c => dat0 (atTc (V0 m)) c
  | ⟨1, _⟩ => fun c => dat1 (atTc (U2 m)) c
  | ⟨2, _⟩ => fun c => dat2 (atTc (U3 m)) c
  | ⟨3, _⟩ => fun c => dat3 (atTc (U4 m)) c
  | ⟨4, _⟩ => fun c => dat4 (atTc (U5 m)) c
  | ⟨5, _⟩ => fun c => dat5 (atTc (U6 m)) c
  | ⟨6, _⟩ => fun c => dat6 (atTc (U8 m)) c
  | ⟨7, _⟩ => fun c => dat7 (atTc (U9 m)) c

local notation "𝕄" => MT nD τ sig Unit (Elt F) ℕ (UR sig nD τ) ℕ

abbrev L0 : GSem nD τ sig → Finset Unit := fun _ => ∅
abbrev lv0 : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 9 → Dev nD → sProp 𝕄 := fun _ c => R (F := F) c

end Cert.Kernel.Hand

end
-- ==== Proof.FrameW.Seg.lean ====
import proofs.«407199_j78503412236482_3_alg».proof.Proof.FrameW.Vals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

variable (m : (ℓ : Loc nD τ sig) → Buf (Elt F) ℓ)

/-- A launch's array after it is what the contents after it say: an input held its entry contents, which the contents after keep off the outputs. -/
theorem arrAt_last {p : Fin 8} (lf : Pipeline.LaunchFacts (nD := nD) (τ := τ) cfgs p) {Vi Vo : Dev nD → Valuation τ sig (Elt F)} {c : Dev nD}
    {O : List (Fin (cfgs p).W)} (hio : ∀ w, w ∉ O → ((cfgs p).win w).isOut = false)
    (hA : ∀ w, (pdats m p c).A w = atTc Vi c (Pipeline.arrRef (cfgs p).spec w))
    (hof : ∀ r, r ∉ O.map (Pipeline.arrRef (cfgs p).spec) → Vo c r = Vi c r)
    (hO : O.Forall fun w => (pdats m p c).arrAt w (cfgs p).N = atTc Vo c (Pipeline.arrRef (cfgs p).spec w)) (w : Fin (cfgs p).W) :
    (pdats m p c).arrAt w (cfgs p).N = atTc Vo c (Pipeline.arrRef (cfgs p).spec w) :=
  if h : w ∈ O then List.forall_iff_forall_mem.1 hO w h else ((pdats m p c).arrAt_in w (hio w h) _).trans
    ((hA w).trans (hof _ fun h' => h ((List.mem_map_of_injective lf.win.arr_inj).1 h')).symm)

/-- A launch as a segment of the run: entered at the contents `Vi`, left at `Vo`, which differ only at its output arrays `O`. -/
def regOf (p : Fin 8) (lf : Pipeline.LaunchFacts (nD := nD) (τ := τ) cfgs p) (Vi Vo : Dev nD → Valuation τ sig (Elt F))
    (hbody : ∀ c, BodyObligation (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = atTc Vi c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (O : List (Fin (cfgs p).W)) (hio : ∀ w, w ∉ O → ((cfgs p).win w).isOut = false)
    (hof : ∀ c r, r ∉ O.map (Pipeline.arrRef (cfgs p).spec) → Vo c r = Vi c r)
    (hO : ∀ c, O.Forall fun w => (pdats m p c).arrAt w (cfgs p).N = atTc Vo c (Pipeline.arrRef (cfgs p).spec w)) :
    RegionSeg (pcfgs (F := F)) adm (pdats m) () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    unfold Pipeline.Dat.owesAt Pipeline.owesWithin Pipeline.Dat.bound
    rw [Pipeline.ownSems0_none, howed c 0, hrec c, Set.univ_union]
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iexists W; isplitr; · ipureintro; exact Set.subset_univ _
    iexact HO
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) (arrAt_last m lf hio (hA c) (hof c) (hO c))
      fun b hb => hof c b fun h => hb (let ⟨w, _, e⟩ := List.mem_map.1 h; Finset.mem_image.2 ⟨w, Finset.mem_univ _, e⟩)
    rw [Pipeline.unscopedBufs_held] at hjoin
    unfold Pipeline.Dat.owesAt Pipeline.owesWithin
    rw [howed c]
    iintro ⟨Ha, ⟨%W, -, HO⟩, HY, Hrest⟩
    imodintro
    isplitl [Ha Hrest]; · iapply hjoin; iframe
    isplitl [HY]; · iexact HY
    iexists W; iexact HO

def reg0 : RegionSeg (pcfgs (F := F)) adm (pdats m) () defs₀ Variants.none L0 lv0 0 :=
  regOf m 0 launch0 (V0 m) (U1 m) (body_obligation0 _) (owed_eq0 _) (fun _ => rfl) (q_eq0 _) (A_eq0 _) (hin0 _) (hout0 _)
    ([5] : List (Fin cfg0.W)) (by decide) (U1_of m) fun c => (U1_out m c).symm

def reg1 : RegionSeg (pcfgs (F := F)) adm (pdats m) () defs₀ Variants.none L0 lv0 1 :=
  regOf m 1 launch1 (U2 m) (U3 m) (body_obligation1 _) (owed_eq1 _) (fun _ => rfl) (q_eq1 _) (A_eq1 _) (hin1 _) (hout1 _)
    ([6, 7] : List (Fin cfg1.W)) (by decide) (U3_of m) fun c => ⟨(U3_out0 m c).symm, (U3_out1 m c).symm⟩

def reg2 : RegionSeg (pcfgs (F := F)) adm (pdats m) () defs₀ Variants.none L0 lv0 2 :=
  regOf m 2 launch2 (U3 m) (U4 m) (body_obligation2 _) (owed_eq2 _) (fun _ => rfl) (q_eq2 _) (A_eq2 _) (hin2 _) (hout2 _)
    ([3] : List (Fin cfg2.W)) (by decide) (U4_of m) fun c => (U4_out m c).symm

def reg3 : RegionSeg (pcfgs (F := F)) adm (pdats m) () defs₀ Variants.none L0 lv0 3 :=
  regOf m 3 launch3 (U4 m) (U5 m) (body_obligation3 _) (owed_eq3 _) (fun _ => rfl) (q_eq3 _) (A_eq3 _) (hin3 _) (hout3 _)
    ([2] : List (Fin cfg3.W)) (by decide) (U5_of m) fun c => (U5_out m c).symm

def reg4 : RegionSeg (pcfgs (F := F)) adm (pdats m) () defs₀ Variants.none L0 lv0 4 :=
  regOf m 4 launch4 (U5 m) (U6 m) (body_obligation4 _) (owed_eq4 _) (fun _ => rfl) (q_eq4 _) (A_eq4 _) (hin4 _) (hout4 _)
    ([3] : List (Fin cfg4.W)) (by decide) (U6_of m) fun c => (U6_out m c).symm

def reg5 : RegionSeg (pcfgs (F := F)) adm (pdats m) () defs₀ Variants.none L0 lv0 5 :=
  regOf m 5 launch5 (U6 m) (U7 m) (body_obligation5 _) (owed_eq5 _) (fun _ => rfl) (q_eq5 _) (A_eq5 _) (hin5 _) (hout5 _)
    ([2] : List (Fin cfg5.W)) (by decide) (U7_of m) fun c => (U7_out m c).symm

def reg6 : RegionSeg (pcfgs (F := F)) adm (pdats m) () defs₀ Variants.none L0 lv0 6 :=
  regOf m 6 launch6 (U8 m) (U9 m) (body_obligation6 _) (owed_eq6 _) (fun _ => rfl) (q_eq6 _) (A_eq6 _) (hin6 _) (hout6 _)
    ([7, 8] : List (Fin cfg6.W)) (by decide) (U9_of m) fun c => ⟨(U9_out0 m c).symm, (U9_out1 m c).symm⟩

def reg7 : RegionSeg (pcfgs (F := F)) adm (pdats m) () defs₀ Variants.none L0 lv0 7 :=
  regOf m 7 launch7 (U9 m) (U10 m) (body_obligation7 _) (owed_eq7 _) (fun _ => rfl) (q_eq7 _) (A_eq7 _) (hin7 _) (hout7 _)
    ([2] : List (Fin cfg7.W)) (by decide) (U10_of m) fun c => (U10_out m c).symm

end Cert.Kernel.Hand

end
-- ==== Proof.KernelFrame.lean ====
import proofs.«407199_j78503412236482_3_alg».proof.Proof.Gen.Kernel.Regions
import proofs.«407199_j78503412236482_3_alg».proof.Proof.FrameW.Seg

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

set_option backward.isDefEq.respectTransparency.types false in
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine frame_cond (F := F) m (Ix := Unit) (U := UR sig nD τ) (Lvl := ℕ) emb₁ () Variants.none L0 lv0 (fun _ _ => rfl) ρ (outs m) (pdats m)
    (0 : Dev nD → CellTallies nD τ sig Unit) (fun _ => iprop(emp)) (initOf (Pipeline.cells cfgs cellOf_inj) (Pipeline.launchToks cfgs cellOf_inj)) ?hu (E (F := F)) ?hE0 ?hE8
    (reg0 m) (fun _ => .rfl) (fun _ => by rw [V1_eq]; exact .rfl) (reg1 m) (fun _ => by rw [V2_eq]; exact .rfl) (fun _ => by rw [V3_eq]; exact .rfl) (reg2 m) (fun _ => by rw [V3_eq]; exact .rfl) (fun _ => by rw [V4_eq]; exact .rfl) (reg3 m) (fun _ => by rw [V4_eq]; exact .rfl) (fun _ => by rw [V5_eq]; exact .rfl) (reg4 m) (fun _ => by rw [V5_eq]; exact .rfl) (fun _ => by rw [V6_eq]; exact .rfl) (reg5 m) (fun _ => by rw [V6_eq]; exact .rfl) (fun _ => by rw [V7_eq]; exact .rfl) (reg6 m) (fun _ => by rw [V8_eq]; exact .rfl) (fun _ => by rw [V9_eq]; exact .rfl) (reg7 m) (fun _ => by rw [V9_eq]; exact .rfl) (fun _ => by rw [V10_eq]; exact .rfl)
  case hu =>
    unfold ownU
    iintro Hu; imodintro
    isplitl [Hu]; · iexact Hu
    iapply (show (BI.emp : sProp 𝕄) ⊢ bigSep Finset.univ (fun _ : Dev nD => (BI.emp : sProp 𝕄)) from by rw [BI.bigSep_emp_const])
    iempintro
  case hE0 =>
    refine Pipeline.initEach L0 lv0 fun c => ?_
    iintro ⟨⟨-, HO, -, Hp, -⟩, -⟩
    imodintro
    sl_close
  case hE8 =>
    intro c
    iintro ⟨-, HO⟩
    iexact HO

end Cert.Kernel.Hand

end
-- ==== Proof.Spec.lean ====
import proofs.«407199_j78503412236482_3_alg».proof.Proof.Gen.KernelIdeal.Skeleton
import Idealize.ShloMosaic.Lib.ValueIdx

noncomputable section

namespace Cert.KernelIdeal.Spec

open Idealize.ShloMosaic Idealize.ShloMosaic.TcCoe Idealize.ShloMosaic.ValueIdx Cert.KernelIdeal Cert.KernelIdeal.Gen

variable {F : FTy → Type} [FloatOps F]

def tile2 {α : Type} (N R C : Nat) (hN : 0 < N) (x : (⟨2, ![N, C]⟩ : Shape).Idx → α) (t : Nat) :
    (⟨2, ![R, C]⟩ : Shape).Idx → α :=
  fun y => x (ix2 ⟨(t * R + (y 0).val) % N, Nat.mod_lt _ hN⟩ (y 1))

def tile3 {α : Type} (N R B C : Nat) (hN : 0 < N) (x : (⟨3, ![N, B, C]⟩ : Shape).Idx → α) (t : Nat) :
    (⟨3, ![R, B, C]⟩ : Shape).Idx → α :=
  fun y => x (ix3 ⟨(t * R + (y 0).val) % N, Nat.mod_lt _ hN⟩ (y 1) (y 2))

def inTile (R : Nat) (hR : 0 < R) {N : Nat} (r : Fin N) : Fin R := ⟨r.val % R, Nat.mod_lt _ hR⟩

def emb (enc : IVec S3040x100 32) (adj : Vec F S3040x100x100 .f32) (tok : Vec F S43x75 .f32)
    (w1 : Vec F S3040x75x128 .f32) (w2 : Vec F S3040x128x128 .f32) : Vec F S3040x128 .f32 :=
  fun i => k0_pay1 (tile2 3040 80 100 (by decide) enc ((i 0).val / 80)) tok
    (tile3 3040 80 75 128 (by decide) w1 ((i 0).val / 80)) (tile3 3040 80 100 100 (by decide) adj ((i 0).val / 80))
    (tile3 3040 80 128 128 (by decide) w2 ((i 0).val / 80)) (ix2 (inTile 80 (by decide) (i 0)) (i 1))

def projP (x : Vec F S3040x384 .f32) (e : Vec F S3040x128 .f32) (wx : Vec F S384x256 .f32) (we : Vec F S128x256 .f32) :
    Vec F S3040x256 .f32 :=
  fun i => k1_pay3 (tile2 3040 152 384 (by decide) x ((i 0).val / 152)) (tile2 3040 152 128 (by decide) e ((i 0).val / 152))
    wx we (ix2 (inTile 152 (by decide) (i 0)) (i 1))

def projN (x : Vec F S3040x384 .f32) (e : Vec F S3040x128 .f32) (wx : Vec F S384x256 .f32) (we : Vec F S128x256 .f32) :
    Vec F S3040x256 .f32 :=
  fun i => k1_pay4 (tile2 3040 152 384 (by decide) x ((i 0).val / 152)) (tile2 3040 152 128 (by decide) e ((i 0).val / 152))
    wx we (ix2 (inTile 152 (by decide) (i 0)) (i 1))

def adjRelu2 (adj : Vec F S3040x3040 .f32) (inner : Vec F S3040x256 .f32) (w : Vec F S256x256 .f32) : Vec F S3040x256 .f32 :=
  fun i => k2_pay3 (tile2 3040 304 3040 (by decide) adj ((i 0).val / 304)) (k2_pay1 inner) (k2_pay2 w)
    (ix2 (inTile 304 (by decide) (i 0)) (i 1))

def adjMul3 (adj : Vec F S3040x3040 .f32) (b : Vec F S3040x256 .f32) : Vec F S3040x256 .f32 :=
  fun i => k3_pay2 (tile2 3040 304 3040 (by decide) adj ((i 0).val / 304)) (k3_pay1 b) (ix2 (inTile 304 (by decide) (i 0)) (i 1))

def adjRelu4 (adj : Vec F S3040x3040 .f32) (inner : Vec F S3040x256 .f32) (w : Vec F S256x256 .f32) : Vec F S3040x256 .f32 :=
  fun i => k4_pay3 (tile2 3040 304 3040 (by decide) adj ((i 0).val / 304)) (k4_pay1 inner) (k4_pay2 w)
    (ix2 (inTile 304 (by decide) (i 0)) (i 1))

def adjMul5 (adj : Vec F S3040x3040 .f32) (b : Vec F S3040x256 .f32) : Vec F S3040x256 .f32 :=
  fun i => k5_pay2 (tile2 3040 304 3040 (by decide) adj ((i 0).val / 304)) (k5_pay1 b) (ix2 (inTile 304 (by decide) (i 0)) (i 1))

def tailZ (zp zn : Vec F S3040x256 .f32) (d1p d1n : Vec F S256x256 .f32) (d2 : Vec F S256x512 .f32) (d3 : Vec F S512x256 .f32) :
    Vec F S3040x256 .f32 :=
  fun i => k6_pay6 (tile2 3040 152 256 (by decide) zp ((i 0).val / 152)) (tile2 3040 152 256 (by decide) zn ((i 0).val / 152))
    (k6_pay1 d1p) (k6_pay2 d1n) (k6_pay3 d2) (k6_pay4 d3) (ix2 (inTile 152 (by decide) (i 0)) (i 1))

def tailDec (zp zn : Vec F S3040x256 .f32) (d1p d1n : Vec F S256x256 .f32) (d2 : Vec F S256x512 .f32) (d3 : Vec F S512x256 .f32)
    (dec : Vec F S256x256 .f32) : Vec F S3040x256 .f32 :=
  fun i => k6_pay7 (tile2 3040 152 256 (by decide) zp ((i 0).val / 152)) (tile2 3040 152 256 (by decide) zn ((i 0).val / 152))
    (k6_pay1 d1p) (k6_pay2 d1n) (k6_pay3 d2) (k6_pay4 d3) (k6_pay5 dec) (ix2 (inTile 152 (by decide) (i 0)) (i 1))

def mulT (a b : Vec F S3040x256 .f32) : Vec F S3040x3040 .f32 :=
  fun i => k7_pay2 (tile2 3040 304 256 (by decide) a ((i 0).val / 304)) (k7_pay1 b) (ix2 (inTile 304 (by decide) (i 0)) (i 1))

def result (x : Vec F S3040x384 .f32) (ap an : Vec F S3040x3040 .f32) (adj : Vec F S3040x100x100 .f32) (enc : IVec S3040x100 32)
    (tok : Vec F S43x75 .f32) (w1 : Vec F S3040x75x128 .f32) (w2 : Vec F S3040x128x128 .f32)
    (wp1 : Vec F S512x256 .f32) (wp2 : Vec F S256x256 .f32) (wn1 : Vec F S512x256 .f32) (wn2 : Vec F S256x256 .f32)
    (wd1 : Vec F S512x256 .f32) (wd2 : Vec F S256x512 .f32) (wd3 : Vec F S512x256 .f32) (wdec : Vec F S256x256 .f32) :
    Vec F S3040x3040 .f32 :=
  let e := emb enc adj tok w1 w2
  let ip := projP x e (extractStridedSlice S384x256 ![0, 0] wp1 slices_S512x256_S384x256_0_0)
    (extractStridedSlice S128x256 ![384, 0] wp1 slices_S512x256_S128x256_384_0)
  let inn := projN x e (extractStridedSlice S384x256 ![0, 0] wn1 slices_S512x256_S384x256_0_0)
    (extractStridedSlice S128x256 ![384, 0] wn1 slices_S512x256_S128x256_384_0)
  let zp := adjMul3 ap (adjRelu2 ap ip wp2)
  let zn := adjMul5 an (adjRelu4 an inn wn2)
  let d1p := extractStridedSlice S256x256 ![0, 0] wd1 slices_S512x256_S256x256_0_0
  let d1n := extractStridedSlice S256x256 ![256, 0] wd1 slices_S512x256_S256x256_256_0
  mulT (tailDec zp zn d1p d1n wd2 wd3 wdec) (tailZ zp zn d1p d1n wd2 wd3)

end Cert.KernelIdeal.Spec

end
-- ==== Proof.Frame.R0.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev encAll0 : Rect S80x100 := Rect.unit (s := S80x100) ![0, 0] S80x100.size inb_S80x100_S80x100_0_0
abbrev adjAll0 : Rect S80x100x100 := Rect.unit (s := S80x100x100) ![0, 0, 0] S80x100x100.size inb_S80x100x100_S80x100x100_0_0_0
abbrev tokAll0 : Rect S43x75 := Rect.unit (s := S43x75) ![0, 0] S43x75.size inb_S43x75_S43x75_0_0
abbrev w1All0 : Rect S80x75x128 := Rect.unit (s := S80x75x128) ![0, 0, 0] S80x75x128.size inb_S80x75x128_S80x75x128_0_0_0
abbrev w2All0 : Rect S80x128x128 := Rect.unit (s := S80x128x128) ![0, 0, 0] S80x128x128.size inb_S80x128x128_S80x128x128_0_0_0
abbrev embAll0 : Rect S80x128 := Rect.unit (s := S80x128) ![0, 0] S80x128.size inb_S80x128_S80x128_0_0

def embTile (enc : Vec F S80x100 .i32) (adj : Vec F S80x100x100 .f32) (tok : Vec F S43x75 .f32)
    (w1 : Vec F S80x75x128 .f32) (w2 : Vec F S80x128x128 .f32) : Vec F S80x128 .f32 :=
  View.canon [⟨embAll0, k0_pay1 (View.ld enc encAll0) (View.ld tok tokAll0) (View.ld w1 w1All0) (View.ld adj adjAll0) (View.ld w2 w2All0)⟩]

set_option maxHeartbeats 1000000 in
/-- The body reads five arrays whole and writes `embTile` of them over the whole of the sixth: one piece of full size covers it. -/
theorem embBody_run (c : Dev nD) (E : Set ℕ) (i : grid0.Coords)
    (a1 : Memref sig .tc .vmem S80x100 .i32) (h1 : a1.IsWhole) (a2 : Memref sig .tc .vmem S80x100x100 .f32) (h2 : a2.IsWhole)
    (a3 : Memref sig .tc .vmem S43x75 .f32) (h3 : a3.IsWhole) (a4 : Memref sig .tc .vmem S80x75x128 .f32) (h4 : a4.IsWhole)
    (a5 : Memref sig .tc .vmem S80x128x128 .f32) (h5 : a5.IsWhole) (a6 : Memref sig .tc .vmem S80x128 .f32) (h6 : a6.IsWhole)
    (enc : Vec F S80x100 .i32) (adj : Vec F S80x100x100 .f32) (tok : Vec F S43x75 .f32)
    (w1 : Vec F S80x75x128 .f32) (w2 : Vec F S80x128x128 .f32) (d : Vec F S80x128 .f32) (K : PUnit → sProp 𝕄) :
    iprop((owns c a6 fullShare d ∗ owns c a1 fullShare enc ∗ owns c a2 fullShare adj
        ∗ owns c a3 fullShare tok ∗ owns c a4 fullShare w1 ∗ owns c a5 fullShare w2)
        ∗ (iprop(owns c a6 fullShare (embTile enc adj tok w1 w2) ∗ owns c a1 fullShare enc
            ∗ owns c a2 fullShare adj ∗ owns c a3 fullShare tok ∗ owns c a4 fullShare w1
            ∗ owns c a5 fullShare w2) -∗ K ⟨⟩))
      ⊢ wp frame (wpE (defs₀ (F := F)) Variants.none c none) E (cc0__gcn_smile_kernel i a1 h1 a2 h2 a3 h3 a4 h4 a5 h5 a6 h6) K := by
  simp only [cc0__gcn_smile_kernel_eq_skeleton]; unfold cc0__gcn_smile_kernel_skel owns
  iintro ⟨⟨⟨%f6, -, H6⟩, ⟨%f1, %e1, H1⟩, ⟨%f2, %e2, H2⟩, ⟨%f3, %e3, H3⟩, ⟨%f4, %e4, H4⟩, %f5, %e5, H5⟩, Hk⟩
  subst e1 e2 e3 e4 e5
  sl_exec
  sl_step
  iapply Hk
  isplitl [H6]
  · iexists _; isplitr
    swap; · iexact H6
    ipureintro; exact View.read_writes_eq_canon _ _ _ (View.cover_of_tiled _ S80x128.size (by rfl))
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => embTile (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem q_eq0 (c : Dev nD) (w : Fin cfg0.W) : (dat0 V c).q w = fullShare := rfl

theorem owed_eq0 (c : Dev nD) (t : Fin (cfg0.N + 1)) : (dat0 V c).owed t = 0 := rfl

theorem after0_5 (c : Dev nD) (t : Fin cfg0.N) : (dat0 V c).after 5 t
    = embTile (iblk0 V c 0 t) (iblk0 V c 1 t) (iblk0 V c 2 t) (iblk0 V c 3 t) (iblk0 V c 4 t) := by dsimp only [dat0]

/-- The body returns every input unchanged, so an input window reads its block at every point. -/
theorem before0 (c : Dev nD) : ∀ w : Fin cfg0.W, w ≠ 5 → ∀ (t : Fin cfg0.N) d, (dat0 V c).before w t d = (dat0 V c).fetched w t d
  | ⟨5, _⟩, h, _, _ => absurd rfl h
  | ⟨0, _⟩, _, t, d | ⟨1, _⟩, _, t, d | ⟨2, _⟩, _, t, d | ⟨3, _⟩, _, t, d | ⟨4, _⟩, _, t, d =>
    (dat0 V c).before_in_eq_fetched _ rfl (fun _ => rfl) (fun _ _ _ => rfl) (fun _ => rfl) t d

/-- At every point `embBody_run` applies to the windows' blocks; the invariant and the debt are framed. -/
theorem sound_body0 (c : Dev nD) (t : Fin cfg0.N) :
    iprop((dat0 V c).Φ t.castSucc ∗ (dat0 V c).owesAt () t.castSucc ∗ bigSep Finset.univ fun w : Fin cfg0.W =>
        iprop(∃ d, owns c ((cfg0.win w).stage (cfg0.slots t w)) fullShare ((dat0 V c).before w t d)))
      ⊢ wp frame (wpE (defs₀ (F := F)) Variants.none c none) Set.univ (bodyAt0 t) fun _ =>
        iprop((dat0 V c).Φ t.castSucc ∗ (dat0 V c).owesAt () t.castSucc ∗ bigSep Finset.univ fun w : Fin cfg0.W =>
          owns c ((cfg0.win w).stage (cfg0.slots t w)) fullShare ((dat0 V c).after w t)) := by
  rw [bigSep_W0, bigSep_W0]
  simp (disch := decide) only [before0 V c]
  dsimp only [dat0]
  iintro ⟨HΦ, Ho, ⟨%_, H0⟩, ⟨%_, H1⟩, ⟨%_, H2⟩, ⟨%_, H3⟩, ⟨%_, H4⟩, ⟨%_, H5⟩⟩
  iapply (embBody_run c Set.univ _ _ _ _ _ _ _ _ _ _ _ _ _ (iblk0 V c 0 t) (iblk0 V c 1 t) (iblk0 V c 2 t) (iblk0 V c 3 t) (iblk0 V c 4 t) _ _)
  isplitr [HΦ Ho]; · sl_close
  iintro ⟨H5, H0, H1, H2, H3, H4⟩
  iframe

theorem body_obligation0 (c : Dev nD) : BodyObligation (dat0 (F := F) V c) (defs₀ (F := F)) Variants.none () Set.univ := fun t => by
  have h := sound_body0 V c t
  rw [bigSep_W0, bigSep_W0] at h ⊢
  exact h

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Hand

end
-- ==== Proof.Frame.R1.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.LibAccess
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Access

variable {F : FTy → Type} [FloatOps F]

local notation "𝕄" => MT nD τ sig Unit (Elt F) ℕ (UR sig nD τ) ℕ

variable (V : (c : Dev nD) → (b : Ref sig .tc) → Buf (Elt F) ((c : Thread nD τ).loc b))

def staged1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

set_option maxHeartbeats 1000000 in
/-- The body reads six arrays whole and writes the two projections of them over the whole of the other two. -/
theorem proj_body1 (c : Dev nD) (E : Set ℕ) (i : grid1.Coords) (a0 : Memref sig .tc .vmem S152x384 .f32) (h0 : a0.IsWhole)
    (a1 : Memref sig .tc .vmem S152x128 .f32) (h1 : a1.IsWhole) (a2 : Memref sig .tc .vmem S384x256 .f32) (h2 : a2.IsWhole)
    (a3 : Memref sig .tc .vmem S128x256 .f32) (h3 : a3.IsWhole) (a4 : Memref sig .tc .vmem S384x256 .f32) (h4 : a4.IsWhole)
    (a5 : Memref sig .tc .vmem S128x256 .f32) (h5 : a5.IsWhole) (a6 : Memref sig .tc .vmem S152x256 .f32) (h6 : a6.IsWhole)
    (a7 : Memref sig .tc .vmem S152x256 .f32) (h7 : a7.IsWhole)
    (x : Vec F S152x384 .f32) (e : Vec F S152x128 .f32) (wxP : Vec F S384x256 .f32) (weP : Vec F S128x256 .f32)
    (wxN : Vec F S384x256 .f32) (weN : Vec F S128x256 .f32) (d6 d7 : Vec F S152x256 .f32) (K : PUnit → sProp 𝕄) :
    iprop((owns c a6 fullShare d6 ∗ owns c a7 fullShare d7
        ∗ owns c a0 fullShare x ∗ owns c a1 fullShare e ∗ owns c a2 fullShare wxP
        ∗ owns c a3 fullShare weP ∗ owns c a4 fullShare wxN ∗ owns c a5 fullShare weN)
        ∗ (iprop(owns c a6 fullShare (k1_pay3 x e wxP weP) ∗ owns c a7 fullShare (k1_pay4 x e wxN weN)
        ∗ owns c a0 fullShare x ∗ owns c a1 fullShare e ∗ owns c a2 fullShare wxP
        ∗ owns c a3 fullShare weP ∗ owns c a4 fullShare wxN ∗ owns c a5 fullShare weN) -∗ K ⟨⟩))
      ⊢ wp frame (wpE (defs₀ (F := F)) Variants.none c none) E (cc1__proj_kernel i a0 h0 a1 h1 a2 h2 a3 h3 a4 h4 a5 h5 a6 h6 a7 h7) K := by
  simp only [cc1__proj_kernel_eq_skeleton]; unfold cc1__proj_kernel_skel owns
  iintro ⟨⟨⟨%f6, -, H6⟩, ⟨%f7, -, H7⟩, ⟨%f0, %e0, H0⟩, ⟨%f1, %e1, H1⟩, ⟨%f2, %e2, H2⟩, ⟨%f3, %e3, H3⟩, ⟨%f4, %e4, H4⟩, %f5, %e5, H5⟩, Hk⟩
  subst e0 e1 e2 e3 e4 e5
  sl_exec
  sl_step
  iapply Hk
  isplitl [H6]
  · iexists _; isplitr
    swap; · iexact H6
    ipureintro; rw [read_store_origin _ _ at_origin]; congr 1 <;> exact View.ld_unit_zero at_origin _ _
  isplitl [H7]
  · iexists _; isplitr
    swap; · iexact H7
    ipureintro; rw [read_store_origin _ _ at_origin]; congr 1 <;> exact View.ld_unit_zero at_origin _ _
  sl_close

def dat1 (c : Dev nD) : Dat τ (Elt F) Unit ℕ (UR sig nD τ) ℕ cfg1 c where
  A w := V c (Pipeline.arrRef spec1 w)
  after w t := match w with
    | ⟨0, _⟩ => staged1 V c 0 t
    | ⟨1, _⟩ => staged1 V c 1 t
    | ⟨2, _⟩ => staged1 V c 2 t
    | ⟨3, _⟩ => staged1 V c 3 t
    | ⟨4, _⟩ => staged1 V c 4 t
    | ⟨5, _⟩ => staged1 V c 5 t
    | ⟨6, _⟩ => k1_pay3 (staged1 V c 0 t) (staged1 V c 1 t) (staged1 V c 2 t) (staged1 V c 3 t)
    | ⟨7, _⟩ => k1_pay4 (staged1 V c 0 t) (staged1 V c 1 t) (staged1 V c 4 t) (staged1 V c 5 t)
  Φ _ := Pipeline.ΦA spec1 c
  q _ := fullShare
  owed _ := 0

theorem A_eq1 (c : Dev nD) (w : Fin cfg1.W) : (dat1 V c).A w = V c (Pipeline.arrRef spec1 w) := rfl

theorem q_eq1 (c : Dev nD) (w : Fin cfg1.W) : (dat1 V c).q w = fullShare := rfl

theorem owed_eq1 (c : Dev nD) (t : Fin (cfg1.N + 1)) : (dat1 V c).owed t = 0 := rfl

theorem after1_6 (c : Dev nD) (t : Fin cfg1.N) :
    (dat1 V c).after 6 t = k1_pay3 (staged1 V c 0 t) (staged1 V c 1 t) (staged1 V c 2 t) (staged1 V c 3 t) := by dsimp only [dat1]
theorem after1_7 (c : Dev nD) (t : Fin cfg1.N) :
    (dat1 V c).after 7 t = k1_pay4 (staged1 V c 0 t) (staged1 V c 1 t) (staged1 V c 4 t) (staged1 V c 5 t) := by dsimp only [dat1]

/-- The body returns every input unchanged, so an input window reads its block at every point. -/
theorem before1 (c : Dev nD) : ∀ w : Fin cfg1.W, w.val < 6 → ∀ (t : Fin cfg1.N) d, (dat1 V c).before w t d = (dat1 V c).fetched w t d
  | ⟨6, _⟩, h, _, _ | ⟨7, _⟩, h, _, _ => absurd h (by simp)
  | ⟨0, _⟩, _, t, d | ⟨1, _⟩, _, t, d | ⟨2, _⟩, _, t, d | ⟨3, _⟩, _, t, d | ⟨4, _⟩, _, t, d | ⟨5, _⟩, _, t, d =>
    (dat1 V c).before_in_eq_fetched _ rfl (fun _ => rfl) (fun _ _ _ => rfl) (fun _ => rfl) t d

/-- At every point `proj_body1` applies to the windows' blocks; the invariant and the debt are framed. -/
theorem body_at1 (c : Dev nD) (t : Fin cfg1.N) :
    iprop((dat1 V c).Φ t.castSucc ∗ (dat1 V c).owesAt () t.castSucc ∗ bigSep Finset.univ fun w : Fin cfg1.W =>
        iprop(∃ d, owns c ((cfg1.win w).stage (cfg1.slots t w)) fullShare ((dat1 V c).before w t d)))
      ⊢ wp frame (wpE (defs₀ (F := F)) Variants.none c none) Set.univ (bodyAt1 t) fun _ =>
        iprop((dat1 V c).Φ t.castSucc ∗ (dat1 V c).owesAt () t.castSucc ∗ bigSep Finset.univ fun w : Fin cfg1.W =>
          owns c ((cfg1.win w).stage (cfg1.slots t w)) fullShare ((dat1 V c).after w t)) := by
  rw [bigSep_W1, bigSep_W1]
  simp (disch := decide) only [before1 V c]
  dsimp only [dat1]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (proj_body1 c Set.univ _ _ _ _ _ _ _ _ _ _ _ _ _ _ _ _ _ (staged1 V c 0 t) (staged1 V c 1 t) (staged1 V c 2 t)
    (staged1 V c 3 t) (staged1 V c 4 t) (staged1 V c 5 t) _ _ _)
  isplitr [HΦ Ho]; · sl_close
  iintro ⟨H6, H7, H0, H1, H2, H3, H4, H5⟩
  iframe

theorem body_obligation1 (c : Dev nD) : BodyObligation (dat1 (F := F) V c) (defs₀ (F := F)) Variants.none () Set.univ := fun t => by
  have h := body_at1 V c t
  rw [bigSep_W1, bigSep_W1] at h ⊢
  exact h

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.KernelIdeal.Hand

end
-- ==== Proof.Frame.R2.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.LibAccess

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Access

variable {F : FTy → Type} [FloatOps F]

local notation "𝕄" => MT nD τ sig Unit (Elt F) ℕ (UR sig nD τ) ℕ

abbrev first2 (i : grid2.Coords) : Prop :=
  (Scalar.cmpi .ne (Scalar.extui (Scalar.cmpi .eq (BitVec.ofNat 32 (i 0).val) 0#32)) 0#32) = 1#1

theorem first2_iff : ∀ t : Fin cfg2.N, first2 (grid2.coords t) ↔ t.val = 0 :=
  (by decide +kernel : ∀ t : Fin grid2.N, first2 (grid2.coords t) ↔ t.val = 0)

section
variable (c : Dev nD) (E : Set ℕ) (i : grid2.Coords)
  (a : Memref sig .tc .vmem S304x3040 .f32) (ha : a.IsWhole) (b : Memref sig .tc .vmem S3040x256 .f32) (hb : b.IsWhole)
  (m : Memref sig .tc .vmem S256x256 .f32) (hm : m.IsWhole) (o : Memref sig .tc .vmem S304x256 .f32) (ho : o.IsWhole)
  (p : Memref sig .tc .vmem S3040x256 .bf16) (hp : p.IsWhole) (r : Memref sig .tc .vmem S256x256 .bf16) (hr : r.IsWhole)

-- Past the first point the two scratch buffers are only read, at `u` and `v`, and handed back as found; the second and third factors are not touched.
theorem run_later2 (hc : ¬first2 i) (x : Vec F S304x3040 .f32) (u : Vec F S3040x256 .bf16) (v : Vec F S256x256 .bf16) (K : PUnit → sProp 𝕄) :
    iprop(owns (c : Thread nD τ) a fullShare x ∗ (∃ d, owns (c : Thread nD τ) o fullShare d) ∗ owns (c : Thread nD τ) p fullShare u ∗ owns (c : Thread nD τ) r fullShare v
        ∗ (iprop(owns (c : Thread nD τ) o fullShare (k2_pay3 x u v) ∗ owns (c : Thread nD τ) a fullShare x ∗ owns (c : Thread nD τ) p fullShare u ∗ owns (c : Thread nD τ) r fullShare v) -∗ K ⟨⟩))
      ⊢ wp frame (wpE (defs₀ (F := F)) Variants.none c none) E (cc2__adj_relu_proj_kernel i a ha b hb m hm o ho p hp r hr) K := by
  simp only [cc2__adj_relu_proj_kernel_eq_skeleton]; unfold cc2__adj_relu_proj_kernel_skel owns
  iintro ⟨⟨%fa, %ea, Ha⟩, ⟨%_, %fo, -, Ho⟩, ⟨%fp, %ep, Hp⟩, ⟨%fr, %er, Hr⟩, Hk⟩
  subst ea ep er
  sl_exec (disch := exact hc)
  sl_step
  iapply Hk
  isplitl [Ho]
  · iapply (own_ret _ _ _ _ ?_) $$ Ho
    refine (read_store_origin _ _ at_origin _ _).trans ?_
    exact congr (congr (congrArg k2_pay3 (View.ld_unit_zero at_origin _ _)) (View.ld_unit_zero at_origin _ _)) (View.ld_unit_zero at_origin _ _)
  sl_close

-- At the first point the two scratch buffers first receive the narrowed copies of the second and third factors, whatever they held.
theorem run_first2 (hc : first2 i) (x : Vec F S304x3040 .f32) (y : Vec F S3040x256 .f32) (z : Vec F S256x256 .f32) (K : PUnit → sProp 𝕄) :
    iprop(owns (c : Thread nD τ) a fullShare x ∗ owns (c : Thread nD τ) b fullShare y ∗ owns (c : Thread nD τ) m fullShare z
        ∗ (∃ d, owns (c : Thread nD τ) o fullShare d) ∗ (∃ d, owns (c : Thread nD τ) p fullShare d) ∗ (∃ d, owns (c : Thread nD τ) r fullShare d)
        ∗ (iprop(owns (c : Thread nD τ) o fullShare (k2_pay3 x (k2_pay1 y) (k2_pay2 z))
            ∗ owns (c : Thread nD τ) p fullShare (k2_pay1 y) ∗ owns (c : Thread nD τ) r fullShare (k2_pay2 z)
            ∗ owns (c : Thread nD τ) a fullShare x ∗ owns (c : Thread nD τ) b fullShare y ∗ owns (c : Thread nD τ) m fullShare z) -∗ K ⟨⟩))
      ⊢ wp frame (wpE (defs₀ (F := F)) Variants.none c none) E (cc2__adj_relu_proj_kernel i a ha b hb m hm o ho p hp r hr) K := by
  simp only [cc2__adj_relu_proj_kernel_eq_skeleton]; unfold cc2__adj_relu_proj_kernel_skel owns
  iintro ⟨⟨%fa, %ea, Ha⟩, ⟨%fb, %eb, Hb⟩, ⟨%fm, %em, Hm⟩, ⟨%_, %fo, -, Ho⟩, ⟨%_, %fp, -, Hp⟩, ⟨%_, %fr, -, Hr⟩, Hk⟩
  subst ea eb em
  sl_exec (disch := exact hc)
  sl_step
  iapply Hk
  isplitl [Ho]
  · iapply (own_ret _ _ _ _ ?_) $$ Ho
    sl_unfold_run_names
    refine (read_store_origin _ _ at_origin _ _).trans ?_
    exact congr (congr (congrArg k2_pay3 (View.ld_unit_zero at_origin _ _))
      ((View.readCov_unit_zero _ at_origin _ _).trans (congrArg k2_pay1 (View.ld_unit_zero at_origin _ _))))
      ((View.readCov_unit_zero _ at_origin _ _).trans (congrArg k2_pay2 (View.ld_unit_zero at_origin _ _)))
  isplitl [Hp]
  · iapply (own_ret _ _ _ _ ?_) $$ Hp
    sl_unfold_run_names
    exact (read_store_origin _ _ at_origin _ _).trans (congrArg k2_pay1 (View.ld_unit_zero at_origin _ _))
  isplitl [Hr]
  · iapply (own_ret _ _ _ _ ?_) $$ Hr
    sl_unfold_run_names
    exact (read_store_origin _ _ at_origin _ _).trans (congrArg k2_pay2 (View.ld_unit_zero at_origin _ _))
  sl_close

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2_0 : Memref sig .tc .vmem S3040x256 .bf16 := Memref.whole cc2_scratch0
abbrev scr2_1 : Memref sig .tc .vmem S256x256 .bf16 := Memref.whole cc2_scratch1

-- The entry assertion with the two scratch buffers named, each owned at some contents.
theorem PhiA2_eq (c : Dev nD) :
    (Pipeline.ΦA spec2 c : sProp 𝕄)
      = iprop(iprop(iprop((∃ d, owns (c : Thread nD τ) scr2_0 fullShare d) ∗ (∃ d, owns (c : Thread nD τ) scr2_1 fullShare d))
          ∗ Pipeline.scopedRestBut spec2 c [cc2_scratch0, cc2_scratch1]) ∗ (∃ r, prngReg c r)) := by
  unfold Pipeline.ΦA; rw [scopedRest2_split]; simp only [scr2_0, scr2_1, owns_whole]; try rfl

-- What is carried past the first point: the scratch buffers at the narrowed copies stored there, all else as at entry.
def kept2 (c : Dev nD) : sProp 𝕄 :=
  iprop(iprop(iprop(owns (c : Thread nD τ) scr2_0 fullShare (k2_pay1 (iblk2 V c 1 t2_0)) ∗ owns (c : Thread nD τ) scr2_1 fullShare (k2_pay2 (iblk2 V c 2 t2_0)))
      ∗ Pipeline.scopedRestBut spec2 c [cc2_scratch0, cc2_scratch1]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 0 t) (k2_pay1 (iblk2 V c 1 t2_0)) (k2_pay2 (iblk2 V c 2 t2_0))
  Φ t := if t.val = 0 then Pipeline.ΦA spec2 c else kept2 V c
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem after2_3 (c : Dev nD) (t : Fin cfg2.N) :
    (dat2 V c).after 3 t = k2_pay3 (iblk2 V c 0 t) (k2_pay1 (iblk2 V c 1 t2_0)) (k2_pay2 (iblk2 V c 2 t2_0)) := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

-- The body at any point: the invariant lends the scratch buffers to the run and takes them back at the carried copies; all else is framed.
theorem body_obligation2 (c : Dev nD) : BodyObligation (dat2 (F := F) V c) (defs₀ (F := F)) Variants.none () Set.univ := fun t => by
  rw [bigSep_W2, bigSep_W2]
  simp only [before2_0, before2_1, before2_2]
  show _ ⊢ wp _ _ _ (bodyAt2 t) _
  unfold bodyAt2
  rw [show (dat2 V c).owesAt () t.succ = (dat2 V c).owesAt () t.castSucc from rfl,
    show (dat2 V c).Φ t.succ = kept2 V c from rfl,
    show (dat2 V c).after 0 t = iblk2 V c 0 t from rfl, show (dat2 V c).after 1 t = iblk2 V c 1 t from rfl,
    show (dat2 V c).after 2 t = iblk2 V c 2 t from rfl, after2_3]
  by_cases hz : t.val = 0
  · obtain rfl : t = t2_0 := Fin.ext hz
    rw [show (dat2 V c).Φ t2_0.castSucc = Pipeline.ΦA spec2 c from rfl, PhiA2_eq]
    unfold kept2
    iintro ⟨⟨⟨⟨Hp, Hr⟩, Hs⟩, Hg⟩, Hw, ⟨%_, Ha⟩, ⟨%_, Hb⟩, ⟨%_, Hm⟩, ⟨%_, Ho⟩⟩
    iapply (run_first2 c Set.univ _ _ _ _ _ _ _ _ _ _ _ _ _ ((first2_iff t2_0).mpr hz) (iblk2 V c 0 t2_0) (iblk2 V c 1 t2_0) (iblk2 V c 2 t2_0) _)
    iframe Ha Hb Hm Hp Hr
    isplitl [Ho]; · iexists _; iexact Ho
    iintro ⟨Ho, Hp, Hr, Ha, Hb, Hm⟩
    iframe
  · rw [show (dat2 V c).Φ t.castSucc = kept2 V c from if_neg hz]
    unfold kept2
    iintro ⟨⟨⟨⟨Hp, Hr⟩, Hs⟩, Hg⟩, Hw, ⟨%_, Ha⟩, ⟨%_, Hb⟩, ⟨%_, Hm⟩, ⟨%_, Ho⟩⟩
    iapply (run_later2 c Set.univ _ _ _ _ _ _ _ _ _ _ _ _ _ (fun h => hz ((first2_iff t).mp h)) (iblk2 V c 0 t)
      (k2_pay1 (iblk2 V c 1 t2_0)) (k2_pay2 (iblk2 V c 2 t2_0)) _)
    iframe Ha Hp Hr
    isplitl [Ho]; · iexists _; iexact Ho
    iintro ⟨Ho, Ha, Hp, Hr⟩
    iframe

theorem hin2 (c : Dev nD) : (Pipeline.ΦA spec2 c : sProp 𝕄) ⊢ (dat2 V c).Φ 0 := .rfl

-- Forgetting what the scratch buffers hold gives back the entry assertion.
theorem hout2 (c : Dev nD) : (dat2 V c).Φ (Fin.last cfg2.N) ⊢ (Pipeline.ΦA spec2 c : sProp 𝕄) := by
  rw [show (dat2 V c).Φ (Fin.last cfg2.N) = kept2 V c from rfl, PhiA2_eq]
  unfold kept2
  iintro ⟨⟨⟨Hp, Hr⟩, Hs⟩, Hg⟩
  iframe Hs Hg
  isplitl [Hp]; · iexists _; iexact Hp
  iexists _; iexact Hr

end Cert.KernelIdeal.Hand

end
-- ==== Proof.Frame.R3.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.LibAccess

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Access

variable {F : FTy → Type} [FloatOps F]

local notation "𝕄" => MT nD τ sig Unit (Elt F) ℕ (UR sig nD τ) ℕ

abbrev cond3 (i : grid3.Coords) : Prop :=
  Scalar.cmpi .ne (Scalar.extui (Scalar.cmpi .eq (BitVec.ofNat 32 (i 0).val) 0#32)) 0#32 = 1#1

theorem hcond3 : ∀ t : Fin cfg3.N, cond3 (grid3.coords t) ↔ t.val = 0 :=
  (by decide +kernel : ∀ t : Fin grid3.N, cond3 (grid3.coords t) ↔ t.val = 0)

section
variable (c : Dev nD) (E : Set ℕ) (i : grid3.Coords)
  (a : Memref sig .tc .vmem S304x3040 .f32) (ha : a.IsWhole) (b : Memref sig .tc .vmem S3040x256 .f32) (hb : b.IsWhole)
  (o : Memref sig .tc .vmem S304x256 .f32) (ho : o.IsWhole) (s : Memref sig .tc .vmem S3040x256 .bf16) (hs : s.IsWhole)

-- At the first point the scratch receives the narrowed second factor, whatever it held, and the product is taken with it.
theorem sound_kernel3_first (hc : cond3 i) (x : Vec F S304x3040 .f32) (y : Vec F S3040x256 .f32) (K : PUnit → sProp 𝕄) :
    iprop(owns (c : Thread nD τ) a fullShare x ∗ owns (c : Thread nD τ) b fullShare y
        ∗ (∃ d, owns (c : Thread nD τ) o fullShare d) ∗ (∃ d, owns (c : Thread nD τ) s fullShare d)
        ∗ (iprop(owns (c : Thread nD τ) o fullShare (k3_pay2 x (k3_pay1 y)) ∗ owns (c : Thread nD τ) s fullShare (k3_pay1 y)
            ∗ owns (c : Thread nD τ) a fullShare x ∗ owns (c : Thread nD τ) b fullShare y) -∗ K ⟨⟩))
      ⊢ wp frame (wpE (defs₀ (F := F)) Variants.none c none) E (cc3__matmul_kernel i a ha b hb o ho s hs) K := by
  simp only [cc3__matmul_kernel_eq_skeleton]; unfold cc3__matmul_kernel_skel owns
  iintro ⟨⟨%fa, %ea, Ha⟩, ⟨%fb, %eb, Hb⟩, ⟨%_, %fo, -, Ho⟩, ⟨%_, %fs, -, Hs⟩, Hk⟩
  subst ea eb
  sl_exec (disch := exact hc)
  sl_step
  iapply Hk
  isplitl [Ho]
  · iapply (own_ret _ _ _ _ ?_) $$ Ho
    sl_unfold_run_names
    rw [read_store_origin _ _ at_origin, View.readCov_unit_zero _ at_origin, readAt_origin _ _ at_origin, readAt_origin _ _ at_origin]
  isplitl [Hs]
  · iapply (own_ret _ _ _ _ ?_) $$ Hs
    sl_unfold_run_names
    rw [read_store_origin _ _ at_origin, readAt_origin _ _ at_origin]
  sl_close

-- Past the first point the scratch is only read, at `u`, and handed back as found; the second factor is not touched.
theorem sound_kernel3_later (hc : ¬ cond3 i) (x : Vec F S304x3040 .f32) (u : Vec F S3040x256 .bf16) (K : PUnit → sProp 𝕄) :
    iprop(owns (c : Thread nD τ) a fullShare x ∗ (∃ d, owns (c : Thread nD τ) o fullShare d) ∗ owns (c : Thread nD τ) s fullShare u
        ∗ (iprop(owns (c : Thread nD τ) o fullShare (k3_pay2 x u) ∗ owns (c : Thread nD τ) a fullShare x ∗ owns (c : Thread nD τ) s fullShare u) -∗ K ⟨⟩))
      ⊢ wp frame (wpE (defs₀ (F := F)) Variants.none c none) E (cc3__matmul_kernel i a ha b hb o ho s hs) K := by
  simp only [cc3__matmul_kernel_eq_skeleton]; unfold cc3__matmul_kernel_skel owns
  iintro ⟨⟨%fa, %ea, Ha⟩, ⟨%_, %fo, -, Ho⟩, ⟨%fs, %es, Hs⟩, Hk⟩
  subst ea es
  sl_exec (disch := exact hc)
  sl_step
  iapply Hk
  isplitl [Ho]
  · iapply (own_ret _ _ _ _ ?_) $$ Ho
    rw [read_store_origin _ _ at_origin, readAt_origin _ _ at_origin, readAt_origin _ _ at_origin]
  sl_close

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S3040x256 .bf16 := Memref.whole cc3_scratch0

-- The entry assertion with the scratch named, owned at some contents.
theorem PhiA3_eq (c : Dev nD) :
    (Pipeline.ΦA spec3 c : sProp 𝕄)
      = iprop(iprop(iprop((∃ d, owns (c : Thread nD τ) scM3 fullShare d)) ∗ Pipeline.scopedRestBut spec3 c [cc3_scratch0])
          ∗ (∃ r, prngReg c r)) := by
  unfold Pipeline.ΦA; rw [scopedRest3_split]; simp only [scM3, owns_whole]; try rfl

-- What is carried past the first point: the scratch at the narrowed second factor, all else as at entry.
def kept3 (c : Dev nD) : sProp 𝕄 :=
  iprop(iprop(owns (c : Thread nD τ) scM3 fullShare (k3_pay1 (iblk3 V c 1 t3_0)) ∗ Pipeline.scopedRestBut spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay2 (iblk3 V c 0 t) (k3_pay1 (iblk3 V c 1 t3_0))
  Φ t := if t.val = 0 then Pipeline.ΦA spec3 c else kept3 V c
  q _ := fullShare
  owed _ := 0

theorem A_eq3 (c : Dev nD) (w : Fin cfg3.W) : (dat3 V c).A w = V c (Pipeline.arrRef spec3 w) := rfl

theorem q_eq3 (c : Dev nD) (w : Fin cfg3.W) : (dat3 V c).q w = fullShare := rfl

theorem owed_eq3 (c : Dev nD) (t : Fin (cfg3.N + 1)) : (dat3 V c).owed t = 0 := rfl

theorem after3_2 (c : Dev nD) (t : Fin cfg3.N) :
    (dat3 V c).after 2 t = k3_pay2 (iblk3 V c 0 t) (k3_pay1 (iblk3 V c 1 t3_0)) := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- The body at any point: the invariant lends the scratch to the run and takes it back at the narrowed second factor; all else is framed.
theorem body_obligation3 (c : Dev nD) : BodyObligation (dat3 (F := F) V c) (defs₀ (F := F)) Variants.none () Set.univ := fun t => by
  rw [bigSep_W3, bigSep_W3]
  simp only [before3_0, before3_1]
  show _ ⊢ wp _ _ _ (bodyAt3 t) _
  unfold bodyAt3
  rw [show (dat3 V c).owesAt () t.succ = (dat3 V c).owesAt () t.castSucc from rfl,
    show (dat3 V c).Φ t.succ = kept3 V c from rfl,
    show (dat3 V c).after 0 t = iblk3 V c 0 t from rfl, show (dat3 V c).after 1 t = iblk3 V c 1 t from rfl, after3_2]
  by_cases hz : t.val = 0
  · obtain rfl : t = t3_0 := Fin.ext hz
    rw [show (dat3 V c).Φ t3_0.castSucc = Pipeline.ΦA spec3 c from rfl, PhiA3_eq]
    unfold kept3
    iintro ⟨⟨⟨Hs, Hr⟩, Hg⟩, Hw, ⟨%_, Ha⟩, ⟨%_, Hb⟩, ⟨%_, Ho⟩⟩
    iapply (sound_kernel3_first c Set.univ _ _ _ _ _ _ _ _ _ ((hcond3 t3_0).mpr hz) (iblk3 V c 0 t3_0) (iblk3 V c 1 t3_0) _)
    iframe Ha Hb Hs
    isplitl [Ho]; · iexists _; iexact Ho
    iintro ⟨Ho, Hs, Ha, Hb⟩
    iframe
  · rw [show (dat3 V c).Φ t.castSucc = kept3 V c from if_neg hz]
    unfold kept3
    iintro ⟨⟨⟨Hs, Hr⟩, Hg⟩, Hw, ⟨%_, Ha⟩, ⟨%_, Hb⟩, ⟨%_, Ho⟩⟩
    iapply (sound_kernel3_later c Set.univ _ _ _ _ _ _ _ _ _ (fun h => hz ((hcond3 t).mp h)) (iblk3 V c 0 t) (k3_pay1 (iblk3 V c 1 t3_0)) _)
    iframe Ha Hs
    isplitl [Ho]; · iexists _; iexact Ho
    iintro ⟨Ho, Ha, Hs⟩
    iframe

theorem hin3 (c : Dev nD) : (Pipeline.ΦA spec3 c : sProp 𝕄) ⊢ (dat3 V c).Φ 0 := .rfl

-- Forgetting what the scratch holds gives back the entry assertion.
theorem hout3 (c : Dev nD) : (dat3 V c).Φ (Fin.last cfg3.N) ⊢ (Pipeline.ΦA spec3 c : sProp 𝕄) := by
  rw [show (dat3 V c).Φ (Fin.last cfg3.N) = kept3 V c from rfl, PhiA3_eq]
  unfold kept3
  iintro ⟨⟨Hs, Hr⟩, Hg⟩
  iframe Hr Hg
  iexists _; iexact Hs

end Cert.KernelIdeal.Hand

end
-- ==== Proof.Frame.R4.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.LibAccess

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Access

variable {F : FTy → Type} [FloatOps F]

local notation "𝕄" => MT nD τ sig Unit (Elt F) ℕ (UR sig nD τ) ℕ

abbrev first4 (i : grid4.Coords) : Prop :=
  (Scalar.cmpi .ne (Scalar.extui (Scalar.cmpi .eq (BitVec.ofNat 32 (i 0).val) 0#32)) 0#32) = 1#1

theorem first4_iff : ∀ t : Fin cfg4.N, first4 (grid4.coords t) ↔ t.val = 0 :=
  (by decide +kernel : ∀ t : Fin grid4.N, first4 (grid4.coords t) ↔ t.val = 0)

section
variable (c : Dev nD) (E : Set ℕ) (i : grid4.Coords)
  (a : Memref sig .tc .vmem S304x3040 .f32) (ha : a.IsWhole) (b : Memref sig .tc .vmem S3040x256 .f32) (hb : b.IsWhole)
  (m : Memref sig .tc .vmem S256x256 .f32) (hm : m.IsWhole) (o : Memref sig .tc .vmem S304x256 .f32) (ho : o.IsWhole)
  (p : Memref sig .tc .vmem S3040x256 .bf16) (hp : p.IsWhole) (r : Memref sig .tc .vmem S256x256 .bf16) (hr : r.IsWhole)

-- Past the first point the two scratch buffers are only read, at `u` and `v`, and handed back as found; the second and third factors are not touched.
theorem run_later4 (hc : ¬first4 i) (x : Vec F S304x3040 .f32) (u : Vec F S3040x256 .bf16) (v : Vec F S256x256 .bf16) (K : PUnit → sProp 𝕄) :
    iprop(owns (c : Thread nD τ) a fullShare x ∗ (∃ d, owns (c : Thread nD τ) o fullShare d) ∗ owns (c : Thread nD τ) p fullShare u ∗ owns (c : Thread nD τ) r fullShare v
        ∗ (iprop(owns (c : Thread nD τ) o fullShare (k4_pay3 x u v) ∗ owns (c : Thread nD τ) a fullShare x ∗ owns (c : Thread nD τ) p fullShare u ∗ owns (c : Thread nD τ) r fullShare v) -∗ K ⟨⟩))
      ⊢ wp frame (wpE (defs₀ (F := F)) Variants.none c none) E (cc4__adj_relu_proj_kernel i a ha b hb m hm o ho p hp r hr) K := by
  simp only [cc4__adj_relu_proj_kernel_eq_skeleton]; unfold cc4__adj_relu_proj_kernel_skel owns
  iintro ⟨⟨%fa, %ea, Ha⟩, ⟨%_, %fo, -, Ho⟩, ⟨%fp, %ep, Hp⟩, ⟨%fr, %er, Hr⟩, Hk⟩
  subst ea ep er
  sl_exec (disch := exact hc)
  sl_step
  iapply Hk
  isplitl [Ho]
  · iapply (own_ret _ _ _ _ ?_) $$ Ho
    refine (read_store_origin _ _ at_origin _ _).trans ?_
    exact congr (congr (congrArg k4_pay3 (View.ld_unit_zero at_origin _ _)) (View.ld_unit_zero at_origin _ _)) (View.ld_unit_zero at_origin _ _)
  sl_close

-- At the first point the two scratch buffers first receive the narrowed copies of the second and third factors, whatever they held.
theorem run_first4 (hc : first4 i) (x : Vec F S304x3040 .f32) (y : Vec F S3040x256 .f32) (z : Vec F S256x256 .f32) (K : PUnit → sProp 𝕄) :
    iprop(owns (c : Thread nD τ) a fullShare x ∗ owns (c : Thread nD τ) b fullShare y ∗ owns (c : Thread nD τ) m fullShare z
        ∗ (∃ d, owns (c : Thread nD τ) o fullShare d) ∗ (∃ d, owns (c : Thread nD τ) p fullShare d) ∗ (∃ d, owns (c : Thread nD τ) r fullShare d)
        ∗ (iprop(owns (c : Thread nD τ) o fullShare (k4_pay3 x (k4_pay1 y) (k4_pay2 z))
            ∗ owns (c : Thread nD τ) p fullShare (k4_pay1 y) ∗ owns (c : Thread nD τ) r fullShare (k4_pay2 z)
            ∗ owns (c : Thread nD τ) a fullShare x ∗ owns (c : Thread nD τ) b fullShare y ∗ owns (c : Thread nD τ) m fullShare z) -∗ K ⟨⟩))
      ⊢ wp frame (wpE (defs₀ (F := F)) Variants.none c none) E (cc4__adj_relu_proj_kernel i a ha b hb m hm o ho p hp r hr) K := by
  simp only [cc4__adj_relu_proj_kernel_eq_skeleton]; unfold cc4__adj_relu_proj_kernel_skel owns
  iintro ⟨⟨%fa, %ea, Ha⟩, ⟨%fb, %eb, Hb⟩, ⟨%fm, %em, Hm⟩, ⟨%_, %fo, -, Ho⟩, ⟨%_, %fp, -, Hp⟩, ⟨%_, %fr, -, Hr⟩, Hk⟩
  subst ea eb em
  sl_exec (disch := exact hc)
  sl_step
  iapply Hk
  isplitl [Ho]
  · iapply (own_ret _ _ _ _ ?_) $$ Ho
    sl_unfold_run_names
    refine (read_store_origin _ _ at_origin _ _).trans ?_
    exact congr (congr (congrArg k4_pay3 (View.ld_unit_zero at_origin _ _))
      ((View.readCov_unit_zero _ at_origin _ _).trans (congrArg k4_pay1 (View.ld_unit_zero at_origin _ _))))
      ((View.readCov_unit_zero _ at_origin _ _).trans (congrArg k4_pay2 (View.ld_unit_zero at_origin _ _)))
  isplitl [Hp]
  · iapply (own_ret _ _ _ _ ?_) $$ Hp
    sl_unfold_run_names
    exact (read_store_origin _ _ at_origin _ _).trans (congrArg k4_pay1 (View.ld_unit_zero at_origin _ _))
  isplitl [Hr]
  · iapply (own_ret _ _ _ _ ?_) $$ Hr
    sl_unfold_run_names
    exact (read_store_origin _ _ at_origin _ _).trans (congrArg k4_pay2 (View.ld_unit_zero at_origin _ _))
  sl_close

end

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scr4_0 : Memref sig .tc .vmem S3040x256 .bf16 := Memref.whole cc4_scratch0
abbrev scr4_1 : Memref sig .tc .vmem S256x256 .bf16 := Memref.whole cc4_scratch1

-- The entry assertion with the two scratch buffers named, each owned at some contents.
theorem PhiA4_eq (c : Dev nD) :
    (Pipeline.ΦA spec4 c : sProp 𝕄)
      = iprop(iprop(iprop((∃ d, owns (c : Thread nD τ) scr4_0 fullShare d) ∗ (∃ d, owns (c : Thread nD τ) scr4_1 fullShare d))
          ∗ Pipeline.scopedRestBut spec4 c [cc4_scratch0, cc4_scratch1]) ∗ (∃ r, prngReg c r)) := by
  unfold Pipeline.ΦA; rw [scopedRest4_split]; simp only [scr4_0, scr4_1, owns_whole]; try rfl

-- What is carried past the first point: the scratch buffers at the narrowed copies stored there, all else as at entry.
def kept4 (c : Dev nD) : sProp 𝕄 :=
  iprop(iprop(iprop(owns (c : Thread nD τ) scr4_0 fullShare (k4_pay1 (iblk4 V c 1 t4_0)) ∗ owns (c : Thread nD τ) scr4_1 fullShare (k4_pay2 (iblk4 V c 2 t4_0)))
      ∗ Pipeline.scopedRestBut spec4 c [cc4_scratch0, cc4_scratch1]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 0 t) (k4_pay1 (iblk4 V c 1 t4_0)) (k4_pay2 (iblk4 V c 2 t4_0))
  Φ t := if t.val = 0 then Pipeline.ΦA spec4 c else kept4 V c
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem after4_3 (c : Dev nD) (t : Fin cfg4.N) :
    (dat4 V c).after 3 t = k4_pay3 (iblk4 V c 0 t) (k4_pay1 (iblk4 V c 1 t4_0)) (k4_pay2 (iblk4 V c 2 t4_0)) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- The body at any point: the invariant lends the scratch buffers to the run and takes them back at the carried copies; all else is framed.
theorem body_obligation4 (c : Dev nD) : BodyObligation (dat4 (F := F) V c) (defs₀ (F := F)) Variants.none () Set.univ := fun t => by
  rw [bigSep_W4, bigSep_W4]
  simp only [before4_0, before4_1, before4_2]
  show _ ⊢ wp _ _ _ (bodyAt4 t) _
  unfold bodyAt4
  rw [show (dat4 V c).owesAt () t.succ = (dat4 V c).owesAt () t.castSucc from rfl,
    show (dat4 V c).Φ t.succ = kept4 V c from rfl,
    show (dat4 V c).after 0 t = iblk4 V c 0 t from rfl, show (dat4 V c).after 1 t = iblk4 V c 1 t from rfl,
    show (dat4 V c).after 2 t = iblk4 V c 2 t from rfl, after4_3]
  by_cases hz : t.val = 0
  · obtain rfl : t = t4_0 := Fin.ext hz
    rw [show (dat4 V c).Φ t4_0.castSucc = Pipeline.ΦA spec4 c from rfl, PhiA4_eq]
    unfold kept4
    iintro ⟨⟨⟨⟨Hp, Hr⟩, Hs⟩, Hg⟩, Hw, ⟨%_, Ha⟩, ⟨%_, Hb⟩, ⟨%_, Hm⟩, ⟨%_, Ho⟩⟩
    iapply (run_first4 c Set.univ _ _ _ _ _ _ _ _ _ _ _ _ _ ((first4_iff t4_0).mpr hz) (iblk4 V c 0 t4_0) (iblk4 V c 1 t4_0) (iblk4 V c 2 t4_0) _)
    iframe Ha Hb Hm Hp Hr
    isplitl [Ho]; · iexists _; iexact Ho
    iintro ⟨Ho, Hp, Hr, Ha, Hb, Hm⟩
    iframe
  · rw [show (dat4 V c).Φ t.castSucc = kept4 V c from if_neg hz]
    unfold kept4
    iintro ⟨⟨⟨⟨Hp, Hr⟩, Hs⟩, Hg⟩, Hw, ⟨%_, Ha⟩, ⟨%_, Hb⟩, ⟨%_, Hm⟩, ⟨%_, Ho⟩⟩
    iapply (run_later4 c Set.univ _ _ _ _ _ _ _ _ _ _ _ _ _ (fun h => hz ((first4_iff t).mp h)) (iblk4 V c 0 t)
      (k4_pay1 (iblk4 V c 1 t4_0)) (k4_pay2 (iblk4 V c 2 t4_0)) _)
    iframe Ha Hp Hr
    isplitl [Ho]; · iexists _; iexact Ho
    iintro ⟨Ho, Ha, Hp, Hr⟩
    iframe

theorem hin4 (c : Dev nD) : (Pipeline.ΦA spec4 c : sProp 𝕄) ⊢ (dat4 V c).Φ 0 := .rfl

-- Forgetting what the scratch buffers hold gives back the entry assertion.
theorem hout4 (c : Dev nD) : (dat4 V c).Φ (Fin.last cfg4.N) ⊢ (Pipeline.ΦA spec4 c : sProp 𝕄) := by
  rw [show (dat4 V c).Φ (Fin.last cfg4.N) = kept4 V c from rfl, PhiA4_eq]
  unfold kept4
  iintro ⟨⟨⟨Hp, Hr⟩, Hs⟩, Hg⟩
  iframe Hs Hg
  isplitl [Hp]; · iexists _; iexact Hp
  iexists _; iexact Hr

end Cert.KernelIdeal.Hand

end
-- ==== Proof.Frame.R5.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.LibAccess

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Access

variable {F : FTy → Type} [FloatOps F]

local notation "𝕄" => MT nD τ sig Unit (Elt F) ℕ (UR sig nD τ) ℕ

abbrev cond5 (i : grid5.Coords) : Prop :=
  Scalar.cmpi .ne (Scalar.extui (Scalar.cmpi .eq (BitVec.ofNat 32 (i 0).val) 0#32)) 0#32 = 1#1

theorem hcond5 : ∀ t : Fin cfg5.N, cond5 (grid5.coords t) ↔ t.val = 0 :=
  (by decide +kernel : ∀ t : Fin grid5.N, cond5 (grid5.coords t) ↔ t.val = 0)

section
variable (c : Dev nD) (E : Set ℕ) (i : grid5.Coords)
  (a : Memref sig .tc .vmem S304x3040 .f32) (ha : a.IsWhole) (b : Memref sig .tc .vmem S3040x256 .f32) (hb : b.IsWhole)
  (o : Memref sig .tc .vmem S304x256 .f32) (ho : o.IsWhole) (s : Memref sig .tc .vmem S3040x256 .bf16) (hs : s.IsWhole)

-- At the first point the scratch receives the narrowed second factor, whatever it held, and the product is taken with it.
theorem sound_kernel5_first (hc : cond5 i) (x : Vec F S304x3040 .f32) (y : Vec F S3040x256 .f32) (K : PUnit → sProp 𝕄) :
    iprop(owns (c : Thread nD τ) a fullShare x ∗ owns (c : Thread nD τ) b fullShare y
        ∗ (∃ d, owns (c : Thread nD τ) o fullShare d) ∗ (∃ d, owns (c : Thread nD τ) s fullShare d)
        ∗ (iprop(owns (c : Thread nD τ) o fullShare (k5_pay2 x (k5_pay1 y)) ∗ owns (c : Thread nD τ) s fullShare (k5_pay1 y)
            ∗ owns (c : Thread nD τ) a fullShare x ∗ owns (c : Thread nD τ) b fullShare y) -∗ K ⟨⟩))
      ⊢ wp frame (wpE (defs₀ (F := F)) Variants.none c none) E (cc5__matmul_kernel i a ha b hb o ho s hs) K := by
  simp only [cc5__matmul_kernel_eq_skeleton]; unfold cc5__matmul_kernel_skel owns
  iintro ⟨⟨%fa, %ea, Ha⟩, ⟨%fb, %eb, Hb⟩, ⟨%_, %fo, -, Ho⟩, ⟨%_, %fs, -, Hs⟩, Hk⟩
  subst ea eb
  sl_exec (disch := exact hc)
  sl_step
  iapply Hk
  isplitl [Ho]
  · iapply (own_ret _ _ _ _ ?_) $$ Ho
    sl_unfold_run_names
    rw [read_store_origin _ _ at_origin, View.readCov_unit_zero _ at_origin, readAt_origin _ _ at_origin, readAt_origin _ _ at_origin]
  isplitl [Hs]
  · iapply (own_ret _ _ _ _ ?_) $$ Hs
    sl_unfold_run_names
    rw [read_store_origin _ _ at_origin, readAt_origin _ _ at_origin]
  sl_close

-- Past the first point the scratch is only read, at `u`, and handed back as found; the second factor is not touched.
theorem sound_kernel5_later (hc : ¬ cond5 i) (x : Vec F S304x3040 .f32) (u : Vec F S3040x256 .bf16) (K : PUnit → sProp 𝕄) :
    iprop(owns (c : Thread nD τ) a fullShare x ∗ (∃ d, owns (c : Thread nD τ) o fullShare d) ∗ owns (c : Thread nD τ) s fullShare u
        ∗ (iprop(owns (c : Thread nD τ) o fullShare (k5_pay2 x u) ∗ owns (c : Thread nD τ) a fullShare x ∗ owns (c : Thread nD τ) s fullShare u) -∗ K ⟨⟩))
      ⊢ wp frame (wpE (defs₀ (F := F)) Variants.none c none) E (cc5__matmul_kernel i a ha b hb o ho s hs) K := by
  simp only [cc5__matmul_kernel_eq_skeleton]; unfold cc5__matmul_kernel_skel owns
  iintro ⟨⟨%fa, %ea, Ha⟩, ⟨%_, %fo, -, Ho⟩, ⟨%fs, %es, Hs⟩, Hk⟩
  subst ea es
  sl_exec (disch := exact hc)
  sl_step
  iapply Hk
  isplitl [Ho]
  · iapply (own_ret _ _ _ _ ?_) $$ Ho
    rw [read_store_origin _ _ at_origin, readAt_origin _ _ at_origin, readAt_origin _ _ at_origin]
  sl_close

end

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S3040x256 .bf16 := Memref.whole cc5_scratch0

-- The entry assertion with the scratch named, owned at some contents.
theorem PhiA5_eq (c : Dev nD) :
    (Pipeline.ΦA spec5 c : sProp 𝕄)
      = iprop(iprop(iprop((∃ d, owns (c : Thread nD τ) scM5 fullShare d)) ∗ Pipeline.scopedRestBut spec5 c [cc5_scratch0])
          ∗ (∃ r, prngReg c r)) := by
  unfold Pipeline.ΦA; rw [scopedRest5_split]; simp only [scM5, owns_whole]; try rfl

-- What is carried past the first point: the scratch at the narrowed second factor, all else as at entry.
def kept5 (c : Dev nD) : sProp 𝕄 :=
  iprop(iprop(owns (c : Thread nD τ) scM5 fullShare (k5_pay1 (iblk5 V c 1 t5_0)) ∗ Pipeline.scopedRestBut spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay2 (iblk5 V c 0 t) (k5_pay1 (iblk5 V c 1 t5_0))
  Φ t := if t.val = 0 then Pipeline.ΦA spec5 c else kept5 V c
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem after5_2 (c : Dev nD) (t : Fin cfg5.N) :
    (dat5 V c).after 2 t = k5_pay2 (iblk5 V c 0 t) (k5_pay1 (iblk5 V c 1 t5_0)) := rfl

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

-- The body at any point: the invariant lends the scratch to the run and takes it back at the narrowed second factor; all else is framed.
theorem body_obligation5 (c : Dev nD) : BodyObligation (dat5 (F := F) V c) (defs₀ (F := F)) Variants.none () Set.univ := fun t => by
  rw [bigSep_W5, bigSep_W5]
  simp only [before5_0, before5_1]
  show _ ⊢ wp _ _ _ (bodyAt5 t) _
  unfold bodyAt5
  rw [show (dat5 V c).owesAt () t.succ = (dat5 V c).owesAt () t.castSucc from rfl,
    show (dat5 V c).Φ t.succ = kept5 V c from rfl,
    show (dat5 V c).after 0 t = iblk5 V c 0 t from rfl, show (dat5 V c).after 1 t = iblk5 V c 1 t from rfl, after5_2]
  by_cases hz : t.val = 0
  · obtain rfl : t = t5_0 := Fin.ext hz
    rw [show (dat5 V c).Φ t5_0.castSucc = Pipeline.ΦA spec5 c from rfl, PhiA5_eq]
    unfold kept5
    iintro ⟨⟨⟨Hs, Hr⟩, Hg⟩, Hw, ⟨%_, Ha⟩, ⟨%_, Hb⟩, ⟨%_, Ho⟩⟩
    iapply (sound_kernel5_first c Set.univ _ _ _ _ _ _ _ _ _ ((hcond5 t5_0).mpr hz) (iblk5 V c 0 t5_0) (iblk5 V c 1 t5_0) _)
    iframe Ha Hb Hs
    isplitl [Ho]; · iexists _; iexact Ho
    iintro ⟨Ho, Hs, Ha, Hb⟩
    iframe
  · rw [show (dat5 V c).Φ t.castSucc = kept5 V c from if_neg hz]
    unfold kept5
    iintro ⟨⟨⟨Hs, Hr⟩, Hg⟩, Hw, ⟨%_, Ha⟩, ⟨%_, Hb⟩, ⟨%_, Ho⟩⟩
    iapply (sound_kernel5_later c Set.univ _ _ _ _ _ _ _ _ _ (fun h => hz ((hcond5 t).mp h)) (iblk5 V c 0 t) (k5_pay1 (iblk5 V c 1 t5_0)) _)
    iframe Ha Hs
    isplitl [Ho]; · iexists _; iexact Ho
    iintro ⟨Ho, Ha, Hs⟩
    iframe

theorem hin5 (c : Dev nD) : (Pipeline.ΦA spec5 c : sProp 𝕄) ⊢ (dat5 V c).Φ 0 := .rfl

-- Forgetting what the scratch holds gives back the entry assertion.
theorem hout5 (c : Dev nD) : (dat5 V c).Φ (Fin.last cfg5.N) ⊢ (Pipeline.ΦA spec5 c : sProp 𝕄) := by
  rw [show (dat5 V c).Φ (Fin.last cfg5.N) = kept5 V c from rfl, PhiA5_eq]
  unfold kept5
  iintro ⟨⟨Hs, Hr⟩, Hg⟩
  iframe Hr Hg
  iexists _; iexact Hs

end Cert.KernelIdeal.Hand

end
-- ==== Proof.Frame.R6.Run.lean ====
import proofs.«407199_j78503412236482_3_alg».proof.Proof.Gen.KernelIdeal.Skeleton
import proofs.«407199_j78503412236482_3_alg».proof.Proof.LibAccess
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Access

variable {F : FTy → Type} [FloatOps F]

local notation "𝕄" => MT nD τ sig Unit (Elt F) ℕ (UR sig nD τ) ℕ

local macro "close_pure" : tactic => `(tactic| (
  sl_unfold_run_names
  first
    | rw [read_store_origin (S := S152x256) _ _ at_origin]
    | rw [read_store_origin (S := S256x256) _ _ at_origin]
    | rw [read_store_origin (S := S256x512) _ _ at_origin]
    | rw [read_store_origin (S := S512x256) _ _ at_origin]
  try simp only [readAt_origin (S := S152x256) _ _ at_origin,
    readAt_origin (S := S256x256) _ _ at_origin,
    readAt_origin (S := S256x512) _ _ at_origin,
    readAt_origin (S := S512x256) _ _ at_origin,
    View.readCov_unit_zero (S := S256x256) _ at_origin,
    View.readCov_unit_zero (S := S256x512) _ at_origin,
    View.readCov_unit_zero (S := S512x256) _ at_origin]))

abbrev cond6 (i : grid6.Coords) : Prop :=
  (Scalar.cmpi .ne (Scalar.extui (Scalar.cmpi .eq (BitVec.ofNat 32 (i 0).val) 0#32) : BitVec 32) 0#32) = 1#1

theorem hcond6 : ∀ t : Fin cfg6.N, cond6 (grid6.coords t) ↔ t.val = 0 :=
  (by decide +kernel : ∀ t : Fin grid6.N, cond6 (grid6.coords t) ↔ t.val = 0)

set_option maxHeartbeats 4000000 in
-- The body on whole buffers, the scratch at `d·`: where the branch is taken it first fills the scratch from `x2 … x6`; `s·` is the scratch it then reads and leaves.
theorem sound_kernel6 (c : Dev nD) (E : Set ℕ) (i : grid6.Coords) (arg1 : Memref sig .tc .vmem S152x256 .f32) (harg1 : arg1.IsWhole) (arg2 : Memref sig .tc .vmem S152x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S152x256 .f32) (harg8 : arg8.IsWhole) (arg9 : Memref sig .tc .vmem S152x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x512 .bf16) (harg12 : arg12.IsWhole) (arg13 : Memref sig .tc .vmem S512x256 .bf16) (harg13 : arg13.IsWhole) (arg14 : Memref sig .tc .vmem S256x256 .bf16) (harg14 : arg14.IsWhole)
    (x0 x1 : Vec F S152x256 .f32) (x2 x3 : Vec F S256x256 .f32) (x4 : Vec F S256x512 .f32) (x5 : Vec F S512x256 .f32) (x6 : Vec F S256x256 .f32)
    (d0 d1 : Vec F S256x256 .bf16) (d2 : Vec F S256x512 .bf16) (d3 : Vec F S512x256 .bf16) (d4 : Vec F S256x256 .bf16)
    (s0 s1 : Vec F S256x256 .bf16) (s2 : Vec F S256x512 .bf16) (s3 : Vec F S512x256 .bf16) (s4 : Vec F S256x256 .bf16)
    (h0 : s0 = if cond6 i then k6_pay1 x2 else d0) (h1 : s1 = if cond6 i then k6_pay2 x3 else d1) (h2 : s2 = if cond6 i then k6_pay3 x4 else d2)
    (h3 : s3 = if cond6 i then k6_pay4 x5 else d3) (h4 : s4 = if cond6 i then k6_pay5 x6 else d4) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ owns (c : Thread nD τ) arg10 fullShare d0 ∗ owns (c : Thread nD τ) arg11 fullShare d1 ∗ owns (c : Thread nD τ) arg12 fullShare d2 ∗ owns (c : Thread nD τ) arg13 fullShare d3 ∗ owns (c : Thread nD τ) arg14 fullShare d4)
        ∗ (iprop(owns (c : Thread nD τ) arg8 fullShare (k6_pay6 x0 x1 s0 s1 s2 s3) ∗ owns (c : Thread nD τ) arg9 fullShare (k6_pay7 x0 x1 s0 s1 s2 s3 s4)
            ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4
            ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) -∗ K ⟨⟩))
      ⊢ wp frame (wpE (defs₀ (F := F)) Variants.none c none) E (cc6__dsn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc6__dsn_kernel_eq_skeleton]; unfold cc6__dsn_kernel_skel
  simp only [k6_part1_eq_skeleton]; unfold k6_part1_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, %f14, %hf14, H14⟩, Hk⟩
  subst hf1 hf2 hf3 hf4 hf5 hf6 hf7 hf10 hf11 hf12 hf13 hf14
  by_cases hc : cond6 i
  all_goals
    first | rw [if_pos hc] at h0 h1 h2 h3 h4 | rw [if_neg hc] at h0 h1 h2 h3 h4
    subst h0 h1 h2 h3 h4
    sl_exec (disch := first | exact hc)
    sl_step
    iapply Hk
    isplitl [H8]
    · iapply (own_ret _ _ _ _ ?_) $$ H8
      first | close_pure | rfl
    isplitl [H9]
    · iapply (own_ret _ _ _ _ ?_) $$ H9
      first | close_pure | rfl
    isplitl [H10]
    · iapply (own_ret _ _ _ _ ?_) $$ H10
      first | close_pure | rfl
    isplitl [H11]
    · iapply (own_ret _ _ _ _ ?_) $$ H11
      first | close_pure | rfl
    isplitl [H12]
    · iapply (own_ret _ _ _ _ ?_) $$ H12
      first | close_pure | rfl
    isplitl [H13]
    · iapply (own_ret _ _ _ _ ?_) $$ H13
      first | close_pure | rfl
    isplitl [H14]
    · iapply (own_ret _ _ _ _ ?_) $$ H14
      first | close_pure | rfl
    sl_close

end Cert.KernelIdeal.Hand

end
-- ==== Proof.Frame.R6.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.Frame.R6.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def t6_0 : Fin cfg6.N := ⟨0, by show 0 < grid6.N; rw [N_6]; decide⟩

abbrev scM6_0 : Memref sig .tc .vmem S256x256 .bf16 := Memref.whole cc6_scratch0
abbrev scM6_1 : Memref sig .tc .vmem S256x256 .bf16 := Memref.whole cc6_scratch1
abbrev scM6_2 : Memref sig .tc .vmem S256x512 .bf16 := Memref.whole cc6_scratch2
abbrev scM6_3 : Memref sig .tc .vmem S512x256 .bf16 := Memref.whole cc6_scratch3
abbrev scM6_4 : Memref sig .tc .vmem S256x256 .bf16 := Memref.whole cc6_scratch4

def sc6_0 (c : Dev nD) : Vec F S256x256 .bf16 := k6_pay1 (iblk6 V c 2 t6_0)
def sc6_1 (c : Dev nD) : Vec F S256x256 .bf16 := k6_pay2 (iblk6 V c 3 t6_0)
def sc6_2 (c : Dev nD) : Vec F S256x512 .bf16 := k6_pay3 (iblk6 V c 4 t6_0)
def sc6_3 (c : Dev nD) : Vec F S512x256 .bf16 := k6_pay4 (iblk6 V c 5 t6_0)
def sc6_4 (c : Dev nD) : Vec F S256x256 .bf16 := k6_pay5 (iblk6 V c 6 t6_0)

abbrev RB6 (c : Dev nD) : sProp 𝕄 :=
  Pipeline.scopedRestBut (Ix := Unit) (Name := ℕ) (U := UR sig nD τ) (Lvl := ℕ) (Val := Elt F) spec6 c [cc6_scratch0, cc6_scratch1, cc6_scratch2, cc6_scratch3, cc6_scratch4]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d) ∗ (∃ d, owns (c : Thread nD τ) scM6_2 fullShare d) ∗ (∃ d, owns (c : Thread nD τ) scM6_3 fullShare d) ∗ (∃ d, owns (c : Thread nD τ) scM6_4 fullShare d)) ∗ RB6 (F := F) c) ∗ (∃ r, prngReg c r)) := by
  unfold Pipeline.ΦA; rw [scopedRest6_split]; simp only [scM6_0, scM6_1, scM6_2, scM6_3, scM6_4, owns_whole]; try rfl

-- The launch's invariant with the five scratch buffers holding what the first point writes to them.
def Phi6 (c : Dev nD) : sProp 𝕄 :=
  iprop(iprop(iprop(owns (c : Thread nD τ) scM6_0 fullShare (sc6_0 V c) ∗ owns (c : Thread nD τ) scM6_1 fullShare (sc6_1 V c) ∗ owns (c : Thread nD τ) scM6_2 fullShare (sc6_2 V c) ∗ owns (c : Thread nD τ) scM6_3 fullShare (sc6_3 V c) ∗ owns (c : Thread nD τ) scM6_4 fullShare (sc6_4 V c)) ∗ RB6 (F := F) c) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => k6_pay6 (iblk6 V c 0 t) (iblk6 V c 1 t) (sc6_0 V c) (sc6_1 V c) (sc6_2 V c) (sc6_3 V c)
    | ⟨8, _⟩ => k6_pay7 (iblk6 V c 0 t) (iblk6 V c 1 t) (sc6_0 V c) (sc6_1 V c) (sc6_2 V c) (sc6_3 V c) (sc6_4 V c)
  Φ t := if t.val = 0 then Pipeline.ΦA spec6 c else Phi6 V c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem after6_7 (c : Dev nD) (t : Fin cfg6.N) : (dat6 V c).after 7 t = k6_pay6 (iblk6 V c 0 t) (iblk6 V c 1 t) (sc6_0 V c) (sc6_1 V c) (sc6_2 V c) (sc6_3 V c) := by dsimp only [dat6]
theorem after6_8 (c : Dev nD) (t : Fin cfg6.N) : (dat6 V c).after 8 t = k6_pay7 (iblk6 V c 0 t) (iblk6 V c 1 t) (sc6_0 V c) (sc6_1 V c) (sc6_2 V c) (sc6_3 V c) (sc6_4 V c) := by dsimp only [dat6]

-- The body returns every input as it finds it, so what it finds at a point is what it leaves there.
theorem before6 (c : Dev nD) (t : Fin cfg6.N) (w : Fin cfg6.W) (hw : w.val < 7) (d) : (dat6 V c).before w t d = (dat6 V c).after w t := by
  obtain ⟨_|_|_|_|_|_|_|w, h⟩ := w
  all_goals first
    | exact (dat6 V c).before_in_eq_fetched _ rfl (fun _ => rfl) (fun _ _ _ => rfl) (fun _ => rfl) t d
    | exact absurd hw (Nat.not_lt.mpr (Nat.le_add_left 7 w))

-- The body at any point: at the first it takes the scratch buffers at any contents and fills them, later it only reads them.
theorem body_obligation6 (c : Dev nD) : BodyObligation (dat6 (F := F) V c) (defs₀ (F := F)) Variants.none () Set.univ := fun t => by
  rw [bigSep_W6, bigSep_W6]
  simp (disch := decide) only [before6 V c t]
  rw [show (dat6 V c).owesAt () t.succ = (dat6 V c).owesAt () t.castSucc from rfl]
  dsimp only [dat6, Fin.coe_castSucc, Fin.val_succ]
  rw [if_neg (Nat.add_one_ne_zero _)]
  by_cases hz : t.val = 0
  · rw [if_pos hz, PhiA6_eq]
    obtain rfl : t = t6_0 := Fin.ext hz
    have hc := (hcond6 t6_0).mpr rfl
    unfold Phi6 sc6_0 sc6_1 sc6_2 sc6_3 sc6_4
    iintro ⟨⟨⟨⟨⟨%_, HS0⟩, ⟨%_, HS1⟩, ⟨%_, HS2⟩, ⟨%_, HS3⟩, ⟨%_, HS4⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel6 c Set.univ (grid6.coords t6_0) _ _ _ _ _ _ _ _ _ _ _ _ _ _ _ _ _ _ _ _ _ _ _ _ _ _ _ _
      _ _ _ _ _ _ _ _ _ _ _ _ _ _ _ _ _
      (if_pos hc).symm (if_pos hc).symm (if_pos hc).symm (if_pos hc).symm (if_pos hc).symm _)
    isplitr [HR Hg Ho]; · sl_close
    iintro ⟨H7, H8, HS0, HS1, HS2, HS3, HS4, H0, H1, H2, H3, H4, H5, H6⟩
    iframe
  · rw [if_neg hz]
    have hc := fun h => hz ((hcond6 t).mp h)
    unfold Phi6
    iintro ⟨⟨⟨⟨HS0, HS1, HS2, HS3, HS4⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel6 c Set.univ (grid6.coords t) _ _ _ _ _ _ _ _ _ _ _ _ _ _ _ _ _ _ _ _ _ _ _ _ _ _ _ _
      _ _ _ _ _ _ _ _ _ _ _ _ _ _ _ _ _
      (if_neg hc).symm (if_neg hc).symm (if_neg hc).symm (if_neg hc).symm (if_neg hc).symm _)
    isplitr [HR Hg Ho]; · sl_close
    iintro ⟨H7, H8, HS0, HS1, HS2, HS3, HS4, H0, H1, H2, H3, H4, H5, H6⟩
    iframe

theorem hin6 (c : Dev nD) : (Pipeline.ΦA spec6 c : sProp 𝕄) ⊢ (dat6 V c).Φ 0 := .rfl

theorem hout6 (c : Dev nD) : (dat6 V c).Φ (Fin.last cfg6.N) ⊢ (Pipeline.ΦA spec6 c : sProp 𝕄) := by
  rw [show (dat6 V c).Φ (Fin.last cfg6.N) = Phi6 V c from rfl, PhiA6_eq]
  exact sep_mono_left (sep_mono_left (sep_mono (exists_intro _) (sep_mono (exists_intro _) (sep_mono (exists_intro _) (sep_mono (exists_intro _) (exists_intro _))))))

end Cert.KernelIdeal.Hand

end
-- ==== Proof.Frame.R7.lean ====
import proofs.«407199_j78503412236482_3_alg».proof.Proof.Gen.KernelIdeal.Launch
import proofs.«407199_j78503412236482_3_alg».proof.Proof.Gen.KernelIdeal.Skeleton
import proofs.«407199_j78503412236482_3_alg».proof.Proof.Gen.KernelIdeal.Points
import proofs.«407199_j78503412236482_3_alg».proof.Proof.LibAccess

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Access

variable {F : FTy → Type} [FloatOps F]

local notation "𝕄" => MT nD τ sig Unit (Elt F) ℕ (UR sig nD τ) ℕ

abbrev cond7 (i : grid7.Coords) : Prop :=
  Scalar.cmpi .ne (Scalar.extui (Scalar.cmpi .eq (BitVec.ofNat 32 (i 0).val) 0#32)) 0#32 = 1#1

theorem hcond7 : ∀ t : Fin cfg7.N, cond7 (grid7.coords t) ↔ t.val = 0 :=
  (by decide +kernel : ∀ t : Fin grid7.N, cond7 (grid7.coords t) ↔ t.val = 0)

section
variable (c : Dev nD) (E : Set ℕ) (i : grid7.Coords)
  (a : Memref sig .tc .vmem S304x256 .f32) (ha : a.IsWhole) (b : Memref sig .tc .vmem S3040x256 .f32) (hb : b.IsWhole)
  (o : Memref sig .tc .vmem S304x3040 .f32) (ho : o.IsWhole) (s : Memref sig .tc .vmem S3040x256 .bf16) (hs : s.IsWhole)

-- At the first point the scratch receives the narrowed second factor, whatever it held, and the product is taken with it.
theorem sound_kernel7_first (hc : cond7 i) (x : Vec F S304x256 .f32) (y : Vec F S3040x256 .f32) (K : PUnit → sProp 𝕄) :
    iprop(owns (c : Thread nD τ) a fullShare x ∗ owns (c : Thread nD τ) b fullShare y
        ∗ (∃ d, owns (c : Thread nD τ) o fullShare d) ∗ (∃ d, owns (c : Thread nD τ) s fullShare d)
        ∗ (iprop(owns (c : Thread nD τ) o fullShare (k7_pay2 x (k7_pay1 y)) ∗ owns (c : Thread nD τ) s fullShare (k7_pay1 y)
            ∗ owns (c : Thread nD τ) a fullShare x ∗ owns (c : Thread nD τ) b fullShare y) -∗ K ⟨⟩))
      ⊢ wp frame (wpE (defs₀ (F := F)) Variants.none c none) E (cc7__matmul_kernel i a ha b hb o ho s hs) K := by
  simp only [cc7__matmul_kernel_eq_skeleton]; unfold cc7__matmul_kernel_skel owns
  iintro ⟨⟨%fa, %ea, Ha⟩, ⟨%fb, %eb, Hb⟩, ⟨%_, %fo, -, Ho⟩, ⟨%_, %fs, -, Hs⟩, Hk⟩
  subst ea eb
  sl_exec (disch := exact hc)
  sl_step
  iapply Hk
  isplitl [Ho]
  · iapply (own_ret _ _ _ _ ?_) $$ Ho
    sl_unfold_run_names
    rw [read_store_origin _ _ at_origin, View.readCov_unit_zero _ at_origin, readAt_origin _ _ at_origin, readAt_origin _ _ at_origin]
  isplitl [Hs]
  · iapply (own_ret _ _ _ _ ?_) $$ Hs
    sl_unfold_run_names
    rw [read_store_origin _ _ at_origin, readAt_origin _ _ at_origin]
  sl_close

-- Past the first point the scratch is only read, at `u`, and handed back as found; the second factor is not touched.
theorem sound_kernel7_later (hc : ¬ cond7 i) (x : Vec F S304x256 .f32) (u : Vec F S3040x256 .bf16) (K : PUnit → sProp 𝕄) :
    iprop(owns (c : Thread nD τ) a fullShare x ∗ (∃ d, owns (c : Thread nD τ) o fullShare d) ∗ owns (c : Thread nD τ) s fullShare u
        ∗ (iprop(owns (c : Thread nD τ) o fullShare (k7_pay2 x u) ∗ owns (c : Thread nD τ) a fullShare x ∗ owns (c : Thread nD τ) s fullShare u) -∗ K ⟨⟩))
      ⊢ wp frame (wpE (defs₀ (F := F)) Variants.none c none) E (cc7__matmul_kernel i a ha b hb o ho s hs) K := by
  simp only [cc7__matmul_kernel_eq_skeleton]; unfold cc7__matmul_kernel_skel owns
  iintro ⟨⟨%fa, %ea, Ha⟩, ⟨%_, %fo, -, Ho⟩, ⟨%fs, %es, Hs⟩, Hk⟩
  subst ea es
  sl_exec (disch := exact hc)
  sl_step
  iapply Hk
  isplitl [Ho]
  · iapply (own_ret _ _ _ _ ?_) $$ Ho
    rw [read_store_origin _ _ at_origin, readAt_origin _ _ at_origin, readAt_origin _ _ at_origin]
  sl_close

end

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

-- What the scratch holds from the first point on: the narrowed second factor.
def carried7 (c : Dev nD) : Vec F S3040x256 .bf16 := k7_pay1 (iblk7 V c 1 t7_0)

abbrev scM7 : Memref sig .tc .vmem S3040x256 .bf16 := Memref.whole cc7_scratch0

-- The entry assertion with the scratch named, owned at some contents.
theorem PhiA7_eq (c : Dev nD) :
    (Pipeline.ΦA spec7 c : sProp 𝕄)
      = iprop(iprop(iprop((∃ d, owns (c : Thread nD τ) scM7 fullShare d)) ∗ Pipeline.scopedRestBut spec7 c [cc7_scratch0])
          ∗ (∃ r, prngReg c r)) := by
  unfold Pipeline.ΦA; rw [scopedRest7_split]; simp only [scM7, owns_whole]; try rfl

-- What is carried past the first point: the scratch at the narrowed second factor, all else as at entry.
def kept7 (c : Dev nD) : sProp 𝕄 :=
  iprop(iprop(owns (c : Thread nD τ) scM7 fullShare (carried7 V c) ∗ Pipeline.scopedRestBut spec7 c [cc7_scratch0]) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay2 (iblk7 V c 0 t) (carried7 V c)
  Φ t := if t.val = 0 then Pipeline.ΦA spec7 c else kept7 V c
  q _ := fullShare
  owed _ := 0

theorem A_eq7 (c : Dev nD) (w : Fin cfg7.W) : (dat7 V c).A w = V c (Pipeline.arrRef spec7 w) := rfl

theorem q_eq7 (c : Dev nD) (w : Fin cfg7.W) : (dat7 V c).q w = fullShare := rfl

theorem owed_eq7 (c : Dev nD) (t : Fin (cfg7.N + 1)) : (dat7 V c).owed t = 0 := rfl

theorem after7_2 (c : Dev nD) (t : Fin cfg7.N) :
    (dat7 V c).after 2 t = k7_pay2 (iblk7 V c 0 t) (carried7 V c) := rfl

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

-- The body at any point: the invariant lends the scratch to the run and takes it back at the narrowed second factor; all else is framed.
theorem body_obligation7 (c : Dev nD) : BodyObligation (dat7 (F := F) V c) (defs₀ (F := F)) Variants.none () Set.univ := fun t => by
  rw [bigSep_W7, bigSep_W7]
  simp only [before7_0, before7_1]
  show _ ⊢ wp _ _ _ (bodyAt7 t) _
  unfold bodyAt7
  rw [show (dat7 V c).owesAt () t.succ = (dat7 V c).owesAt () t.castSucc from rfl,
    show (dat7 V c).Φ t.succ = kept7 V c from rfl,
    show (dat7 V c).after 0 t = iblk7 V c 0 t from rfl, show (dat7 V c).after 1 t = iblk7 V c 1 t from rfl, after7_2]
  by_cases hz : t.val = 0
  · obtain rfl : t = t7_0 := Fin.ext hz
    rw [show (dat7 V c).Φ t7_0.castSucc = Pipeline.ΦA spec7 c from rfl, PhiA7_eq]
    unfold kept7 carried7
    iintro ⟨⟨⟨Hs, Hr⟩, Hg⟩, Hw, ⟨%_, Ha⟩, ⟨%_, Hb⟩, ⟨%_, Ho⟩⟩
    iapply (sound_kernel7_first c Set.univ _ _ _ _ _ _ _ _ _ ((hcond7 t7_0).mpr hz) (iblk7 V c 0 t7_0) (iblk7 V c 1 t7_0) _)
    iframe Ha Hb Hs
    isplitl [Ho]; · iexists _; iexact Ho
    iintro ⟨Ho, Hs, Ha, Hb⟩
    iframe
  · rw [show (dat7 V c).Φ t.castSucc = kept7 V c from if_neg hz]
    unfold kept7 carried7
    iintro ⟨⟨⟨Hs, Hr⟩, Hg⟩, Hw, ⟨%_, Ha⟩, ⟨%_, Hb⟩, ⟨%_, Ho⟩⟩
    iapply (sound_kernel7_later c Set.univ _ _ _ _ _ _ _ _ _ (fun h => hz ((hcond7 t).mp h)) (iblk7 V c 0 t) (k7_pay1 (iblk7 V c 1 t7_0)) _)
    iframe Ha Hs
    isplitl [Ho]; · iexists _; iexact Ho
    iintro ⟨Ho, Ha, Hs⟩
    iframe

theorem hin7 (c : Dev nD) : (Pipeline.ΦA spec7 c : sProp 𝕄) ⊢ (dat7 V c).Φ 0 := .rfl

-- Forgetting what the scratch holds gives back the entry assertion.
theorem hout7 (c : Dev nD) : (dat7 V c).Φ (Fin.last cfg7.N) ⊢ (Pipeline.ΦA spec7 c : sProp 𝕄) := by
  rw [show (dat7 V c).Φ (Fin.last cfg7.N) = kept7 V c from rfl, PhiA7_eq]
  unfold kept7 carried7
  iintro ⟨⟨Hs, Hr⟩, Hg⟩
  iframe Hr Hg
  iexists _; iexact Hs

end Cert.KernelIdeal.Hand

end
-- ==== Proof.Frame.Vals.lean ====
import proofs.«407199_j78503412236482_3_alg».proof.Proof.Gen.KernelIdeal.Regions
import proofs.«407199_j78503412236482_3_alg».proof.Proof.Frame.R0
import proofs.«407199_j78503412236482_3_alg».proof.Proof.Frame.R1
import proofs.«407199_j78503412236482_3_alg».proof.Proof.Frame.R2
import proofs.«407199_j78503412236482_3_alg».proof.Proof.Frame.R3
import proofs.«407199_j78503412236482_3_alg».proof.Proof.Frame.R4
import proofs.«407199_j78503412236482_3_alg».proof.Proof.Frame.R5
import proofs.«407199_j78503412236482_3_alg».proof.Proof.Frame.R6
import proofs.«407199_j78503412236482_3_alg».proof.Proof.Frame.R7

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def U1 (c : Dev nD) : Valuation τ sig (Elt F) :=
  Function.update (V0 m c) main_v0 ((dat0 (atTc (V0 m)) c).arrAt 5 cfg0.N)
def U2 (c : Dev nD) : Valuation τ sig (Elt F) := StableHlo.after hostOps1 (U1 m c)
def U3 (c : Dev nD) : Valuation τ sig (Elt F) :=
  Function.update (Function.update (U2 m c) main_v5_0 ((dat1 (atTc (U2 m)) c).arrAt 6 cfg1.N)) main_v5_1 ((dat1 (atTc (U2 m)) c).arrAt 7 cfg1.N)
def U4 (c : Dev nD) : Valuation τ sig (Elt F) :=
  Function.update (U3 m c) main_v6 ((dat2 (atTc (U3 m)) c).arrAt 3 cfg2.N)
def U5 (c : Dev nD) : Valuation τ sig (Elt F) :=
  Function.update (U4 m c) main_v7 ((dat3 (atTc (U4 m)) c).arrAt 2 cfg3.N)
def U6 (c : Dev nD) : Valuation τ sig (Elt F) :=
  Function.update (U5 m c) main_v8 ((dat4 (atTc (U5 m)) c).arrAt 3 cfg4.N)
def U7 (c : Dev nD) : Valuation τ sig (Elt F) :=
  Function.update (U6 m c) main_v9 ((dat5 (atTc (U6 m)) c).arrAt 2 cfg5.N)
def U8 (c : Dev nD) : Valuation τ sig (Elt F) := StableHlo.after hostOps6 (U7 m c)
def U9 (c : Dev nD) : Valuation τ sig (Elt F) :=
  Function.update (Function.update (U8 m c) main_v12_0 ((dat6 (atTc (U8 m)) c).arrAt 7 cfg6.N)) main_v12_1 ((dat6 (atTc (U8 m)) c).arrAt 8 cfg6.N)
def U10 (c : Dev nD) : Valuation τ sig (Elt F) :=
  Function.update (U9 m c) main_v13 ((dat7 (atTc (U9 m)) c).arrAt 2 cfg7.N)

def outs : Outs (F := F) := fun J r c =>
  match J with
  | 1 => U1 m c r
  | 3 => U3 m c r
  | 4 => U4 m c r
  | 5 => U5 m c r
  | 6 => U6 m c r
  | 7 => U7 m c r
  | 9 => U9 m c r
  | 10 => U10 m c r
  | _ => V0 m c r

/-- An update of `g`, written back at its point over a function equal to `g`, is that update. -/
theorem update_read {α : Type} [DecidableEq α] {β : α → Type} {f g : (a : α) → β a} (h : f = g) (a : α) (x : β a) :
    Function.update f a (Function.update g a x a) = Function.update g a x := by
  rw [h, Function.update_self]

/-- Two updates at distinct points, each with what the updated function holds there, give that function. -/
theorem update2_read {α : Type} [DecidableEq α] {β : α → Type} (f : (a : α) → β a) {a b : α} (hab : a ≠ b) (x : β a) (y : β b) :
    Function.update (Function.update f a (Function.update (Function.update f a x) b y a)) b (Function.update (Function.update f a x) b y b)
      = Function.update (Function.update f a x) b y := by
  rw [Function.update_self, Function.update_of_ne hab, Function.update_self]

theorem V1_eq (c : Dev nD) : V1 m (outs m) c = U1 m c := update_read rfl _ _
theorem V2_eq (c : Dev nD) : V2 m (outs m) c = U2 m c := congrArg (StableHlo.after hostOps1) (V1_eq m c)
theorem V3_eq (c : Dev nD) : V3 m (outs m) c = U3 m c := by
  show Function.update (Function.update (V2 m (outs m) c) main_v5_0 (U3 m c main_v5_0)) main_v5_1 (U3 m c main_v5_1) = U3 m c
  rw [V2_eq]; exact update2_read _ (StableHlo.devRef_ne_of_ne (by decide)) _ _
theorem V4_eq (c : Dev nD) : V4 m (outs m) c = U4 m c := update_read (V3_eq m c) _ _
theorem V5_eq (c : Dev nD) : V5 m (outs m) c = U5 m c := update_read (V4_eq m c) _ _
theorem V6_eq (c : Dev nD) : V6 m (outs m) c = U6 m c := update_read (V5_eq m c) _ _
theorem V7_eq (c : Dev nD) : V7 m (outs m) c = U7 m c := update_read (V6_eq m c) _ _
theorem V8_eq (c : Dev nD) : V8 m (outs m) c = U8 m c := congrArg (StableHlo.after hostOps6) (V7_eq m c)
theorem V9_eq (c : Dev nD) : V9 m (outs m) c = U9 m c := by
  show Function.update (Function.update (V8 m (outs m) c) main_v12_0 (U9 m c main_v12_0)) main_v12_1 (U9 m c main_v12_1) = U9 m c
  rw [V8_eq]; exact update2_read _ (StableHlo.devRef_ne_of_ne (by decide)) _ _
theorem V10_eq (c : Dev nD) : V10 m (outs m) c = U10 m c := update_read (V9_eq m c) _ _

theorem U1_of (c : Dev nD) (r : Ref sig .tc) (h : r ∉ ([main_v0] : List (Ref sig .tc))) : U1 m c r = V0 m c r := by
  rw [← V1_eq]; exact V1_of m (outs m) c r h
theorem U3_of (c : Dev nD) (r : Ref sig .tc) (h : r ∉ ([main_v5_0, main_v5_1] : List (Ref sig .tc))) : U3 m c r = U2 m c r := by
  rw [← V3_eq, ← V2_eq]; exact V3_of m (outs m) c r h
theorem U4_of (c : Dev nD) (r : Ref sig .tc) (h : r ∉ ([main_v6] : List (Ref sig .tc))) : U4 m c r = U3 m c r := by
  rw [← V4_eq, ← V3_eq]; exact V4_of m (outs m) c r h
theorem U5_of (c : Dev nD) (r : Ref sig .tc) (h : r ∉ ([main_v7] : List (Ref sig .tc))) : U5 m c r = U4 m c r := by
  rw [← V5_eq, ← V4_eq]; exact V5_of m (outs m) c r h
theorem U6_of (c : Dev nD) (r : Ref sig .tc) (h : r ∉ ([main_v8] : List (Ref sig .tc))) : U6 m c r = U5 m c r := by
  rw [← V6_eq, ← V5_eq]; exact V6_of m (outs m) c r h
theorem U7_of (c : Dev nD) (r : Ref sig .tc) (h : r ∉ ([main_v9] : List (Ref sig .tc))) : U7 m c r = U6 m c r := by
  rw [← V7_eq, ← V6_eq]; exact V7_of m (outs m) c r h
theorem U9_of (c : Dev nD) (r : Ref sig .tc) (h : r ∉ ([main_v12_0, main_v12_1] : List (Ref sig .tc))) : U9 m c r = U8 m c r := by
  rw [← V9_eq, ← V8_eq]; exact V9_of m (outs m) c r h
theorem U10_of (c : Dev nD) (r : Ref sig .tc) (h : r ∉ ([main_v13] : List (Ref sig .tc))) : U10 m c r = U9 m c r := by
  rw [← V10_eq, ← V9_eq]; exact V10_of m (outs m) c r h

theorem U1_out (c : Dev nD) : U1 m c main_v0 = (dat0 (atTc (V0 m)) c).arrAt 5 cfg0.N := Function.update_self _ _ _
theorem U3_out0 (c : Dev nD) : U3 m c main_v5_0 = (dat1 (atTc (U2 m)) c).arrAt 6 cfg1.N :=
  (Function.update_of_ne (StableHlo.devRef_ne_of_ne (by decide)) _ _).trans (Function.update_self _ _ _)
theorem U3_out1 (c : Dev nD) : U3 m c main_v5_1 = (dat1 (atTc (U2 m)) c).arrAt 7 cfg1.N := Function.update_self _ _ _
theorem U4_out (c : Dev nD) : U4 m c main_v6 = (dat2 (atTc (U3 m)) c).arrAt 3 cfg2.N := Function.update_self _ _ _
theorem U5_out (c : Dev nD) : U5 m c main_v7 = (dat3 (atTc (U4 m)) c).arrAt 2 cfg3.N := Function.update_self _ _ _
theorem U6_out (c : Dev nD) : U6 m c main_v8 = (dat4 (atTc (U5 m)) c).arrAt 3 cfg4.N := Function.update_self _ _ _
theorem U7_out (c : Dev nD) : U7 m c main_v9 = (dat5 (atTc (U6 m)) c).arrAt 2 cfg5.N := Function.update_self _ _ _
theorem U9_out0 (c : Dev nD) : U9 m c main_v12_0 = (dat6 (atTc (U8 m)) c).arrAt 7 cfg6.N :=
  (Function.update_of_ne (StableHlo.devRef_ne_of_ne (by decide)) _ _).trans (Function.update_self _ _ _)
theorem U9_out1 (c : Dev nD) : U9 m c main_v12_1 = (dat6 (atTc (U8 m)) c).arrAt 8 cfg6.N := Function.update_self _ _ _
theorem U10_out (c : Dev nD) : U10 m c main_v13 = (dat7 (atTc (U9 m)) c).arrAt 2 cfg7.N := Function.update_self _ _ _

def pdats : (p : Fin 8) → (c : Dev nD) → Dat τ (Elt F) Unit ℕ (UR sig nD τ) ℕ (cfgs p) c
  | ⟨0, _⟩ => fun c => dat0 (atTc (V0 m)) c
  | ⟨1, _⟩ => fun c => dat1 (atTc (U2 m)) c
  | ⟨2, _⟩ => fun c => dat2 (atTc (U3 m)) c
  | ⟨3, _⟩ => fun c => dat3 (atTc (U4 m)) c
  | ⟨4, _⟩ => fun c => dat4 (atTc (U5 m)) c
  | ⟨5, _⟩ => fun c => dat5 (atTc (U6 m)) c
  | ⟨6, _⟩ => fun c => dat6 (atTc (U8 m)) c
  | ⟨7, _⟩ => fun c => dat7 (atTc (U9 m)) c

local notation "𝕄" => MT nD τ sig Unit (Elt F) ℕ (UR sig nD τ) ℕ

abbrev L0 : GSem nD τ sig → Finset Unit := fun _ => ∅
abbrev lv0 : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 9 → Dev nD → sProp 𝕄 := fun _ c => R (F := F) c

end Cert.KernelIdeal.Hand

end
-- ==== Proof.Frame.Seg.lean ====
import proofs.«407199_j78503412236482_3_alg».proof.Proof.Frame.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

variable (m : (ℓ : Loc nD τ sig) → Buf (Elt F) ℓ)

/-- A launch's array after it is what the contents after it say: an input held its entry contents, which the contents after keep off the outputs. -/
theorem arrAt_last {p : Fin 8} (lf : Pipeline.LaunchFacts (nD := nD) (τ := τ) cfgs p) {Vi Vo : Dev nD → Valuation τ sig (Elt F)} {c : Dev nD}
    {O : List (Fin (cfgs p).W)} (hio : ∀ w, w ∉ O → ((cfgs p).win w).isOut = false)
    (hA : ∀ w, (pdats m p c).A w = atTc Vi c (Pipeline.arrRef (cfgs p).spec w))
    (hof : ∀ r, r ∉ O.map (Pipeline.arrRef (cfgs p).spec) → Vo c r = Vi c r)
    (hO : O.Forall fun w => (pdats m p c).arrAt w (cfgs p).N = atTc Vo c (Pipeline.arrRef (cfgs p).spec w)) (w : Fin (cfgs p).W) :
    (pdats m p c).arrAt w (cfgs p).N = atTc Vo c (Pipeline.arrRef (cfgs p).spec w) :=
  if h : w ∈ O then List.forall_iff_forall_mem.1 hO w h else ((pdats m p c).arrAt_in w (hio w h) _).trans
    ((hA w).trans (hof _ fun h' => h ((List.mem_map_of_injective lf.win.arr_inj).1 h')).symm)

/-- A launch as a segment of the run: entered at the contents `Vi`, left at `Vo`, which differ only at its output arrays `O`. -/
def regOf (p : Fin 8) (lf : Pipeline.LaunchFacts (nD := nD) (τ := τ) cfgs p) (Vi Vo : Dev nD → Valuation τ sig (Elt F))
    (hbody : ∀ c, BodyObligation (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = atTc Vi c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (O : List (Fin (cfgs p).W)) (hio : ∀ w, w ∉ O → ((cfgs p).win w).isOut = false)
    (hof : ∀ c r, r ∉ O.map (Pipeline.arrRef (cfgs p).spec) → Vo c r = Vi c r)
    (hO : ∀ c, O.Forall fun w => (pdats m p c).arrAt w (cfgs p).N = atTc Vo c (Pipeline.arrRef (cfgs p).spec w)) :
    RegionSeg (pcfgs (F := F)) adm (pdats m) () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    unfold Pipeline.Dat.owesAt Pipeline.owesWithin Pipeline.Dat.bound
    rw [Pipeline.ownSems0_none, howed c 0, hrec c, Set.univ_union]
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iexists W; isplitr; · ipureintro; exact Set.subset_univ _
    iexact HO
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) (arrAt_last m lf hio (hA c) (hof c) (hO c))
      fun b hb => hof c b fun h => hb (let ⟨w, _, e⟩ := List.mem_map.1 h; Finset.mem_image.2 ⟨w, Finset.mem_univ _, e⟩)
    rw [Pipeline.unscopedBufs_held] at hjoin
    unfold Pipeline.Dat.owesAt Pipeline.owesWithin
    rw [howed c]
    iintro ⟨Ha, ⟨%W, -, HO⟩, HY, Hrest⟩
    imodintro
    isplitl [Ha Hrest]; · iapply hjoin; iframe
    isplitl [HY]; · iexact HY
    iexists W; iexact HO

def reg0 : RegionSeg (pcfgs (F := F)) adm (pdats m) () defs₀ Variants.none L0 lv0 0 :=
  regOf m 0 launch0 (V0 m) (U1 m) (body_obligation0 _) (owed_eq0 _) (fun _ => rfl) (q_eq0 _) (A_eq0 _) (hin0 _) (hout0 _)
    ([5] : List (Fin cfg0.W)) (by decide) (U1_of m) fun c => (U1_out m c).symm

def reg1 : RegionSeg (pcfgs (F := F)) adm (pdats m) () defs₀ Variants.none L0 lv0 1 :=
  regOf m 1 launch1 (U2 m) (U3 m) (body_obligation1 _) (owed_eq1 _) (fun _ => rfl) (q_eq1 _) (A_eq1 _) (hin1 _) (hout1 _)
    ([6, 7] : List (Fin cfg1.W)) (by decide) (U3_of m) fun c => ⟨(U3_out0 m c).symm, (U3_out1 m c).symm⟩

def reg2 : RegionSeg (pcfgs (F := F)) adm (pdats m) () defs₀ Variants.none L0 lv0 2 :=
  regOf m 2 launch2 (U3 m) (U4 m) (body_obligation2 _) (owed_eq2 _) (fun _ => rfl) (q_eq2 _) (A_eq2 _) (hin2 _) (hout2 _)
    ([3] : List (Fin cfg2.W)) (by decide) (U4_of m) fun c => (U4_out m c).symm

def reg3 : RegionSeg (pcfgs (F := F)) adm (pdats m) () defs₀ Variants.none L0 lv0 3 :=
  regOf m 3 launch3 (U4 m) (U5 m) (body_obligation3 _) (owed_eq3 _) (fun _ => rfl) (q_eq3 _) (A_eq3 _) (hin3 _) (hout3 _)
    ([2] : List (Fin cfg3.W)) (by decide) (U5_of m) fun c => (U5_out m c).symm

def reg4 : RegionSeg (pcfgs (F := F)) adm (pdats m) () defs₀ Variants.none L0 lv0 4 :=
  regOf m 4 launch4 (U5 m) (U6 m) (body_obligation4 _) (owed_eq4 _) (fun _ => rfl) (q_eq4 _) (A_eq4 _) (hin4 _) (hout4 _)
    ([3] : List (Fin cfg4.W)) (by decide) (U6_of m) fun c => (U6_out m c).symm

def reg5 : RegionSeg (pcfgs (F := F)) adm (pdats m) () defs₀ Variants.none L0 lv0 5 :=
  regOf m 5 launch5 (U6 m) (U7 m) (body_obligation5 _) (owed_eq5 _) (fun _ => rfl) (q_eq5 _) (A_eq5 _) (hin5 _) (hout5 _)
    ([2] : List (Fin cfg5.W)) (by decide) (U7_of m) fun c => (U7_out m c).symm

def reg6 : RegionSeg (pcfgs (F := F)) adm (pdats m) () defs₀ Variants.none L0 lv0 6 :=
  regOf m 6 launch6 (U8 m) (U9 m) (body_obligation6 _) (owed_eq6 _) (fun _ => rfl) (q_eq6 _) (A_eq6 _) (hin6 _) (hout6 _)
    ([7, 8] : List (Fin cfg6.W)) (by decide) (U9_of m) fun c => ⟨(U9_out0 m c).symm, (U9_out1 m c).symm⟩

def reg7 : RegionSeg (pcfgs (F := F)) adm (pdats m) () defs₀ Variants.none L0 lv0 7 :=
  regOf m 7 launch7 (U9 m) (U10 m) (body_obligation7 _) (owed_eq7 _) (fun _ => rfl) (q_eq7 _) (A_eq7 _) (hin7 _) (hout7 _)
    ([2] : List (Fin cfg7.W)) (by decide) (U10_of m) fun c => (U10_out m c).symm

end Cert.KernelIdeal.Hand

end
-- ==== Proof.Value.Tile.lean ====
import proofs.«407199_j78503412236482_3_alg».proof.Proof.Spec
import Idealize.ShloMosaic.Lib.Pipeline.Value

namespace Cert.KernelIdeal.Hand

open Idealize.ShloMosaic Idealize.ShloMosaic.ValueIdx

variable {α : Type} {N R B C : Nat}

variable {ix : Fin 2 → Nat}

-- A block read through a placement that keeps both coordinates (block index 0 on each axis, the array's own sizes) is the array.
theorem blk_whole2 {X A : (⟨2, ![N, C]⟩ : Shape).Idx → α} (e : (⟨2, ![N, C]⟩ : Shape).Idx → (⟨2, ![N, C]⟩ : Shape).Idx)
    (hX : ∀ y, X y = A (e y)) (he : ∀ y a, ((e y a : Fin _) : Nat) = ix a * (![N, C] : Fin 2 → Nat) a + y a)
    (h0 : ix 0 = 0) (h1 : ix 1 = 0) : X = A :=
  funext fun y => (hX y).trans (congrArg A (Shape.idx_ext₂ ((he y 0).trans (by rw [h0]; omega)) ((he y 1).trans (by rw [h1]; omega))))

-- At block index `t` along the rows and 0 along the columns, it is row tile `t`.
theorem blk_tile2 (hN : 0 < N) {X : (⟨2, ![R, C]⟩ : Shape).Idx → α} {A : (⟨2, ![N, C]⟩ : Shape).Idx → α} (t : Nat) (ht : t * R + R ≤ N)
    (e : (⟨2, ![R, C]⟩ : Shape).Idx → (⟨2, ![N, C]⟩ : Shape).Idx) (hX : ∀ y, X y = A (e y))
    (he : ∀ y a, ((e y a : Fin _) : Nat) = ix a * (![R, C] : Fin 2 → Nat) a + y a) (h0 : ix 0 = t) (h1 : ix 1 = 0) :
    X = Spec.tile2 N R C hN A t :=
  funext fun y => (hX y).trans (congrArg A (Shape.idx_ext₂
    (((he y 0).trans (congrArg (· * R + (y 0).val) h0)).trans (Nat.mod_eq_of_lt (by have : (y 0 : Nat) < R := (y 0).isLt; omega)).symm)
    ((he y 1).trans (by rw [h1]; omega) : ((e y 1 : Fin C) : Nat) = y 1)))

-- The same along the first of three axes.
theorem blk_tile3 {ix : Fin 3 → Nat} (hN : 0 < N) {X : (⟨3, ![R, B, C]⟩ : Shape).Idx → α} {A : (⟨3, ![N, B, C]⟩ : Shape).Idx → α} (t : Nat)
    (ht : t * R + R ≤ N) (e : (⟨3, ![R, B, C]⟩ : Shape).Idx → (⟨3, ![N, B, C]⟩ : Shape).Idx) (hX : ∀ y, X y = A (e y))
    (he : ∀ y a, ((e y a : Fin _) : Nat) = ix a * (![R, B, C] : Fin 3 → Nat) a + y a) (h0 : ix 0 = t) (h1 : ix 1 = 0) (h2 : ix 2 = 0) :
    X = Spec.tile3 N R B C hN A t :=
  funext fun y => (hX y).trans (congrArg A (funext fun a => Fin.ext (by
    match a with
    | ⟨0, _⟩ => exact ((he y 0).trans (congrArg (· * R + (y 0).val) h0)).trans (Nat.mod_eq_of_lt (by have : (y 0 : Nat) < R := (y 0).isLt; omega)).symm
    | ⟨1, _⟩ => exact ((he y 1).trans (by rw [h1]; omega) : ((e y 1 : Fin B) : Nat) = y 1)
    | ⟨2, _⟩ => exact ((he y 2).trans (by rw [h2]; omega) : ((e y 2 : Fin C) : Nat) = y 2))))

-- The array index under element `j` of row tile `t` has tile number `t` and place `j` in the tile.
theorem tile_idx (hR : 0 < R) (t : Nat) (i : (⟨2, ![N, C]⟩ : Shape).Idx) (j : (⟨2, ![R, C]⟩ : Shape).Idx)
    (h0 : ((i 0 : Fin N) : Nat) = t * R + j 0) (h1 : ((i 1 : Fin C) : Nat) = j 1) :
    (i 0).val / R = t ∧ ix2 (n1 := C) (Spec.inTile R hR (i 0)) (i 1) = j := by
  have hj : (j 0 : Nat) < R := (j 0).isLt
  refine ⟨?_, Shape.idx_ext₂ ?_ h1⟩
  · rw [h0, Nat.add_comm, Nat.add_mul_div_right _ _ hR, Nat.div_eq_of_lt hj, Nat.zero_add]
  · show (i 0).val % R = j 0
    rw [h0, Nat.add_comm, Nat.add_mul_mod_self_right, Nat.mod_eq_of_lt hj]

-- So a function given tile by tile reads, under element `j` of the block at row block index `t`, as tile `t`'s function at `j`.
theorem blk_at (hR : 0 < R) (P : Nat → (⟨2, ![R, C]⟩ : Shape).Idx → α) (t : Nat) (i : (⟨2, ![N, C]⟩ : Shape).Idx)
    (j : (⟨2, ![R, C]⟩ : Shape).Idx) (he : ∀ a, ((i a : Fin _) : Nat) = ix a * (![R, C] : Fin 2 → Nat) a + j a) (h0 : ix 0 = t) (h1 : ix 1 = 0) :
    P ((i 0).val / R) (ix2 (Spec.inTile R hR (i 0)) (i 1)) = P t j := by
  obtain ⟨hq, hi⟩ := tile_idx hR t i j ((he 0).trans (congrArg (· * R + (j 0).val) h0)) ((he 1).trans (by rw [h1]; omega))
  rw [hq]
  exact congrArg (P t) hi

-- Row `r` lies in the row block numbered `r / R`, whose columns are all of them.
theorem mem_rows (hR : 0 < R) (i : (⟨2, ![N, C]⟩ : Shape).Idx) (ix : Fin 2 → Nat) (h0 : ix 0 = (i 0).val / R) (h1 : ix 1 = 0) (a : Fin 2) :
    ix a * (![R, C] : Fin 2 → Nat) a ≤ (i a).val ∧ (i a).val < ix a * (![R, C] : Fin 2 → Nat) a + (![R, C] : Fin 2 → Nat) a := by
  match a with
  | ⟨0, _⟩ =>
    show ix 0 * R ≤ (i 0).val ∧ (i 0).val < ix 0 * R + R
    rw [h0]
    exact ⟨Nat.div_mul_le_self _ _, Nat.lt_div_mul_add hR⟩
  | ⟨1, _⟩ =>
    show ix 1 * C ≤ (i 1).val ∧ (i 1).val < ix 1 * C + C
    rw [h1, Nat.zero_mul, Nat.zero_add]
    exact ⟨Nat.zero_le _, (i 1).isLt⟩

end Cert.KernelIdeal.Hand
-- ==== Proof.Value.R0.lean ====
import proofs.«407199_j78503412236482_3_alg».proof.Proof.Frame.R0
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx0 : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

theorem encBlock0 (c : Dev nD) (t : Fin cfg0.N) :
    (iblk0 V c 0 t : Vec F S80x100 .i32) = Spec.tile2 3040 80 100 (by decide) (V c main_arg4) t.val :=
  have ⟨e0, e1, _⟩ := idx0 t
  blk_tile2 _ t.val (by have := lt_of_lt_of_eq t.isLt N_0; omega) (win0_0.rect t).emb (fun _ => rfl) (win0_0.rect_emb_val t) e0 e1

theorem adjBlock0 (c : Dev nD) (t : Fin cfg0.N) :
    (iblk0 V c 1 t : Vec F S80x100x100 .f32) = Spec.tile3 3040 80 100 100 (by decide) (V c main_arg3) t.val :=
  have ⟨_, _, e0, e1, e2, _⟩ := idx0 t
  blk_tile3 _ t.val (by have := lt_of_lt_of_eq t.isLt N_0; omega) (win0_1.rect t).emb (fun _ => rfl) (win0_1.rect_emb_val t) e0 e1 e2

theorem tokBlock0 (c : Dev nD) (t : Fin cfg0.N) : (iblk0 V c 2 t : Vec F S43x75 .f32) = V c main_arg5 :=
  have ⟨_, _, _, _, _, e0, e1, _⟩ := idx0 t
  blk_whole2 (win0_2.rect t).emb (fun _ => rfl) (win0_2.rect_emb_val t) e0 e1

theorem w1Block0 (c : Dev nD) (t : Fin cfg0.N) :
    (iblk0 V c 3 t : Vec F S80x75x128 .f32) = Spec.tile3 3040 80 75 128 (by decide) (V c main_arg6) t.val :=
  have ⟨_, _, _, _, _, _, _, e0, e1, e2, _⟩ := idx0 t
  blk_tile3 _ t.val (by have := lt_of_lt_of_eq t.isLt N_0; omega) (win0_3.rect t).emb (fun _ => rfl) (win0_3.rect_emb_val t) e0 e1 e2

theorem w2Block0 (c : Dev nD) (t : Fin cfg0.N) :
    (iblk0 V c 4 t : Vec F S80x128x128 .f32) = Spec.tile3 3040 80 128 128 (by decide) (V c main_arg7) t.val :=
  have ⟨_, _, _, _, _, _, _, _, _, _, e0, e1, e2, _⟩ := idx0 t
  blk_tile3 _ t.val (by have := lt_of_lt_of_eq t.isLt N_0; omega) (win0_4.rect t).emb (fun _ => rfl) (win0_4.rect_emb_val t) e0 e1 e2

private theorem zeros2 : (![0, 0] : Fin 2 → Nat) = fun _ => 0 := funext fun a => by fin_cases a <;> rfl
private theorem zeros3 : (![0, 0, 0] : Fin 3 → Nat) = fun _ => 0 := funext fun a => by fin_cases a <;> rfl

-- What a point leaves for the output: the payload on that point's tiles.
theorem embTile_at (c : Dev nD) (t : Fin cfg0.N) :
    (dat0 V c).after 5 t = k0_pay1 (Spec.tile2 3040 80 100 (by decide) (V c main_arg4) t.val) (V c main_arg5)
      (Spec.tile3 3040 80 75 128 (by decide) (V c main_arg6) t.val) (Spec.tile3 3040 80 100 100 (by decide) (V c main_arg3) t.val)
      (Spec.tile3 3040 80 128 128 (by decide) (V c main_arg7) t.val) := by
  rw [after0_5]
  unfold embTile
  rw [View.canon_unit_zero zeros2]
  simp only [View.ld_unit_zero (S := S80x100) zeros2, View.ld_unit_zero (S := S43x75) zeros2,
    View.ld_unit_zero (S := S80x75x128) zeros3, View.ld_unit_zero (S := S80x100x100) zeros3,
    View.ld_unit_zero (S := S80x128x128) zeros3]
  rw [encBlock0, adjBlock0, tokBlock0, w1Block0, w2Block0]

-- If `G` reads under block `t` as `P`, and the point leaves `P`, the point's block is block `t` of `G`.
private theorem flushed_of_pointwise (c : Dev nD) (t : Fin cfg0.N) (G : Vec F S3040x128 .f32) (P : Vec F S80x128 .f32)
    (hafter : (dat0 V c).after 5 t = P) (hG : ∀ j : S80x128.Idx, G (((cfg0.win 5).blk t).view.emb j) = P j) :
    (dat0 V c).flushed 5 t = ((cfg0.win 5).blk t).view.read (Elt F) G := by
  show (cfg0.win 5).cut (grid0.coords t) ((dat0 V c).after 5 t) = _
  rw [hafter]
  funext j
  show P j = G (((cfg0.win 5).blk t).view.emb j)
  exact (hG j).symm

theorem emb_flushed (c : Dev nD) (t : Fin cfg0.N) :
    (dat0 V c).flushed 5 t = ((cfg0.win 5).blk t).view.read (Elt F) (Spec.emb (V c main_arg4) (V c main_arg3) (V c main_arg5) (V c main_arg6) (V c main_arg7)) := by
  have ⟨_, _, _, _, _, _, _, _, _, _, _, _, _, e0, e1⟩ := idx0 t
  refine flushed_of_pointwise V c t _ _ (embTile_at V c t) fun j => ?_
  obtain ⟨hq, hi⟩ := tile_idx (N := 3040) (R := 80) (C := 128) (by decide) t.val (((cfg0.win 5).blk t).view.emb j) j
    (by show win0_5.index t (0 : Fin 2) * 80 + 1 * (j 0).val = _; omega) (by show win0_5.index t (1 : Fin 2) * 128 + 1 * (j 1).val = _; omega)
  unfold Spec.emb
  rw [hq]
  exact congrArg (k0_pay1 _ _ _ _ _) hi

-- The thirty-eight row blocks tile the rows, so the array ends at the specification's.
theorem final0_5 (c : Dev nD) : (dat0 V c).arrAt 5 cfg0.N = Spec.emb (V c main_arg4) (V c main_arg3) (V c main_arg5) (V c main_arg6) (V c main_arg7) :=
  (dat0 V c).arrAt_eq_of_cover 5 _ (fun t _ => emb_flushed V c t) fun i => by
    have hi : (i 0 : Nat) < 3040 := (i 0).isLt
    have ht : (i 0 : Nat) / 80 < cfg0.N := lt_of_lt_of_eq (by omega) N_0.symm
    have ⟨_, _, _, _, _, _, _, _, _, _, _, _, _, e0, e1⟩ := idx0 ⟨_, ht⟩
    refine ⟨⟨_, ht⟩, flush0_5 _, ?_⟩
    show i ∈ ((View.whole main_v0).slice (win0_5.rect ⟨_, ht⟩)).set
    rw [View.set_slice_whole, Rect.mem_set_unit]
    exact mem_rows (R := 80) (C := 128) (by decide) i _ e0 e1

end Cert.KernelIdeal.Hand

end
-- ==== Proof.Value.R1.lean ====
import proofs.«407199_j78503412236482_3_alg».proof.Proof.Frame.R1
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem staged1_0_eq (c : Dev nD) (t : Fin cfg1.N) :
    staged1 V c 0 t = Spec.tile2 3040 152 384 (by decide) (V c main_arg0) t.val :=
  have ⟨e0, e1, _⟩ := idx1 t
  blk_tile2 _ t.val (by have := lt_of_lt_of_eq t.isLt N_1; omega) (win1_0.rect t).emb (fun _ => rfl) (win1_0.rect_emb_val t) e0 e1

theorem staged1_1_eq (c : Dev nD) (t : Fin cfg1.N) :
    staged1 V c 1 t = Spec.tile2 3040 152 128 (by decide) (V c main_v0) t.val :=
  have ⟨_, _, e0, e1, _⟩ := idx1 t
  blk_tile2 _ t.val (by have := lt_of_lt_of_eq t.isLt N_1; omega) (win1_1.rect t).emb (fun _ => rfl) (win1_1.rect_emb_val t) e0 e1

theorem staged1_2_eq (c : Dev nD) (t : Fin cfg1.N) : staged1 V c 2 t = V c main_v1 :=
  have ⟨_, _, _, _, e0, e1, _⟩ := idx1 t
  blk_whole2 (win1_2.rect t).emb (fun _ => rfl) (win1_2.rect_emb_val t) e0 e1

theorem staged1_3_eq (c : Dev nD) (t : Fin cfg1.N) : staged1 V c 3 t = V c main_v2 :=
  have ⟨_, _, _, _, _, _, e0, e1, _⟩ := idx1 t
  blk_whole2 (win1_3.rect t).emb (fun _ => rfl) (win1_3.rect_emb_val t) e0 e1

theorem staged1_4_eq (c : Dev nD) (t : Fin cfg1.N) : staged1 V c 4 t = V c main_v3 :=
  have ⟨_, _, _, _, _, _, _, _, e0, e1, _⟩ := idx1 t
  blk_whole2 (win1_4.rect t).emb (fun _ => rfl) (win1_4.rect_emb_val t) e0 e1

theorem staged1_5_eq (c : Dev nD) (t : Fin cfg1.N) : staged1 V c 5 t = V c main_v4 :=
  have ⟨_, _, _, _, _, _, _, _, _, _, e0, e1, _⟩ := idx1 t
  blk_whole2 (win1_5.rect t).emb (fun _ => rfl) (win1_5.rect_emb_val t) e0 e1

-- What a point writes back is its block of the specification's array.
theorem flushed1_6_eq (c : Dev nD) (t : Fin cfg1.N) :
    (dat1 V c).flushed 6 t = ((cfg1.win 6).blk t).view.read (Elt F) (Spec.projP (V c main_arg0) (V c main_v0) (V c main_v1) (V c main_v2)) := by
  have ⟨_, _, _, _, _, _, _, _, _, _, _, _, e0, e1, _⟩ := idx1 t
  show (cfg1.win 6).cut (grid1.coords t) ((dat1 V c).after 6 t) = _
  rw [after1_6, staged1_0_eq, staged1_1_eq, staged1_2_eq, staged1_3_eq]
  funext j
  exact Eq.symm (blk_at (by decide) (fun s => k1_pay3 (Spec.tile2 3040 152 384 (by decide) (V c main_arg0) s) (Spec.tile2 3040 152 128 (by decide) (V c main_v0) s) _ _) t.val _ j (win1_6.rect_emb_val t j) e0 e1)

theorem flushed1_7_eq (c : Dev nD) (t : Fin cfg1.N) :
    (dat1 V c).flushed 7 t = ((cfg1.win 7).blk t).view.read (Elt F) (Spec.projN (V c main_arg0) (V c main_v0) (V c main_v3) (V c main_v4)) := by
  have ⟨_, _, _, _, _, _, _, _, _, _, _, _, _, _, e0, e1⟩ := idx1 t
  show (cfg1.win 7).cut (grid1.coords t) ((dat1 V c).after 7 t) = _
  rw [after1_7, staged1_0_eq, staged1_1_eq, staged1_4_eq, staged1_5_eq]
  funext j
  exact Eq.symm (blk_at (by decide) (fun s => k1_pay4 (Spec.tile2 3040 152 384 (by decide) (V c main_arg0) s) (Spec.tile2 3040 152 128 (by decide) (V c main_v0) s) _ _) t.val _ j (win1_7.rect_emb_val t j) e0 e1)

-- The twenty row blocks tile the rows, so each array ends at the specification's.
theorem final1_6 (c : Dev nD) : (dat1 V c).arrAt 6 cfg1.N = Spec.projP (V c main_arg0) (V c main_v0) (V c main_v1) (V c main_v2) :=
  (dat1 V c).arrAt_eq_of_cover 6 _ (fun t _ => flushed1_6_eq V c t) fun i => by
    have hi : (i 0 : Nat) < 3040 := (i 0).isLt
    have ht : (i 0 : Nat) / 152 < cfg1.N := lt_of_lt_of_eq (by omega) N_1.symm
    have ⟨_, _, _, _, _, _, _, _, _, _, _, _, e0, e1, _⟩ := idx1 ⟨_, ht⟩
    refine ⟨⟨_, ht⟩, flush1_6 _, ?_⟩
    show i ∈ ((View.whole main_v5_0).slice (win1_6.rect ⟨_, ht⟩)).set
    rw [View.set_slice_whole, Rect.mem_set_unit]
    exact mem_rows (R := 152) (C := 256) (by decide) i _ e0 e1

theorem final1_7 (c : Dev nD) : (dat1 V c).arrAt 7 cfg1.N = Spec.projN (V c main_arg0) (V c main_v0) (V c main_v3) (V c main_v4) :=
  (dat1 V c).arrAt_eq_of_cover 7 _ (fun t _ => flushed1_7_eq V c t) fun i => by
    have hi : (i 0 : Nat) < 3040 := (i 0).isLt
    have ht : (i 0 : Nat) / 152 < cfg1.N := lt_of_lt_of_eq (by omega) N_1.symm
    have ⟨_, _, _, _, _, _, _, _, _, _, _, _, _, _, e0, e1⟩ := idx1 ⟨_, ht⟩
    refine ⟨⟨_, ht⟩, flush1_7 _, ?_⟩
    show i ∈ ((View.whole main_v5_1).slice (win1_7.rect ⟨_, ht⟩)).set
    rw [View.set_slice_whole, Rect.mem_set_unit]
    exact mem_rows (R := 152) (C := 256) (by decide) i _ e0 e1

end Cert.KernelIdeal.Hand

end
-- ==== Proof.Value.R2.lean ====
import proofs.«407199_j78503412236482_3_alg».proof.Proof.Frame.R2
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem resident2_1 (c : Dev nD) (t : Fin cfg2.N) : (iblk2 V c 1 t : Vec F S3040x256 .f32) = V c main_v5_0 :=
  have ⟨_, _, e0, e1, _⟩ := idx2 t
  blk_whole2 (win2_1.rect t).emb (fun _ => rfl) (win2_1.rect_emb_val t) e0 e1

theorem resident2_2 (c : Dev nD) (t : Fin cfg2.N) : (iblk2 V c 2 t : Vec F S256x256 .f32) = V c main_arg9 :=
  have ⟨_, _, _, _, e0, e1, _⟩ := idx2 t
  blk_whole2 (win2_2.rect t).emb (fun _ => rfl) (win2_2.rect_emb_val t) e0 e1

theorem rows2 (c : Dev nD) (t : Fin cfg2.N) :
    (iblk2 V c 0 t : Vec F S304x3040 .f32) = Spec.tile2 3040 304 3040 (by decide) (V c main_arg1) t.val :=
  have ⟨e0, e1, _⟩ := idx2 t
  blk_tile2 _ t.val (by have := lt_of_lt_of_eq t.isLt N_2; omega) (win2_0.rect t).emb (fun _ => rfl) (win2_0.rect_emb_val t) e0 e1

-- What a point writes back is its block of the specification's array.
theorem written2_3 (c : Dev nD) (t : Fin cfg2.N) :
    (dat2 V c).flushed 3 t = ((cfg2.win 3).blk t).view.read (Elt F) (Spec.adjRelu2 (V c main_arg1) (V c main_v5_0) (V c main_arg9)) := by
  have ⟨_, _, _, _, _, _, e0, e1⟩ := idx2 t
  show (cfg2.win 3).cut (grid2.coords t) ((dat2 V c).after 3 t) = _
  rw [after2_3, resident2_1, resident2_2, rows2]
  funext j
  exact Eq.symm (blk_at (by decide) (fun s => k2_pay3 (Spec.tile2 3040 304 3040 (by decide) (V c main_arg1) s) _ _) t.val _ j (win2_3.rect_emb_val t j) e0 e1)

-- The ten row blocks tile the rows, so the array ends at the specification's.
theorem final2_3 (c : Dev nD) : (dat2 V c).arrAt 3 cfg2.N = Spec.adjRelu2 (V c main_arg1) (V c main_v5_0) (V c main_arg9) :=
  (dat2 V c).arrAt_eq_of_cover 3 _ (fun t _ => written2_3 V c t) fun i => by
    have hi : (i 0 : Nat) < 3040 := (i 0).isLt
    have ht : (i 0 : Nat) / 304 < cfg2.N := lt_of_lt_of_eq (by omega) N_2.symm
    have ⟨_, _, _, _, _, _, e0, e1⟩ := idx2 ⟨_, ht⟩
    refine ⟨⟨_, ht⟩, flush2_3 _, ?_⟩
    show i ∈ ((View.whole main_v6).slice (win2_3.rect ⟨_, ht⟩)).set
    rw [View.set_slice_whole, Rect.mem_set_unit]
    exact mem_rows (R := 304) (C := 256) (by decide) i _ e0 e1

end Cert.KernelIdeal.Hand

end
-- ==== Proof.Value.R3.lean ====
import proofs.«407199_j78503412236482_3_alg».proof.Proof.Frame.R3
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rows3 (c : Dev nD) (t : Fin cfg3.N) :
    (iblk3 V c 0 t : Vec F S304x3040 .f32) = Spec.tile2 3040 304 3040 (by decide) (V c main_arg1) t.val :=
  have ⟨e0, e1, _⟩ := idx3 t
  blk_tile2 _ t.val (by have := lt_of_lt_of_eq t.isLt N_3; omega) (win3_0.rect t).emb (fun _ => rfl) (win3_0.rect_emb_val t) e0 e1

theorem resident3 (c : Dev nD) (t : Fin cfg3.N) : (iblk3 V c 1 t : Vec F S3040x256 .f32) = V c main_v6 :=
  have ⟨_, _, e0, e1, _⟩ := idx3 t
  blk_whole2 (win3_1.rect t).emb (fun _ => rfl) (win3_1.rect_emb_val t) e0 e1

-- What a point writes back is its block of the specification's array.
theorem flushed_eq3 (c : Dev nD) (t : Fin cfg3.N) :
    (dat3 V c).flushed 2 t = ((cfg3.win 2).blk t).view.read (Elt F) (Spec.adjMul3 (V c main_arg1) (V c main_v6)) := by
  have ⟨_, _, _, _, e0, e1⟩ := idx3 t
  show (cfg3.win 2).cut (grid3.coords t) ((dat3 V c).after 2 t) = _
  rw [after3_2, rows3, resident3]
  funext j
  exact Eq.symm (blk_at (by decide) (fun s => k3_pay2 (Spec.tile2 3040 304 3040 (by decide) (V c main_arg1) s) _) t.val _ j (win3_2.rect_emb_val t j) e0 e1)

-- The ten row blocks tile the rows, so the array ends at the specification's.
theorem final3_2 (c : Dev nD) : (dat3 V c).arrAt 2 cfg3.N = Spec.adjMul3 (V c main_arg1) (V c main_v6) :=
  (dat3 V c).arrAt_eq_of_cover 2 _ (fun t _ => flushed_eq3 V c t) fun i => by
    have hi : (i 0 : Nat) < 3040 := (i 0).isLt
    have ht : (i 0 : Nat) / 304 < cfg3.N := lt_of_lt_of_eq (by omega) N_3.symm
    have ⟨_, _, _, _, e0, e1⟩ := idx3 ⟨_, ht⟩
    refine ⟨⟨_, ht⟩, flush3_2 _, ?_⟩
    show i ∈ ((View.whole main_v7).slice (win3_2.rect ⟨_, ht⟩)).set
    rw [View.set_slice_whole, Rect.mem_set_unit]
    exact mem_rows (R := 304) (C := 256) (by decide) i _ e0 e1

end Cert.KernelIdeal.Hand

end
-- ==== Proof.Value.R4.lean ====
import proofs.«407199_j78503412236482_3_alg».proof.Proof.Frame.R4
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem resident4_1 (c : Dev nD) (t : Fin cfg4.N) : (iblk4 V c 1 t : Vec F S3040x256 .f32) = V c main_v5_1 :=
  have ⟨_, _, e0, e1, _⟩ := idx4 t
  blk_whole2 (win4_1.rect t).emb (fun _ => rfl) (win4_1.rect_emb_val t) e0 e1

theorem resident4_2 (c : Dev nD) (t : Fin cfg4.N) : (iblk4 V c 2 t : Vec F S256x256 .f32) = V c main_arg11 :=
  have ⟨_, _, _, _, e0, e1, _⟩ := idx4 t
  blk_whole2 (win4_2.rect t).emb (fun _ => rfl) (win4_2.rect_emb_val t) e0 e1

theorem rows4 (c : Dev nD) (t : Fin cfg4.N) :
    (iblk4 V c 0 t : Vec F S304x3040 .f32) = Spec.tile2 3040 304 3040 (by decide) (V c main_arg2) t.val :=
  have ⟨e0, e1, _⟩ := idx4 t
  blk_tile2 _ t.val (by have := lt_of_lt_of_eq t.isLt N_4; omega) (win4_0.rect t).emb (fun _ => rfl) (win4_0.rect_emb_val t) e0 e1

theorem written4_3 (c : Dev nD) (t : Fin cfg4.N) :
    (dat4 V c).flushed 3 t = ((cfg4.win 3).blk t).view.read (Elt F) (Spec.adjRelu4 (V c main_arg2) (V c main_v5_1) (V c main_arg11)) := by
  have ⟨_, _, _, _, _, _, e0, e1⟩ := idx4 t
  show (cfg4.win 3).cut (grid4.coords t) ((dat4 V c).after 3 t) = _
  rw [after4_3, resident4_1, resident4_2, rows4]
  funext j
  exact Eq.symm (blk_at (by decide) (fun s => k4_pay3 (Spec.tile2 3040 304 3040 (by decide) (V c main_arg2) s) _ _) t.val _ j (win4_3.rect_emb_val t j) e0 e1)

theorem final4_3 (c : Dev nD) : (dat4 V c).arrAt 3 cfg4.N = Spec.adjRelu4 (V c main_arg2) (V c main_v5_1) (V c main_arg11) :=
  (dat4 V c).arrAt_eq_of_cover 3 _ (fun t _ => written4_3 V c t) fun i => by
    have hi : (i 0 : Nat) < 3040 := (i 0).isLt
    have ht : (i 0 : Nat) / 304 < cfg4.N := lt_of_lt_of_eq (by omega) N_4.symm
    have ⟨_, _, _, _, _, _, e0, e1⟩ := idx4 ⟨_, ht⟩
    refine ⟨⟨_, ht⟩, flush4_3 _, ?_⟩
    show i ∈ ((View.whole main_v8).slice (win4_3.rect ⟨_, ht⟩)).set
    rw [View.set_slice_whole, Rect.mem_set_unit]
    exact mem_rows (R := 304) (C := 256) (by decide) i _ e0 e1

end Cert.KernelIdeal.Hand

end
-- ==== Proof.Value.R5.lean ====
import proofs.«407199_j78503412236482_3_alg».proof.Proof.Frame.R5
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem rows5 (c : Dev nD) (t : Fin cfg5.N) :
    (iblk5 V c 0 t : Vec F S304x3040 .f32) = Spec.tile2 3040 304 3040 (by decide) (V c main_arg2) t.val :=
  have ⟨e0, e1, _⟩ := idx5 t
  blk_tile2 _ t.val (by have := lt_of_lt_of_eq t.isLt N_5; omega) (win5_0.rect t).emb (fun _ => rfl) (win5_0.rect_emb_val t) e0 e1

theorem resident5 (c : Dev nD) (t : Fin cfg5.N) : (iblk5 V c 1 t : Vec F S3040x256 .f32) = V c main_v8 :=
  have ⟨_, _, e0, e1, _⟩ := idx5 t
  blk_whole2 (win5_1.rect t).emb (fun _ => rfl) (win5_1.rect_emb_val t) e0 e1

theorem flushed_eq5 (c : Dev nD) (t : Fin cfg5.N) :
    (dat5 V c).flushed 2 t = ((cfg5.win 2).blk t).view.read (Elt F) (Spec.adjMul5 (V c main_arg2) (V c main_v8)) := by
  have ⟨_, _, _, _, e0, e1⟩ := idx5 t
  show (cfg5.win 2).cut (grid5.coords t) ((dat5 V c).after 2 t) = _
  rw [after5_2, rows5, resident5]
  funext j
  exact Eq.symm (blk_at (by decide) (fun s => k5_pay2 (Spec.tile2 3040 304 3040 (by decide) (V c main_arg2) s) _) t.val _ j (win5_2.rect_emb_val t j) e0 e1)

theorem final5_2 (c : Dev nD) : (dat5 V c).arrAt 2 cfg5.N = Spec.adjMul5 (V c main_arg2) (V c main_v8) :=
  (dat5 V c).arrAt_eq_of_cover 2 _ (fun t _ => flushed_eq5 V c t) fun i => by
    have hi : (i 0 : Nat) < 3040 := (i 0).isLt
    have ht : (i 0 : Nat) / 304 < cfg5.N := lt_of_lt_of_eq (by omega) N_5.symm
    have ⟨_, _, _, _, e0, e1⟩ := idx5 ⟨_, ht⟩
    refine ⟨⟨_, ht⟩, flush5_2 _, ?_⟩
    show i ∈ ((View.whole main_v9).slice (win5_2.rect ⟨_, ht⟩)).set
    rw [View.set_slice_whole, Rect.mem_set_unit]
    exact mem_rows (R := 304) (C := 256) (by decide) i _ e0 e1

end Cert.KernelIdeal.Hand

end
-- ==== Proof.Value.R6.lean ====
import proofs.«407199_j78503412236482_3_alg».proof.Proof.Frame.R6
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0
    ∧ win6_8.index t (0 : Fin 2) = t.val ∧ win6_8.index t (1 : Fin 2) = 0 :=
  (by decide +kernel : ∀ t : Fin grid6.N, _)

theorem zpBlock6 (c : Dev nD) (t : Fin cfg6.N) :
    (iblk6 V c 0 t : Vec F S152x256 .f32) = Spec.tile2 3040 152 256 (by decide) (V c main_v7) t.val :=
  have ⟨e0, e1, _⟩ := idx6 t
  blk_tile2 _ t.val (by have := lt_of_lt_of_eq t.isLt N_6; omega) (win6_0.rect t).emb (fun _ => rfl) (win6_0.rect_emb_val t) e0 e1

theorem znBlock6 (c : Dev nD) (t : Fin cfg6.N) :
    (iblk6 V c 1 t : Vec F S152x256 .f32) = Spec.tile2 3040 152 256 (by decide) (V c main_v9) t.val :=
  have ⟨_, _, e0, e1, _⟩ := idx6 t
  blk_tile2 _ t.val (by have := lt_of_lt_of_eq t.isLt N_6; omega) (win6_1.rect t).emb (fun _ => rfl) (win6_1.rect_emb_val t) e0 e1

theorem d1pBlock6 (c : Dev nD) (t : Fin cfg6.N) : (iblk6 V c 2 t : Vec F S256x256 .f32) = V c main_v10 :=
  have ⟨_, _, _, _, e0, e1, _⟩ := idx6 t
  blk_whole2 (win6_2.rect t).emb (fun _ => rfl) (win6_2.rect_emb_val t) e0 e1

theorem d1nBlock6 (c : Dev nD) (t : Fin cfg6.N) : (iblk6 V c 3 t : Vec F S256x256 .f32) = V c main_v11 :=
  have ⟨_, _, _, _, _, _, e0, e1, _⟩ := idx6 t
  blk_whole2 (win6_3.rect t).emb (fun _ => rfl) (win6_3.rect_emb_val t) e0 e1

theorem d2Block6 (c : Dev nD) (t : Fin cfg6.N) : (iblk6 V c 4 t : Vec F S256x512 .f32) = V c main_arg13 :=
  have ⟨_, _, _, _, _, _, _, _, e0, e1, _⟩ := idx6 t
  blk_whole2 (win6_4.rect t).emb (fun _ => rfl) (win6_4.rect_emb_val t) e0 e1

theorem d3Block6 (c : Dev nD) (t : Fin cfg6.N) : (iblk6 V c 5 t : Vec F S512x256 .f32) = V c main_arg14 :=
  have ⟨_, _, _, _, _, _, _, _, _, _, e0, e1, _⟩ := idx6 t
  blk_whole2 (win6_5.rect t).emb (fun _ => rfl) (win6_5.rect_emb_val t) e0 e1

theorem decBlock6 (c : Dev nD) (t : Fin cfg6.N) : (iblk6 V c 6 t : Vec F S256x256 .f32) = V c main_arg15 :=
  have ⟨_, _, _, _, _, _, _, _, _, _, _, _, e0, e1, _⟩ := idx6 t
  blk_whole2 (win6_6.rect t).emb (fun _ => rfl) (win6_6.rect_emb_val t) e0 e1

-- What a point writes back is its block of the specification's array.
theorem tailZ_flushed (c : Dev nD) (t : Fin cfg6.N) :
    (dat6 V c).flushed 7 t = ((cfg6.win 7).blk t).view.read (Elt F) (Spec.tailZ (V c main_v7) (V c main_v9) (V c main_v10) (V c main_v11) (V c main_arg13) (V c main_arg14)) := by
  have ⟨_, _, _, _, _, _, _, _, _, _, _, _, _, _, e0, e1, _⟩ := idx6 t
  show (cfg6.win 7).cut (grid6.coords t) ((dat6 V c).after 7 t) = _
  rw [after6_7, sc6_0, sc6_1, sc6_2, sc6_3, zpBlock6, znBlock6, d1pBlock6, d1nBlock6, d2Block6, d3Block6]
  funext j
  exact Eq.symm (blk_at (by decide) (fun s => k6_pay6 (Spec.tile2 3040 152 256 (by decide) (V c main_v7) s) (Spec.tile2 3040 152 256 (by decide) (V c main_v9) s) _ _ _ _) t.val _ j (win6_7.rect_emb_val t j) e0 e1)

theorem tailDec_flushed (c : Dev nD) (t : Fin cfg6.N) :
    (dat6 V c).flushed 8 t = ((cfg6.win 8).blk t).view.read (Elt F) (Spec.tailDec (V c main_v7) (V c main_v9) (V c main_v10) (V c main_v11) (V c main_arg13) (V c main_arg14) (V c main_arg15)) := by
  have ⟨_, _, _, _, _, _, _, _, _, _, _, _, _, _, _, _, e0, e1⟩ := idx6 t
  show (cfg6.win 8).cut (grid6.coords t) ((dat6 V c).after 8 t) = _
  rw [after6_8, sc6_0, sc6_1, sc6_2, sc6_3, sc6_4, zpBlock6, znBlock6, d1pBlock6, d1nBlock6, d2Block6, d3Block6, decBlock6]
  funext j
  exact Eq.symm (blk_at (by decide) (fun s => k6_pay7 (Spec.tile2 3040 152 256 (by decide) (V c main_v7) s) (Spec.tile2 3040 152 256 (by decide) (V c main_v9) s) _ _ _ _ _) t.val _ j (win6_8.rect_emb_val t j) e0 e1)

-- The twenty row blocks tile the rows, so each array ends at the specification's.
theorem final6_7 (c : Dev nD) : (dat6 V c).arrAt 7 cfg6.N = Spec.tailZ (V c main_v7) (V c main_v9) (V c main_v10) (V c main_v11) (V c main_arg13) (V c main_arg14) :=
  (dat6 V c).arrAt_eq_of_cover 7 _ (fun t _ => tailZ_flushed V c t) fun i => by
    have hi : (i 0 : Nat) < 3040 := (i 0).isLt
    have ht : (i 0 : Nat) / 152 < cfg6.N := lt_of_lt_of_eq (by omega) N_6.symm
    have ⟨_, _, _, _, _, _, _, _, _, _, _, _, _, _, e0, e1, _⟩ := idx6 ⟨_, ht⟩
    refine ⟨⟨_, ht⟩, flush6_7 _, ?_⟩
    show i ∈ ((View.whole main_v12_0).slice (win6_7.rect ⟨_, ht⟩)).set
    rw [View.set_slice_whole, Rect.mem_set_unit]
    exact mem_rows (R := 152) (C := 256) (by decide) i _ e0 e1

theorem final6_8 (c : Dev nD) : (dat6 V c).arrAt 8 cfg6.N = Spec.tailDec (V c main_v7) (V c main_v9) (V c main_v10) (V c main_v11) (V c main_arg13) (V c main_arg14) (V c main_arg15) :=
  (dat6 V c).arrAt_eq_of_cover 8 _ (fun t _ => tailDec_flushed V c t) fun i => by
    have hi : (i 0 : Nat) < 3040 := (i 0).isLt
    have ht : (i 0 : Nat) / 152 < cfg6.N := lt_of_lt_of_eq (by omega) N_6.symm
    have ⟨_, _, _, _, _, _, _, _, _, _, _, _, _, _, _, _, e0, e1⟩ := idx6 ⟨_, ht⟩
    refine ⟨⟨_, ht⟩, flush6_8 _, ?_⟩
    show i ∈ ((View.whole main_v12_1).slice (win6_8.rect ⟨_, ht⟩)).set
    rw [View.set_slice_whole, Rect.mem_set_unit]
    exact mem_rows (R := 152) (C := 256) (by decide) i _ e0 e1

end Cert.KernelIdeal.Hand

end
-- ==== Proof.Value.R7.lean ====
import proofs.«407199_j78503412236482_3_alg».proof.Proof.Frame.R7
import proofs.«407199_j78503412236482_3_alg».proof.Proof.Value.Tile

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem index7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem iblk7_0_eq (c : Dev nD) (t : Fin cfg7.N) :
    (iblk7 V c 0 t : Vec F S304x256 .f32) = Spec.tile2 3040 304 256 (by decide) (V c main_v12_1) t.val :=
  have ⟨e0, e1, _⟩ := index7 t
  blk_tile2 _ t.val (by have := lt_of_lt_of_eq t.isLt N_7; omega) (win7_0.rect t).emb (fun _ => rfl) (win7_0.rect_emb_val t) e0 e1

theorem iblk7_1_eq (c : Dev nD) (t : Fin cfg7.N) : (iblk7 V c 1 t : Vec F S3040x256 .f32) = V c main_v12_0 :=
  have ⟨_, _, e0, e1, _⟩ := index7 t
  blk_whole2 (win7_1.rect t).emb (fun _ => rfl) (win7_1.rect_emb_val t) e0 e1

-- What a point writes back is its block of the specification's array.
theorem flushed7_2_eq (c : Dev nD) (t : Fin cfg7.N) :
    (dat7 V c).flushed 2 t = ((cfg7.win 2).blk t).view.read (Elt F) (Spec.mulT (V c main_v12_1) (V c main_v12_0)) := by
  have ⟨_, _, _, _, e0, e1⟩ := index7 t
  show (cfg7.win 2).cut (grid7.coords t) ((dat7 V c).after 2 t) = _
  rw [after7_2, carried7, iblk7_1_eq, iblk7_0_eq]
  funext j
  exact Eq.symm (blk_at (by decide) (fun s => k7_pay2 (Spec.tile2 3040 304 256 (by decide) (V c main_v12_1) s) _) t.val _ j (win7_2.rect_emb_val t j) e0 e1)

-- The ten row blocks tile the rows, so the array ends at the specification's.
theorem final7_2 (c : Dev nD) : (dat7 V c).arrAt 2 cfg7.N = Spec.mulT (V c main_v12_1) (V c main_v12_0) :=
  (dat7 V c).arrAt_eq_of_cover 2 _ (fun t _ => flushed7_2_eq V c t) fun i => by
    have hi : (i 0 : Nat) < 3040 := (i 0).isLt
    have ht : (i 0 : Nat) / 304 < cfg7.N := lt_of_lt_of_eq (by omega) N_7.symm
    have ⟨_, _, _, _, e0, e1⟩ := index7 ⟨_, ht⟩
    refine ⟨⟨_, ht⟩, flush7_2 _, ?_⟩
    show i ∈ ((View.whole main_v13).slice (win7_2.rect ⟨_, ht⟩)).set
    rw [View.set_slice_whole, Rect.mem_set_unit]
    exact mem_rows (R := 304) (C := 3040) (by decide) i _ e0 e1

end Cert.KernelIdeal.Hand

end
-- ==== Proof.Value.Result.lean ====
import proofs.«407199_j78503412236482_3_alg».proof.Proof.Frame.Vals
import proofs.«407199_j78503412236482_3_alg».proof.Proof.Value.R0
import proofs.«407199_j78503412236482_3_alg».proof.Proof.Value.R1
import proofs.«407199_j78503412236482_3_alg».proof.Proof.Value.R2
import proofs.«407199_j78503412236482_3_alg».proof.Proof.Value.R3
import proofs.«407199_j78503412236482_3_alg».proof.Proof.Value.R4
import proofs.«407199_j78503412236482_3_alg».proof.Proof.Value.R5
import proofs.«407199_j78503412236482_3_alg».proof.Proof.Value.R6
import proofs.«407199_j78503412236482_3_alg».proof.Proof.Value.R7

set_option maxRecDepth 16384

noncomputable section

namespace Cert.KernelIdeal.Hand

open Idealize.ShloMosaic Idealize.ShloMosaic.TcCoe
open Cert.KernelIdeal Cert.KernelIdeal.Gen

variable {F : FTy → Type} [FloatOps F]

variable (m : (ℓ : Loc nD τ sig) → Buf (Elt F) ℓ)

theorem U2_of (c : Dev nD) (r : Ref sig .tc) (h : r ∉ (hostOps1_W : List (Ref sig .tc))) : U2 m c r = U1 m c r := by
  rw [← V2_eq, ← V1_eq]; exact V2_of m (outs m) c r h
theorem U8_of (c : Dev nD) (r : Ref sig .tc) (h : r ∉ (hostOps6_W : List (Ref sig .tc))) : U8 m c r = U7 m c r := by
  rw [← V8_eq, ← V7_eq]; exact V8_of m (outs m) c r h

-- An array of the program's entry.
abbrev arg (c : Dev nD) (r : Ref sig .tc) := m ((c.tc : Thread nD τ).loc r)

-- No item up to the second host stretch writes `r`.
abbrev Kept (r : Ref sig .tc) : Prop :=
  r ∉ ([main_v0] : List (Ref sig .tc)) ∧ r ∉ (hostOps1_W : List (Ref sig .tc)) ∧ r ∉ ([main_v5_0, main_v5_1] : List (Ref sig .tc))
    ∧ r ∉ ([main_v6] : List (Ref sig .tc)) ∧ r ∉ ([main_v7] : List (Ref sig .tc)) ∧ r ∉ ([main_v8] : List (Ref sig .tc))
    ∧ r ∉ ([main_v9] : List (Ref sig .tc)) ∧ r ∉ (hostOps6_W : List (Ref sig .tc))

-- Such an array is, after each item, what it was at entry.
theorem keep1 (c : Dev nD) (r : Ref sig .tc) (h : Kept r) : U1 m c r = V0 m c r := U1_of m c r h.1
theorem keep2 (c : Dev nD) (r : Ref sig .tc) (h : Kept r) : U2 m c r = V0 m c r := (U2_of m c r h.2.1).trans (keep1 m c r h)
theorem keep3 (c : Dev nD) (r : Ref sig .tc) (h : Kept r) : U3 m c r = V0 m c r := (U3_of m c r h.2.2.1).trans (keep2 m c r h)
theorem keep4 (c : Dev nD) (r : Ref sig .tc) (h : Kept r) : U4 m c r = V0 m c r := (U4_of m c r h.2.2.2.1).trans (keep3 m c r h)
theorem keep5 (c : Dev nD) (r : Ref sig .tc) (h : Kept r) : U5 m c r = V0 m c r := (U5_of m c r h.2.2.2.2.1).trans (keep4 m c r h)
theorem keep6 (c : Dev nD) (r : Ref sig .tc) (h : Kept r) : U6 m c r = V0 m c r := (U6_of m c r h.2.2.2.2.2.1).trans (keep5 m c r h)
theorem keep7 (c : Dev nD) (r : Ref sig .tc) (h : Kept r) : U7 m c r = V0 m c r := (U7_of m c r h.2.2.2.2.2.2.1).trans (keep6 m c r h)
theorem keep8 (c : Dev nD) (r : Ref sig .tc) (h : Kept r) : U8 m c r = V0 m c r := (U8_of m c r h.2.2.2.2.2.2.2).trans (keep7 m c r h)

theorem val_v1 (c : Dev nD) : U2 m c main_v1 = extractStridedSlice S384x256 ![0, 0] (arg m c main_arg8) slices_S512x256_S384x256_0_0 := by
  unfold U2 hostOps1
  simp only [StableHlo.after_cons, StableHlo.after_nil]
  rw [StableHlo.unary_result_ne (h := (by decide : main_v1 ≠ main_v4)), StableHlo.unary_result_ne (h := (by decide : main_v1 ≠ main_v3)),
    StableHlo.unary_result_ne (h := (by decide : main_v1 ≠ main_v2)), StableHlo.unary_result, keep1 m c main_arg8 (by decide)]

theorem val_v2 (c : Dev nD) : U2 m c main_v2 = extractStridedSlice S128x256 ![384, 0] (arg m c main_arg8) slices_S512x256_S128x256_384_0 := by
  unfold U2 hostOps1
  simp only [StableHlo.after_cons, StableHlo.after_nil]
  rw [StableHlo.unary_result_ne (h := (by decide : main_v2 ≠ main_v4)), StableHlo.unary_result_ne (h := (by decide : main_v2 ≠ main_v3)),
    StableHlo.unary_result, StableHlo.unary_result_ne (h := (by decide : main_arg8 ≠ main_v1)), keep1 m c main_arg8 (by decide)]

theorem val_v3 (c : Dev nD) : U2 m c main_v3 = extractStridedSlice S384x256 ![0, 0] (arg m c main_arg10) slices_S512x256_S384x256_0_0 := by
  unfold U2 hostOps1
  simp only [StableHlo.after_cons, StableHlo.after_nil]
  rw [StableHlo.unary_result_ne (h := (by decide : main_v3 ≠ main_v4)), StableHlo.unary_result,
    StableHlo.unary_result_ne (h := (by decide : main_arg10 ≠ main_v2)), StableHlo.unary_result_ne (h := (by decide : main_arg10 ≠ main_v1)),
    keep1 m c main_arg10 (by decide)]

theorem val_v4 (c : Dev nD) : U2 m c main_v4 = extractStridedSlice S128x256 ![384, 0] (arg m c main_arg10) slices_S512x256_S128x256_384_0 := by
  unfold U2 hostOps1
  simp only [StableHlo.after_cons, StableHlo.after_nil]
  rw [StableHlo.unary_result, StableHlo.unary_result_ne (h := (by decide : main_arg10 ≠ main_v3)),
    StableHlo.unary_result_ne (h := (by decide : main_arg10 ≠ main_v2)), StableHlo.unary_result_ne (h := (by decide : main_arg10 ≠ main_v1)),
    keep1 m c main_arg10 (by decide)]

theorem val_v10 (c : Dev nD) : U8 m c main_v10 = extractStridedSlice S256x256 ![0, 0] (arg m c main_arg12) slices_S512x256_S256x256_0_0 := by
  unfold U8 hostOps6
  simp only [StableHlo.after_cons, StableHlo.after_nil]
  rw [StableHlo.unary_result_ne (h := (by decide : main_v10 ≠ main_v11)), StableHlo.unary_result, keep7 m c main_arg12 (by decide)]

theorem val_v11 (c : Dev nD) : U8 m c main_v11 = extractStridedSlice S256x256 ![256, 0] (arg m c main_arg12) slices_S512x256_S256x256_256_0 := by
  unfold U8 hostOps6
  simp only [StableHlo.after_cons, StableHlo.after_nil]
  rw [StableHlo.unary_result, StableHlo.unary_result_ne (h := (by decide : main_arg12 ≠ main_v10)), keep7 m c main_arg12 (by decide)]

-- Each launch's output, as the specification's function of the arrays it is entered with.
theorem val_v0 (c : Dev nD) : U1 m c main_v0 = Spec.emb (arg m c main_arg4) (arg m c main_arg3) (arg m c main_arg5) (arg m c main_arg6) (arg m c main_arg7) :=
  (U1_out m c).trans (final0_5 (atTc (V0 m)) c)

theorem val_v5_0 (c : Dev nD) : U3 m c main_v5_0 = Spec.projP (U2 m c main_arg0) (U2 m c main_v0) (U2 m c main_v1) (U2 m c main_v2) :=
  (U3_out0 m c).trans (final1_6 (atTc (U2 m)) c)

theorem val_v5_1 (c : Dev nD) : U3 m c main_v5_1 = Spec.projN (U2 m c main_arg0) (U2 m c main_v0) (U2 m c main_v3) (U2 m c main_v4) :=
  (U3_out1 m c).trans (final1_7 (atTc (U2 m)) c)

theorem val_v6 (c : Dev nD) : U4 m c main_v6 = Spec.adjRelu2 (U3 m c main_arg1) (U3 m c main_v5_0) (U3 m c main_arg9) :=
  (U4_out m c).trans (final2_3 (atTc (U3 m)) c)

theorem val_v7 (c : Dev nD) : U5 m c main_v7 = Spec.adjMul3 (U4 m c main_arg1) (U4 m c main_v6) :=
  (U5_out m c).trans (final3_2 (atTc (U4 m)) c)

theorem val_v8 (c : Dev nD) : U6 m c main_v8 = Spec.adjRelu4 (U5 m c main_arg2) (U5 m c main_v5_1) (U5 m c main_arg11) :=
  (U6_out m c).trans (final4_3 (atTc (U5 m)) c)

theorem val_v9 (c : Dev nD) : U7 m c main_v9 = Spec.adjMul5 (U6 m c main_arg2) (U6 m c main_v8) :=
  (U7_out m c).trans (final5_2 (atTc (U6 m)) c)

theorem val_v12_0 (c : Dev nD) : U9 m c main_v12_0
    = Spec.tailZ (U8 m c main_v7) (U8 m c main_v9) (U8 m c main_v10) (U8 m c main_v11) (U8 m c main_arg13) (U8 m c main_arg14) :=
  (U9_out0 m c).trans (final6_7 (atTc (U8 m)) c)

theorem val_v12_1 (c : Dev nD) : U9 m c main_v12_1
    = Spec.tailDec (U8 m c main_v7) (U8 m c main_v9) (U8 m c main_v10) (U8 m c main_v11) (U8 m c main_arg13) (U8 m c main_arg14) (U8 m c main_arg15) :=
  (U9_out1 m c).trans (final6_8 (atTc (U8 m)) c)

-- The result array: the last launch's output, every array it reads traced back to the launch that made it or to the entry.
theorem result_eq (c : Dev nD) : V10 m (outs m) c main_v13 = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [V10_eq]
  refine (U10_out m c).trans ((final7_2 (atTc (U9 m)) c).trans ?_)
  show Spec.mulT (U9 m c main_v12_1) (U9 m c main_v12_0) = _
  rw [val_v12_1, val_v12_0, (U8_of m c main_v7 (by decide)).trans ((U7_of m c main_v7 (by decide)).trans (U6_of m c main_v7 (by decide))),
    U8_of m c main_v9 (by decide), val_v10, val_v11, keep8 m c main_arg13 (by decide), keep8 m c main_arg14 (by decide),
    keep8 m c main_arg15 (by decide), val_v7, val_v9, keep4 m c main_arg1 (by decide), keep6 m c main_arg2 (by decide), val_v6, val_v8,
    keep3 m c main_arg1 (by decide), keep3 m c main_arg9 (by decide), keep5 m c main_arg2 (by decide), keep5 m c main_arg11 (by decide),
    (U5_of m c main_v5_1 (by decide)).trans (U4_of m c main_v5_1 (by decide)), val_v5_0, val_v5_1, keep2 m c main_arg0 (by decide),
    U2_of m c main_v0 (by decide), val_v0, val_v1, val_v2, val_v3, val_v4]
  rfl

end Cert.KernelIdeal.Hand

end
-- ==== Proof.KernelRun.lean ====
import proofs.«407199_j78503412236482_3_alg».proof.Proof.Gen.KernelIdeal.Regions
import proofs.«407199_j78503412236482_3_alg».proof.Proof.Spec
import proofs.«407199_j78503412236482_3_alg».proof.Proof.RunCond
import proofs.«407199_j78503412236482_3_alg».proof.Proof.Frame.Seg
import proofs.«407199_j78503412236482_3_alg».proof.Proof.Value.Result

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

set_option backward.isDefEq.respectTransparency.types false in
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v13) = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine run_cond (F := F) m (Ix := Unit) (U := UR sig nD τ) (Lvl := ℕ) emb₁ () Variants.none L0 lv0 (fun _ _ => rfl) ρ (outs m) (pdats m)
    (0 : Dev nD → CellTallies nD τ sig Unit) (fun _ => iprop(emp)) (initOf (Pipeline.cells cfgs cellOf_inj) (Pipeline.launchToks cfgs cellOf_inj)) ?hu (E (F := F)) ?hE0 ?hE8
    (reg0 m) (fun _ => .rfl) (fun _ => by rw [V1_eq]; exact .rfl) (reg1 m) (fun _ => by rw [V2_eq]; exact .rfl) (fun _ => by rw [V3_eq]; exact .rfl) (reg2 m) (fun _ => by rw [V3_eq]; exact .rfl) (fun _ => by rw [V4_eq]; exact .rfl) (reg3 m) (fun _ => by rw [V4_eq]; exact .rfl) (fun _ => by rw [V5_eq]; exact .rfl) (reg4 m) (fun _ => by rw [V5_eq]; exact .rfl) (fun _ => by rw [V6_eq]; exact .rfl) (reg5 m) (fun _ => by rw [V6_eq]; exact .rfl) (fun _ => by rw [V7_eq]; exact .rfl) (reg6 m) (fun _ => by rw [V8_eq]; exact .rfl) (fun _ => by rw [V9_eq]; exact .rfl) (reg7 m) (fun _ => by rw [V9_eq]; exact .rfl) (fun _ => by rw [V10_eq]; exact .rfl)
    _ (result_eq m)
  case hu =>
    unfold ownU
    iintro Hu; imodintro
    isplitl [Hu]; · iexact Hu
    iapply (show (BI.emp : sProp 𝕄) ⊢ bigSep Finset.univ (fun _ : Dev nD => (BI.emp : sProp 𝕄)) from by rw [BI.bigSep_emp_const])
    iempintro
  case hE0 =>
    refine Pipeline.initEach L0 lv0 fun c => ?_
    iintro ⟨⟨-, HO, -, Hp, -⟩, -⟩
    imodintro
    sl_close
  case hE8 =>
    intro c
    iintro ⟨-, HO⟩
    iexact HO

end Cert.KernelIdeal.Hand

end
-- ==== Proof.RefSpec.lean ====
import proofs.«407199_j78503412236482_3_alg».proof.Proof.Gen.ReferenceIdeal

noncomputable section

namespace Cert.ReferenceIdeal.Stages

open Cert.ReferenceIdeal Cert.ReferenceIdeal.Gen Idealize.ShloMosaic Idealize.ShloMosaic.TcCoe Idealize.ShloMosaic.StableHlo

variable {F : FTy → Type} [FloatOps F]

def ids (enc : IVec S3040x100 32) : IVec S3040x100 32 :=
  select (cmpi .slt enc (broadcastInDim S3040x100 ![] bcast_S_S3040x100 (constantI S_ 32 0#32)))
    (addi enc (broadcastInDim S3040x100 ![] bcast_S_S3040x100 (constantI S_ 32 43#32))) enc

def feats (enc : IVec S3040x100 32) (tok : FVec F S43x75 .f32) : FVec F S3040x100x75 .f32 :=
  Host.gather gather_S43x75_S3040x100x1_S3040x100x75_2_0_n_n_0_2_175 tok
    (broadcastInDim S3040x100x1 ![0, 1] bcast_S3040x100_S3040x100x1_0_1 (ids enc))

def gcn (enc : IVec S3040x100 32) (adj : FVec F S3040x100x100 .f32) (tok : FVec F S43x75 .f32)
    (w1 : FVec F S3040x75x128 .f32) (w2 : FVec F S3040x128x128 .f32) : FVec F S3040x128 .f32 :=
  Host.reduce FloatOps.maximumf
    (Host.dotGeneral dot_S3040x128x100_S3040x128x128_S3040x100x128_1_1_2_2_0_0 none
      (Host.dotGeneral dot_S3040x100x128_S3040x100x100_S3040x128x100_1_1_2_2_0_0 none
        (Host.dotGeneral dot_S3040x75x100_S3040x75x128_S3040x100x128_1_1_2_2_0_0 none
          (Host.dotGeneral dot_S3040x100x75_S3040x100x100_S3040x75x100_1_1_2_2_0_0 none (feats enc tok) adj) w1) adj) w2)
    (constant S_ .f32 0xFF800000#32) reducesTo_S3040x100x128_S3040x128_d1 h_S_

def layer1 (x : FVec F S3040x384 .f32) (e : FVec F S3040x128 .f32) (w : FVec F S512x256 .f32) : FVec F S3040x256 .f32 :=
  Host.dotGeneral dot_S3040x512_S512x256_S3040x256_1_0_0_1_n_n none
    (concatenate S3040x512 1 [⟨S3040x384, x⟩, ⟨S3040x128, e⟩] concatenates_S3040x384_S3040x128_S3040x512_d1) w

def relu256 (v : FVec F S3040x256 .f32) : FVec F S3040x256 .f32 :=
  maximumf v (broadcastInDim S3040x256 ![] bcast_S_S3040x256 (constant S_ .f32 0x00000000#32))

def relu512 (v : FVec F S3040x512 .f32) : FVec F S3040x512 .f32 :=
  maximumf v (broadcastInDim S3040x512 ![] bcast_S_S3040x512 (constant S_ .f32 0x00000000#32))

def graphA (a : FVec F S3040x3040 .f32) (inner : FVec F S3040x256 .f32) (w : FVec F S256x256 .f32) : FVec F S3040x256 .f32 :=
  Host.dotGeneral dot_S3040x256_S256x256_S3040x256_1_0_0_1_n_n none
    (relu256 (Host.dotGeneral dot_S3040x3040_S3040x256_S3040x256_1_0_0_1_n_n none a inner)) w

def graphB (a : FVec F S3040x3040 .f32) (t : FVec F S3040x256 .f32) : FVec F S3040x256 .f32 :=
  Host.dotGeneral dot_S3040x3040_S3040x256_S3040x256_1_0_0_1_n_n none a t

def tail3 (zp zn : FVec F S3040x256 .f32) (d1 : FVec F S512x256 .f32) (d2 : FVec F S256x512 .f32) (d3 : FVec F S512x256 .f32) :
    FVec F S3040x256 .f32 :=
  Host.dotGeneral dot_S3040x512_S512x256_S3040x256_1_0_0_1_n_n none
    (relu512 (Host.dotGeneral dot_S3040x256_S256x512_S3040x512_1_0_0_1_n_n none
      (relu256 (Host.dotGeneral dot_S3040x512_S512x256_S3040x256_1_0_0_1_n_n none
        (concatenate S3040x512 1 [⟨S3040x256, zp⟩, ⟨S3040x256, zn⟩] concatenates_S3040x256_S3040x256_S3040x512_d1) d1)) d2)) d3

def decode (z : FVec F S3040x256 .f32) (dec : FVec F S256x256 .f32) : FVec F S3040x256 .f32 :=
  Host.dotGeneral dot_S3040x256_S256x256_S3040x256_1_0_0_1_n_n none z dec

def outer (zd z : FVec F S3040x256 .f32) : FVec F S3040x3040 .f32 :=
  Host.dotGeneral dot_S3040x256_S256x3040_S3040x3040_1_0_0_1_n_n none zd
    (transpose S256x3040 [1, 0] z transposes_S3040x256_S256x3040_1_0)

def result (x : FVec F S3040x384 .f32) (ap an : FVec F S3040x3040 .f32) (adj : FVec F S3040x100x100 .f32) (enc : IVec S3040x100 32)
    (tok : FVec F S43x75 .f32) (w1 : FVec F S3040x75x128 .f32) (w2 : FVec F S3040x128x128 .f32)
    (wp1 : FVec F S512x256 .f32) (wp2 : FVec F S256x256 .f32) (wn1 : FVec F S512x256 .f32) (wn2 : FVec F S256x256 .f32)
    (wd1 : FVec F S512x256 .f32) (wd2 : FVec F S256x512 .f32) (wd3 : FVec F S512x256 .f32) (wdec : FVec F S256x256 .f32) :
    FVec F S3040x3040 .f32 :=
  let e := gcn enc adj tok w1 w2
  let zp := graphB ap (graphA ap (layer1 x e wp1) wp2)
  let zn := graphB an (graphA an (layer1 x e wn1) wn2)
  let z := tail3 zp zn wd1 wd2 wd3
  outer (decode z wdec) z

end Cert.ReferenceIdeal.Stages

end
-- ==== Proof.RefHand.lean ====
import proofs.«407199_j78503412236482_3_alg».proof.Proof.RefSpec
import proofs.«407199_j78503412236482_3_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Stretch

variable {F : FTy → Type} [FloatOps F]

theorem after_app (l₁ l₂ : List (HloOp τ sig (Elt F))) (V : Valuation τ sig (Elt F)) :
    after (l₁ ++ l₂) V = after l₂ (after l₁ V) := by
  induction l₁ generalizing V with
  | nil => rfl
  | cons op l ih => exact ih _

abbrev writes1 : List (Ref sig .tc) :=
  [main_c, main_v0, main_v1, main_c_0, main_v2, main_v3, main_v4, main_v5, main_v6, main_v7, main_v8, main_v9, main_v10, main_cst, main_v11]
abbrev writes2 : List (Ref sig .tc) :=
  [main_v12, main_v13, main_v14, main_call0_cst, main_call0_v0, main_v15, main_v16, main_v17, main_v18, main_v19, main_call1_cst,
    main_call1_v0, main_v20, main_v21, main_v22]
abbrev writes3 : List (Ref sig .tc) :=
  [main_v23, main_v24, main_call2_cst, main_call2_v0, main_v25, main_v26, main_call3_cst, main_call3_v0, main_v27, main_v28, main_v29,
    main_v30, main_v31]

-- Each stretch writes only the references of its own list.
theorem ops_writes : ((ops1 : List (HloOp τ sig (Elt F))).Forall fun op => op.writes ⊆ (writes1.map (Proc.devRef (τ := τ) .tc)).toFinset) ∧
    ((ops2 : List (HloOp τ sig (Elt F))).Forall fun op => op.writes ⊆ (writes2.map (Proc.devRef (τ := τ) .tc)).toFinset) ∧
    (ops3 : List (HloOp τ sig (Elt F))).Forall fun op => op.writes ⊆ (writes3.map (Proc.devRef (τ := τ) .tc)).toFinset := by
  refine ⟨?_, ?_, ?_⟩ <;>
    (simp only [List.Forall, nullary_writes, unary_writes, binary_writes, ternary_writes, Finset.singleton_subset_iff, List.mem_toFinset]
     and_intros <;> exact List.mem_map_of_mem (by decide))

-- A reference outside a stretch's write list keeps its contents through the stretch.
theorem keep {l : List (HloOp τ sig (Elt F))} {ws : List (Ref sig .tc)}
    (hl : l.Forall fun op => op.writes ⊆ (ws.map (Proc.devRef (τ := τ) .tc)).toFinset)
    (W : Valuation τ sig (Elt F)) (r : Ref sig .tc) (hr : r ∉ ws := by decide) :
    after l W (Proc.devRef .tc r) = W (Proc.devRef .tc r) :=
  after_of_writes_sub l W hl hr

theorem s1_v11 (W : Valuation τ sig (Elt F)) :
    after ops1 W (Proc.devRef .tc main_v11)
      = Stages.gcn (W (Proc.devRef .tc main_arg4)) (W (Proc.devRef .tc main_arg3)) (W (Proc.devRef .tc main_arg5)) (W (Proc.devRef .tc main_arg6)) (W (Proc.devRef .tc main_arg7)) := by
  after_results_simp
  rfl

theorem s2_v17 (W : Valuation τ sig (Elt F)) :
    after ops2 W (Proc.devRef .tc main_v17)
      = Stages.graphB (W (Proc.devRef .tc main_arg1)) (Stages.graphA (W (Proc.devRef .tc main_arg1)) (Stages.layer1 (W (Proc.devRef .tc main_arg0)) (W (Proc.devRef .tc main_v11)) (W (Proc.devRef .tc main_arg8))) (W (Proc.devRef .tc main_arg9))) := by
  after_results_simp
  rfl

theorem s2_v22 (W : Valuation τ sig (Elt F)) :
    after ops2 W (Proc.devRef .tc main_v22)
      = Stages.graphB (W (Proc.devRef .tc main_arg2)) (Stages.graphA (W (Proc.devRef .tc main_arg2)) (Stages.layer1 (W (Proc.devRef .tc main_arg0)) (W (Proc.devRef .tc main_v11)) (W (Proc.devRef .tc main_arg10))) (W (Proc.devRef .tc main_arg11))) := by
  after_results_simp
  rfl

theorem s3_v31 (W : Valuation τ sig (Elt F)) :
    after ops3 W (Proc.devRef .tc main_v31)
      = Stages.outer (Stages.decode (Stages.tail3 (W (Proc.devRef .tc main_v17)) (W (Proc.devRef .tc main_v22)) (W (Proc.devRef .tc main_arg12)) (W (Proc.devRef .tc main_arg13)) (W (Proc.devRef .tc main_arg14))) (W (Proc.devRef .tc main_arg15)))
          (Stages.tail3 (W (Proc.devRef .tc main_v17)) (W (Proc.devRef .tc main_v22)) (W (Proc.devRef .tc main_arg12)) (W (Proc.devRef .tc main_arg13)) (W (Proc.devRef .tc main_arg14))) := by
  after_results_simp
  rfl

theorem arg_keep (V : Valuation τ sig (Elt F)) (r : Ref sig .tc) (h1 : r ∉ writes1 := by decide) (h2 : r ∉ writes2 := by decide)
    (h3 : r ∉ writes3 := by decide) : after (ops (F := F)) V (Proc.devRef .tc r) = V (Proc.devRef .tc r) := by
  rw [ops_cut, after_app, after_app, keep ops_writes.2.2 _ r h3, keep ops_writes.2.1 _ r h2, keep ops_writes.1 _ r h1]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v31).trans (by
      rw [ops_cut, after_app, after_app, s3_v31, s2_v17, s2_v22, s1_v11,
        keep ops_writes.2.1 _ main_arg12, keep ops_writes.2.1 _ main_arg13, keep ops_writes.2.1 _ main_arg14, keep ops_writes.2.1 _ main_arg15,
        keep ops_writes.1 _ main_arg0, keep ops_writes.1 _ main_arg1, keep ops_writes.1 _ main_arg2, keep ops_writes.1 _ main_arg8, keep ops_writes.1 _ main_arg9, keep ops_writes.1 _ main_arg10,
        keep ops_writes.1 _ main_arg11, keep ops_writes.1 _ main_arg12, keep ops_writes.1 _ main_arg13, keep ops_writes.1 _ main_arg14, keep ops_writes.1 _ main_arg15]
      rfl), by
      and_intros <;> exact (h c _).trans (arg_keep _ _)⟩)
    (run_after m ρ)

end Cert.ReferenceIdeal.Hand

end
-- ==== Proof.LibMatLayout.lean ====
import Idealize.ShloMosaic.Lib.Pipeline.Value
import Idealize.ShloMosaic.Lib.ValueIdx

noncomputable section

namespace Cert.Lib.MatLayout

open Idealize.ShloMosaic Idealize.ShloMosaic.ValueIdx

variable {α : Type} {M K₁ K₂ N : Nat}

theorem concat_cols_left (x₁ : (⟨2, ![M, K₁]⟩ : Shape).Idx → α) (x₂ : (⟨2, ![M, K₂]⟩ : Shape).Idx → α)
    (h : Shape.Concatenates [⟨2, ![M, K₁]⟩, ⟨2, ![M, K₂]⟩] ⟨2, ![M, K₁ + K₂]⟩ 1) (r : Fin M) (k : Fin K₁) :
    concatenate ⟨2, ![M, K₁ + K₂]⟩ 1 [⟨⟨2, ![M, K₁]⟩, x₁⟩, ⟨⟨2, ![M, K₂]⟩, x₂⟩] h (ix2 r (Fin.castAdd K₂ k)) = x₁ (ix2 r k) :=
  concatenate_pair_apply_left 1 x₁ x₂ h _ rfl (ix2 r k) fun b => by
    match b with
    | ⟨0, _⟩ => rfl
    | ⟨1, _⟩ => rfl

theorem concat_cols_right (x₁ : (⟨2, ![M, K₁]⟩ : Shape).Idx → α) (x₂ : (⟨2, ![M, K₂]⟩ : Shape).Idx → α)
    (h : Shape.Concatenates [⟨2, ![M, K₁]⟩, ⟨2, ![M, K₂]⟩] ⟨2, ![M, K₁ + K₂]⟩ 1) (r : Fin M) (k : Fin K₂) :
    concatenate ⟨2, ![M, K₁ + K₂]⟩ 1 [⟨⟨2, ![M, K₁]⟩, x₁⟩, ⟨⟨2, ![M, K₂]⟩, x₂⟩] h (ix2 r (Fin.natAdd K₁ k)) = x₂ (ix2 r k) :=
  concatenate_pair_apply_right 1 x₁ x₂ h _ rfl rfl (ix2 r k)
    (fun b hb => by
      match b, hb with
      | ⟨0, _⟩, _ => rfl
      | ⟨1, _⟩, hb => exact absurd rfl hb)
    (Nat.add_comm _ _)

theorem slice_upper_rows (w : (⟨2, ![K₁ + K₂, N]⟩ : Shape).Idx → α)
    (h : (⟨2, ![K₁ + K₂, N]⟩ : Shape).Slices ![0, 0] ⟨2, ![K₁, N]⟩) (k : Fin K₁) (b : Fin N) :
    extractStridedSlice ⟨2, ![K₁, N]⟩ ![0, 0] w h (ix2 k b) = w (ix2 (Fin.castAdd K₂ k) b) :=
  extractStridedSlice_apply _ w h _ _ fun a => by
    match a with
    | ⟨0, _⟩ => exact (Nat.zero_add _).symm
    | ⟨1, _⟩ => exact (Nat.zero_add _).symm

theorem slice_lower_rows (w : (⟨2, ![K₁ + K₂, N]⟩ : Shape).Idx → α)
    (h : (⟨2, ![K₁ + K₂, N]⟩ : Shape).Slices ![K₁, 0] ⟨2, ![K₂, N]⟩) (k : Fin K₂) (b : Fin N) :
    extractStridedSlice ⟨2, ![K₂, N]⟩ ![K₁, 0] w h (ix2 k b) = w (ix2 (Fin.natAdd K₁ k) b) :=
  extractStridedSlice_apply _ w h _ _ fun a => by
    match a with
    | ⟨0, _⟩ => rfl
    | ⟨1, _⟩ => exact (Nat.zero_add _).symm

theorem transpose_swap (z : (⟨2, ![M, N]⟩ : Shape).Idx → α) (h : (⟨2, ![M, N]⟩ : Shape).Transposes [1, 0] ⟨2, ![N, M]⟩)
    (c : Fin N) (b : Fin M) : transpose ⟨2, ![N, M]⟩ [1, 0] z h (ix2 c b) = z (ix2 b c) :=
  transpose_apply [1, 0] z h _ _ fun t => by
    match t with
    | ⟨0, _⟩ => rfl
    | ⟨1, _⟩ => rfl

end Cert.Lib.MatLayout

end
-- ==== Proof.LibMatRows.lean ====
import proofs.«407199_j78503412236482_3_alg».proof.Proof.LibMatLayout
import Idealize.ShloMosaic.Lib.StackMember
import Idealize.ShloMosaic.Lib.ValueLayout

noncomputable section

namespace Cert.Lib.MatRows

open Idealize.ShloMosaic Idealize.ShloMosaic.ValueIdx Cert.Lib.MatLayout

def RowEq {M M' K : Nat} (p : Fin M') (r : Fin M) (f : (⟨2, ![M', K]⟩ : Shape).Idx → EReal)
    (g : (⟨2, ![M, K]⟩ : Shape).Idx → EReal) : Prop :=
  ∀ k : Fin K, f (ix2 p k) = g (ix2 r k)

variable {M M' K N : Nat} {p : Fin M'} {r : Fin M} {φ₁ φ₂ φ₃ φ₄ : FTy}

theorem mm_apply (A : FVec Ideal ⟨2, ![M, K]⟩ φ₁) (B : FVec Ideal ⟨2, ![K, N]⟩ φ₂) (a : Fin M) (b : Fin N) :
    matmul (DotDims.plain M K N) none A B (constant ⟨2, ![M, N]⟩ .f32 0x00000000#32) (ix2 a b)
      = ∑ c : Fin K, A (ix2 a c) * B (ix2 c b) := by
  rw [matmul_zero_eq_dotGeneral, StackMember.dotGeneral_plain_apply]

-- A product acts on each row of its left factor by itself; accumulated from zero it is the plain matrix product.
theorem RowEq.mm {f : FVec Ideal ⟨2, ![M', K]⟩ φ₁} {g : FVec Ideal ⟨2, ![M, K]⟩ φ₂} (h : RowEq p r f g)
    (w : (⟨2, ![K, N]⟩ : Shape).Idx → EReal) :
    RowEq p r (matmul (φ₂ := φ₃) (DotDims.plain M' K N) none f w (constant ⟨2, ![M', N]⟩ .f32 0x00000000#32))
      (Host.dotGeneral (φ₂ := φ₄) (DotDims.plain M K N) none g w) := fun q => by
  rw [mm_apply, StackMember.dotGeneral_plain_apply]
  exact Finset.sum_congr rfl fun k _ => by rw [h k]

theorem RowEq.map {f : (⟨2, ![M', K]⟩ : Shape).Idx → EReal} {g : (⟨2, ![M, K]⟩ : Shape).Idx → EReal}
    (h : RowEq p r f g) (φ : EReal → EReal) : RowEq p r (fun j => φ (f j)) (fun i => φ (g i)) := fun k =>
  congrArg φ (h k)

-- Products against the upper and the lower rows of a weight, added: the product of the operands side by side with the whole weight.
theorem RowEq.add_mm {K₁ K₂ : Nat} {x' : FVec Ideal ⟨2, ![M', K₁]⟩ φ₁} {e' : FVec Ideal ⟨2, ![M', K₂]⟩ φ₂}
    {x : (⟨2, ![M, K₁]⟩ : Shape).Idx → EReal} {e : (⟨2, ![M, K₂]⟩ : Shape).Idx → EReal}
    (hx : RowEq p r x' x) (he : RowEq p r e' e) (w : (⟨2, ![K₁ + K₂, N]⟩ : Shape).Idx → EReal)
    (hc : Shape.Concatenates [⟨2, ![M, K₁]⟩, ⟨2, ![M, K₂]⟩] ⟨2, ![M, K₁ + K₂]⟩ 1)
    (h₁ : (⟨2, ![K₁ + K₂, N]⟩ : Shape).Slices ![0, 0] ⟨2, ![K₁, N]⟩)
    (h₂ : (⟨2, ![K₁ + K₂, N]⟩ : Shape).Slices ![K₁, 0] ⟨2, ![K₂, N]⟩) :
    RowEq p r
      (fun j => matmul (φ₂ := φ₃) (DotDims.plain M' K₁ N) none x' (extractStridedSlice ⟨2, ![K₁, N]⟩ ![0, 0] w h₁)
          (constant ⟨2, ![M', N]⟩ .f32 0x00000000#32) j
        + matmul (φ₂ := φ₃) (DotDims.plain M' K₂ N) none e' (extractStridedSlice ⟨2, ![K₂, N]⟩ ![K₁, 0] w h₂)
          (constant ⟨2, ![M', N]⟩ .f32 0x00000000#32) j)
      (Host.dotGeneral (F := Ideal) (φ₁ := φ₄) (φ₂ := φ₄) (DotDims.plain M (K₁ + K₂) N) none
        (concatenate ⟨2, ![M, K₁ + K₂]⟩ 1 [⟨⟨2, ![M, K₁]⟩, x⟩, ⟨⟨2, ![M, K₂]⟩, e⟩] hc) w) := fun q => by
  show _ + _ = _
  rw [mm_apply, mm_apply, StackMember.dotGeneral_plain_apply, Fin.sum_univ_add]
  refine congrArg₂ (· + ·) (Finset.sum_congr rfl fun k _ => ?_) (Finset.sum_congr rfl fun k _ => ?_)
  · rw [hx k, slice_upper_rows, concat_cols_left]
  · rw [he k, slice_lower_rows, concat_cols_right]

theorem mmT_apply (A : FVec Ideal ⟨2, ![M, K]⟩ φ₁) (B : FVec Ideal ⟨2, ![N, K]⟩ φ₂) (a : Fin M) (b : Fin N) :
    matmul (DotDims.transposedRhs M K N) none A B (constant ⟨2, ![M, N]⟩ .f32 0x00000000#32) (ix2 a b)
      = ∑ c : Fin K, A (ix2 a c) * B (ix2 b c) := by
  show FloatOps.matmul _ none A B _ (ix2 a b) = _
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

-- Contracting both second axes is multiplying by the transpose.
theorem RowEq.mmT {f : FVec Ideal ⟨2, ![M', K]⟩ φ₁} {g : FVec Ideal ⟨2, ![M, K]⟩ φ₂} (h : RowEq p r f g)
    (z : (⟨2, ![N, K]⟩ : Shape).Idx → EReal) (ht : (⟨2, ![N, K]⟩ : Shape).Transposes [1, 0] ⟨2, ![K, N]⟩) :
    RowEq p r (matmul (φ₂ := φ₃) (DotDims.transposedRhs M' K N) none f z (constant ⟨2, ![M', N]⟩ .f32 0x00000000#32))
      (Host.dotGeneral (φ₂ := φ₄) (DotDims.plain M K N) none g (transpose ⟨2, ![K, N]⟩ [1, 0] z ht)) := fun q => by
  rw [mmT_apply, StackMember.dotGeneral_plain_apply]
  exact Finset.sum_congr rfl fun c _ => by rw [h c, transpose_swap]

end Cert.Lib.MatRows

end
-- ==== Proof.StageDense.lean ====
import proofs.«407199_j78503412236482_3_alg».proof.Proof.Spec
import proofs.«407199_j78503412236482_3_alg».proof.Proof.RefSpec
import proofs.«407199_j78503412236482_3_alg».proof.Proof.LibMatRows

noncomputable section

namespace Cert.Bridge

open Idealize.ShloMosaic Idealize.ShloMosaic.ValueIdx
open Cert.Lib.MatRows Cert.KernelIdeal.Spec Cert.KernelIdeal.Gen Cert.ReferenceIdeal.Stages

def posPart (x : EReal) : EReal := max x (Ideal.ofBits .f32 0x00000000#32)

theorem ext2 {α : Type} {M N : Nat} {f g : (⟨2, ![M, N]⟩ : Shape).Idx → α} (h : ∀ r q, f (ix2 r q) = g (ix2 r q)) : f = g :=
  funext fun i => by rw [eq_ix2 i]; exact h _ _

-- (r / R) R + r mod R = r: the tile that holds row r, read at r's place in it, is row r.
theorem tile2_rowEq (N R C : Nat) (hR : 0 < R) (x : (⟨2, ![N, C]⟩ : Shape).Idx → EReal) (r : Fin N) :
    RowEq (inTile R hR r) r (tile2 N R C r.pos x (r.val / R)) x := fun k =>
  congrArg (fun a : Fin N => x (ix2 a k)) (Fin.ext (by
    show (r.val / R * R + r.val % R) % N = r.val
    rw [Nat.div_add_mod', Nat.mod_eq_of_lt r.isLt]))

-- Every layer of the tail acts row by row; the first splits its contraction over the two graph outputs side by side.
theorem tail_rowEq (zp zn : FVec Ideal Cert.KernelIdeal.S3040x256 .f32) (d1 : FVec Ideal Cert.KernelIdeal.S512x256 .f32)
    (d2 : FVec Ideal Cert.KernelIdeal.S256x512 .f32) (d3 : FVec Ideal Cert.KernelIdeal.S512x256 .f32) (r : Fin 3040) :
    RowEq (inTile 152 (by decide) r) r
      (k6_pay6 (F := Ideal) (tile2 3040 152 256 (by decide) zp (r.val / 152)) (tile2 3040 152 256 (by decide) zn (r.val / 152))
        (k6_pay1 (F := Ideal) (extractStridedSlice Cert.KernelIdeal.S256x256 ![0, 0] d1 Cert.KernelIdeal.Facts₀.slices_S512x256_S256x256_0_0))
        (k6_pay2 (F := Ideal) (extractStridedSlice Cert.KernelIdeal.S256x256 ![256, 0] d1 Cert.KernelIdeal.Facts₀.slices_S512x256_S256x256_256_0))
        (k6_pay3 (F := Ideal) d2) (k6_pay4 (F := Ideal) d3))
      (tail3 (F := Ideal) zp zn d1 d2 d3) := by
  unfold k6_pay1 k6_pay2 k6_pay3 k6_pay4 k6_pay6
  simp only [shapeCast_self]
  apply ((((RowEq.add_mm (K₁ := 256) (K₂ := 256) (tile2_rowEq 3040 152 256 _ zp r) (tile2_rowEq 3040 152 256 _ zn r) d1 _ (by decide) (by decide)).map
    posPart).mm d2).map posPart).mm d3

theorem projP_eq (x : FVec Ideal Cert.KernelIdeal.S3040x384 .f32) (e : FVec Ideal Cert.KernelIdeal.S3040x128 .f32) (w : FVec Ideal Cert.KernelIdeal.S512x256 .f32) :
    Cert.KernelIdeal.Spec.projP (F := Ideal) x e (extractStridedSlice Cert.KernelIdeal.S384x256 ![0, 0] w Cert.KernelIdeal.Facts₀.slices_S512x256_S384x256_0_0)
      (extractStridedSlice Cert.KernelIdeal.S128x256 ![384, 0] w Cert.KernelIdeal.Facts₀.slices_S512x256_S128x256_384_0)
    = Cert.ReferenceIdeal.Stages.layer1 (F := Ideal) x e w := ext2 fun r q => by
  unfold projP k1_pay3 k1_pay2
  simp only [shapeCast_self]
  apply RowEq.add_mm (K₁ := 384) (K₂ := 128) (tile2_rowEq 3040 152 384 _ x r) (tile2_rowEq 3040 152 128 _ e r) w _ (by decide) (by decide) q

theorem projN_eq (x : FVec Ideal Cert.KernelIdeal.S3040x384 .f32) (e : FVec Ideal Cert.KernelIdeal.S3040x128 .f32) (w : FVec Ideal Cert.KernelIdeal.S512x256 .f32) :
    Cert.KernelIdeal.Spec.projN (F := Ideal) x e (extractStridedSlice Cert.KernelIdeal.S384x256 ![0, 0] w Cert.KernelIdeal.Facts₀.slices_S512x256_S384x256_0_0)
      (extractStridedSlice Cert.KernelIdeal.S128x256 ![384, 0] w Cert.KernelIdeal.Facts₀.slices_S512x256_S128x256_384_0)
    = Cert.ReferenceIdeal.Stages.layer1 (F := Ideal) x e w :=
  projP_eq x e w

theorem adjRelu2_eq (a : FVec Ideal Cert.KernelIdeal.S3040x3040 .f32) (inner : FVec Ideal Cert.KernelIdeal.S3040x256 .f32) (w : FVec Ideal Cert.KernelIdeal.S256x256 .f32) :
    Cert.KernelIdeal.Spec.adjRelu2 (F := Ideal) a inner w = Cert.ReferenceIdeal.Stages.graphA (F := Ideal) a inner w := ext2 fun r q => by
  unfold adjRelu2 k2_pay1 k2_pay2
  simp only [shapeCast_self]
  apply (((tile2_rowEq 3040 304 3040 _ a r).mm inner).map posPart).mm w q

theorem adjRelu4_eq (a : FVec Ideal Cert.KernelIdeal.S3040x3040 .f32) (inner : FVec Ideal Cert.KernelIdeal.S3040x256 .f32) (w : FVec Ideal Cert.KernelIdeal.S256x256 .f32) :
    Cert.KernelIdeal.Spec.adjRelu4 (F := Ideal) a inner w = Cert.ReferenceIdeal.Stages.graphA (F := Ideal) a inner w :=
  adjRelu2_eq a inner w

theorem adjMul3_eq (a : FVec Ideal Cert.KernelIdeal.S3040x3040 .f32) (t : FVec Ideal Cert.KernelIdeal.S3040x256 .f32) :
    Cert.KernelIdeal.Spec.adjMul3 (F := Ideal) a t = Cert.ReferenceIdeal.Stages.graphB (F := Ideal) a t := ext2 fun r q => by
  unfold adjMul3 k3_pay1
  simp only [shapeCast_self]
  apply (tile2_rowEq 3040 304 3040 _ a r).mm t q

theorem adjMul5_eq (a : FVec Ideal Cert.KernelIdeal.S3040x3040 .f32) (t : FVec Ideal Cert.KernelIdeal.S3040x256 .f32) :
    Cert.KernelIdeal.Spec.adjMul5 (F := Ideal) a t = Cert.ReferenceIdeal.Stages.graphB (F := Ideal) a t :=
  adjMul3_eq a t

theorem tailZ_eq (zp zn : FVec Ideal Cert.KernelIdeal.S3040x256 .f32) (d1 : FVec Ideal Cert.KernelIdeal.S512x256 .f32)
    (d2 : FVec Ideal Cert.KernelIdeal.S256x512 .f32) (d3 : FVec Ideal Cert.KernelIdeal.S512x256 .f32) :
    Cert.KernelIdeal.Spec.tailZ (F := Ideal) zp zn (extractStridedSlice Cert.KernelIdeal.S256x256 ![0, 0] d1 Cert.KernelIdeal.Facts₀.slices_S512x256_S256x256_0_0)
      (extractStridedSlice Cert.KernelIdeal.S256x256 ![256, 0] d1 Cert.KernelIdeal.Facts₀.slices_S512x256_S256x256_256_0) d2 d3
    = Cert.ReferenceIdeal.Stages.tail3 (F := Ideal) zp zn d1 d2 d3 :=
  ext2 fun r q => tail_rowEq zp zn d1 d2 d3 r q

theorem tailDec_eq (zp zn : FVec Ideal Cert.KernelIdeal.S3040x256 .f32) (d1 : FVec Ideal Cert.KernelIdeal.S512x256 .f32)
    (d2 : FVec Ideal Cert.KernelIdeal.S256x512 .f32) (d3 : FVec Ideal Cert.KernelIdeal.S512x256 .f32) (dec : FVec Ideal Cert.KernelIdeal.S256x256 .f32) :
    Cert.KernelIdeal.Spec.tailDec (F := Ideal) zp zn (extractStridedSlice Cert.KernelIdeal.S256x256 ![0, 0] d1 Cert.KernelIdeal.Facts₀.slices_S512x256_S256x256_0_0)
      (extractStridedSlice Cert.KernelIdeal.S256x256 ![256, 0] d1 Cert.KernelIdeal.Facts₀.slices_S512x256_S256x256_256_0) d2 d3 dec
    = Cert.ReferenceIdeal.Stages.decode (F := Ideal) (Cert.ReferenceIdeal.Stages.tail3 (F := Ideal) zp zn d1 d2 d3) dec := ext2 fun r q => by
  unfold tailDec k6_pay5
  simp only [shapeCast_self]
  apply (tail_rowEq zp zn d1 d2 d3 r).mm (φ₃ := .bf16) dec q

theorem mulT_eq (zd z : FVec Ideal Cert.KernelIdeal.S3040x256 .f32) :
    Cert.KernelIdeal.Spec.mulT (F := Ideal) zd z = Cert.ReferenceIdeal.Stages.outer (F := Ideal) zd z := ext2 fun r q => by
  unfold mulT k7_pay1 k7_pay2
  simp only [shapeCast_self]
  apply (tile2_rowEq 3040 304 256 _ zd r).mmT z _ q

end Cert.Bridge

end
-- ==== Proof.Hyps.lean ====
import Idealize.ShloMosaic.PureOps.Ideal

namespace Cert.Hyps

open Idealize.ShloMosaic

def AllReal {ι : Type} (x : ι → EReal) : Prop := ∀ i, ∃ r : ℝ, x i = (r : EReal)

def InVocab {ι : Type} (enc : ι → BitVec 32) : Prop := ∀ i, 0 ≤ (enc i).toInt ∧ (enc i).toInt < 43

end Cert.Hyps
-- ==== Proof.LibStackProduct.lean ====
import Idealize.ShloMosaic.Lib.StackMember

noncomputable section

namespace Cert.Lib.StackProduct

open Idealize.ShloMosaic Idealize.ShloMosaic.ValueIdx

variable {G M K N : Nat} {φ₁ φ₂ : FTy}
  (w : DotDims.WF ⟨3, ![G, K, M]⟩ ⟨3, ![G, K, N]⟩ ⟨3, ![G, M, N]⟩ [1] [1] [2] [2] [0] [0])

abbrev firstAxisDims : DotDims ⟨3, ![G, K, M]⟩ ⟨3, ![G, K, N]⟩ ⟨3, ![G, M, N]⟩ := ⟨[1], [1], [2], [2], [0], [0], w⟩

-- Stacks multiplied member by member, both members contracted over their first axis: entry (g, m, n) is Σ_k A[g, k, m] · B[g, k, n].
theorem dotGeneral_firstAxis_apply (prec : Option ContractPrecision) (A : FVec Ideal ⟨3, ![G, K, M]⟩ φ₁)
    (B : FVec Ideal ⟨3, ![G, K, N]⟩ φ₂) (g : Fin G) (m : Fin M) (n : Fin N) :
    Host.dotGeneral (firstAxisDims w) prec A B (ix3 g m n) = ∑ k : Fin K, A (ix3 g k m) * B (ix3 g k n) := by
  show FloatOps.dotGeneral _ prec _ A B (ix3 g m n) = _
  rw [Ideal.dotGeneral_apply, ← Equiv.sum_comp (contrEquiv1 (firstAxisDims w) K rfl rfl).symm]
  refine Finset.sum_congr rfl fun k _ => ?_
  have hk := contrEquiv1_symm_val (firstAxisDims w) K rfl rfl k
  have el : (firstAxisDims w).lhsIdx (ix3 g m n) ((contrEquiv1 _ K rfl rfl).symm k) = ix3 g k m := by
    funext ax; apply Fin.ext
    match ax with
    | ⟨0, _⟩ => simp [DotDims.lhsIdx]; rfl
    | ⟨1, _⟩ => simp [DotDims.lhsIdx]; exact hk
    | ⟨2, _⟩ => simp [DotDims.lhsIdx]; rfl
  have er : (firstAxisDims w).rhsIdx (ix3 g m n) ((contrEquiv1 _ K rfl rfl).symm k) = ix3 g k n := by
    funext ax; apply Fin.ext
    match ax with
    | ⟨0, _⟩ => simp [DotDims.rhsIdx]; rfl
    | ⟨1, _⟩ => simp [DotDims.rhsIdx]; exact hk
    | ⟨2, _⟩ => simp [DotDims.rhsIdx]; rfl
  rw [el, er]

end Cert.Lib.StackProduct

end
-- ==== Proof.LibRealSums.lean ====
import Mathlib.Data.EReal.Basic
import Mathlib.Algebra.BigOperators.Group.Finset.Basic
import Mathlib.Algebra.BigOperators.Group.Finset.Sigma
import Mathlib.Algebra.BigOperators.Ring.Finset

namespace Cert.Lib.RealSums

open scoped BigOperators

def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) : IsReal (∑ i ∈ s, f i) := by
  classical
  choose! g hg using h
  refine ⟨∑ i ∈ s, g i, ?_⟩
  rw [coe_finset_sum]
  exact Finset.sum_congr rfl hg

theorem isReal_sum_mul {ι : Type*} [Fintype ι] (f g : ι → EReal) (hf : ∀ i, IsReal (f i)) (hg : ∀ i, IsReal (g i)) :
    IsReal (∑ i, f i * g i) :=
  isReal_sum _ _ fun i _ => (hf i).mul (hg i)

theorem sum_mul_sum_swap {α β : Type*} [Fintype α] [Fintype β] (u : α → EReal) (m : α → β → EReal) (v : β → EReal)
    (hu : ∀ a, IsReal (u a)) (hm : ∀ a f, IsReal (m a f)) (hv : ∀ f, IsReal (v f)) :
    ∑ a, u a * ∑ f, m a f * v f = ∑ f, (∑ a, m a f * u a) * v f := by
  choose u' hu' using hu
  choose m' hm' using hm
  choose v' hv' using hv
  simp only [hu', hm', hv', ← EReal.coe_mul, ← coe_finset_sum]
  refine congrArg _ ?_
  simp only [Finset.mul_sum, Finset.sum_mul]
  rw [Finset.sum_comm]
  exact Finset.sum_congr rfl fun f _ => Finset.sum_congr rfl fun a _ => by ring

end Cert.Lib.RealSums
-- ==== Proof.GcnGraph.lean ====
import proofs.«407199_j78503412236482_3_alg».proof.Proof.LibRealSums

noncomputable section

namespace Cert.Bridge

open Cert.Lib.RealSums
open scoped BigOperators

variable {α τ φ η : Type} [Fintype α] [Fintype τ] [Fintype φ] [Fintype η]

def graphWeightsFirst (hot : α → τ → EReal) (A : α → α → EReal) (T : τ → φ → EReal) (W₁ : φ → η → EReal)
    (W₂ : η → η → EReal) (c : α) (q : η) : EReal :=
  ∑ b, A b c * ∑ h, (∑ a, A a b * ∑ t, hot a t * ∑ f, T t f * W₁ f h) * W₂ h q

def graphAdjFirst (F : α → φ → EReal) (A : α → α → EReal) (W₁ : φ → η → EReal) (W₂ : η → η → EReal) (c : α) (q : η) :
    EReal :=
  ∑ h, (∑ b, (∑ f, (∑ a, F a f * A a b) * W₁ f h) * A b c) * W₂ h q

theorem sum_oneHot_mul [DecidableEq τ] (i : τ) (v : τ → EReal) : ∑ t, (if i = t then (1 : EReal) else 0) * v t = v i := by
  simp only [ite_mul, one_mul, zero_mul, Finset.sum_ite_eq, Finset.mem_univ, if_true]

-- A one-hot row selects its table row; then each adjacency product moves inside by exchanging two finite real sums.
theorem graphWeightsFirst_eq [DecidableEq τ] (id : α → τ) (hot : α → τ → EReal) (A : α → α → EReal) (T : τ → φ → EReal)
    (W₁ : φ → η → EReal) (W₂ : η → η → EReal) (hhot : ∀ a t, hot a t = if id a = t then 1 else 0)
    (hA : ∀ a b, IsReal (A a b)) (hT : ∀ t f, IsReal (T t f)) (hW₁ : ∀ f h, IsReal (W₁ f h)) (hW₂ : ∀ h q, IsReal (W₂ h q))
    (c : α) (q : η) :
    graphWeightsFirst hot A T W₁ W₂ c q = graphAdjFirst (fun a f => T (id a) f) A W₁ W₂ c q := by
  unfold graphWeightsFirst graphAdjFirst
  have hsel : ∀ a h, ∑ t, hot a t * ∑ f, T t f * W₁ f h = ∑ f, T (id a) f * W₁ f h := fun a h => by
    simp only [hhot]
    exact sum_oneHot_mul (id a) fun t => ∑ f, T t f * W₁ f h
  have hl : ∀ b h, ∑ a, A a b * ∑ t, hot a t * ∑ f, T t f * W₁ f h = ∑ f, (∑ a, T (id a) f * A a b) * W₁ f h := fun b h => by
    simp only [hsel]
    exact sum_mul_sum_swap (fun a => A a b) (fun a f => T (id a) f) (fun f => W₁ f h) (fun a => hA a b) (fun a f => hT (id a) f) (fun f => hW₁ f h)
  simp only [hl]
  exact sum_mul_sum_swap (fun b => A b c) (fun b h => ∑ f, (∑ a, T (id a) f * A a b) * W₁ f h) (fun h => W₂ h q) (fun b => hA b c)
    (fun b h => isReal_sum_mul _ _ (fun f => isReal_sum_mul _ _ (fun a => hT (id a) f) (fun a => hA a b)) (fun f => hW₁ f h)) (fun h => hW₂ h q)

end Cert.Bridge

end
-- ==== Proof.LibMidAxis.lean ====
import Idealize.ShloMosaic.Lib.ValueIdx
import Idealize.ShloMosaic.PureOps.Reduce

namespace Cert.Lib.MidAxis

open Idealize.ShloMosaic Idealize.ShloMosaic.ValueIdx

theorem lift_mid {G A H : Nat} (h : (⟨3, ![G, A, H]⟩ : Shape).Reduces [1] (⟨2, ![G, H]⟩ : Shape)) (g : Fin G) (q : Fin H)
    (k : Fin ((⟨3, ![G, A, H]⟩ : Shape).size 1)) : h.lift (ix2 g q) k = ix3 g (⟨k.val, k.isLt⟩ : Fin A) q := by
  funext c; apply Fin.ext
  match c with
  | ⟨0, _⟩ => rfl
  | ⟨1, _⟩ => rfl
  | ⟨2, _⟩ => rfl

end Cert.Lib.MidAxis
-- ==== Proof.GcnKernel.lean ====
import proofs.«407199_j78503412236482_3_alg».proof.Proof.Gen.KernelIdeal.Skeleton
import proofs.«407199_j78503412236482_3_alg».proof.Proof.LibStackProduct
import proofs.«407199_j78503412236482_3_alg».proof.Proof.GcnGraph
import proofs.«407199_j78503412236482_3_alg».proof.Proof.LibMidAxis
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.KernelIdeal Cert.KernelIdeal.Gen Cert.Lib.StackProduct Cert.Lib.MidAxis

def hot (w : BitVec 32) (t : Fin 43) : EReal := if w = BitVec.ofNat 32 t.val then 1 else 0

theorem sitofp_cmpi_eq (w u : BitVec 32) :
    FloatOps.sitofp (F := Ideal) .f32 ((IntOp.cmpi .eq w u).setWidth 32) = if w = u then (1 : EReal) else 0 := by
  show (((((BitVec.ofBool (w == u)).setWidth 32).toInt : ℝ)) : EReal) = _
  have hb : ∀ b : Bool, ((BitVec.ofBool b).setWidth 32).toInt = if b then 1 else 0 := by decide
  rw [hb]
  by_cases h : w = u <;> simp [h]

theorem oneHot_apply (v0 : IVec S80x100 32) (g : Fin 80) (a : Fin 100) (t : Fin 43) :
    (truncf .bf16 (sitofp (F := Ideal) .f32 (extui 32 (cmpi .eq
        (broadcastTo S80x100x43 (shapeCast S80x100x1 v0 shapeCasts_S80x100_S80x100x1) broadcasts_S80x100x1_S80x100x43)
        (iota .tc S80x100x43 32 [2] iota_S80x100x43_d2_w32)) natLt_1_32)) bitsLt_bf16_f32 : FVec Ideal S80x100x43 .bf16)
      (ix3 g a t) = hot (v0 (ix2 g a)) t :=
  (congrArg₂ (fun x y => FloatOps.sitofp (F := Ideal) .f32 ((IntOp.cmpi .eq x y).setWidth 32))
    ((broadcastTo_apply _ broadcasts_S80x100x1_S80x100x43 (ix3 g a t) (ix3 g a (0 : Fin 1)) (fun x => match x with
      | ⟨0, _⟩ => (if_neg (by decide : ¬(80 : Nat) = 1)).symm
      | ⟨1, _⟩ => (if_neg (by decide : ¬(100 : Nat) = 1)).symm
      | ⟨2, _⟩ => (if_pos rfl).symm)).trans
      (shapeCast_apply v0 shapeCasts_S80x100_S80x100x1 (ix3 g a (0 : Fin 1)) (ix2 g a) (by
        rw [Shape.rowMajor_val_three, Shape.rowMajor_val_two]
        show g.val * 100 + a.val = (g.val * 100 + a.val) * 1 + 0
        omega)))
    (iota_single_apply .tc S80x100x43 32 2 iota_S80x100x43_d2_w32 (ix3 g a t))).trans (sitofp_cmpi_eq _ _)

theorem tokenStack_apply (v8 : FVec Ideal S43x75 .f32) (g : Fin 80) (t : Fin 43) (f : Fin 75) :
    (broadcastTo S80x43x75 (shapeCast S1x43x75 (shapeCast S1x43x75 (truncf .bf16 v8 bitsLt_bf16_f32) shapeCasts_S43x75_S1x43x75)
        shapeCasts_S1x43x75_S1x43x75) broadcasts_S1x43x75_S80x43x75 : FVec Ideal S80x43x75 .bf16) (ix3 g t f) = v8 (ix2 t f) := by
  refine (broadcastTo_apply _ broadcasts_S1x43x75_S80x43x75 (ix3 g t f) (ix3 (0 : Fin 1) t f) (fun x => match x with
    | ⟨0, _⟩ => (if_pos rfl).symm
    | ⟨1, _⟩ => (if_neg (by decide : ¬(43 : Nat) = 1)).symm
    | ⟨2, _⟩ => (if_neg (by decide : ¬(75 : Nat) = 1)).symm)).trans ?_
  rw [shapeCast_self]
  exact shapeCast_ab_1ab_apply (truncf .bf16 v8 bitsLt_bf16_f32) shapeCasts_S43x75_S1x43x75 (0 : Fin 1) t f

theorem pay_apply (v0 : IVec S80x100 32) (v8 : FVec Ideal S43x75 .f32) (v13 : FVec Ideal S80x75x128 .f32)
    (v19 : FVec Ideal S80x100x100 .f32) (v23 : FVec Ideal S80x128x128 .f32) (g : Fin 80) (q : Fin 128) :
    k0_pay1 (F := Ideal) v0 v8 v13 v19 v23 (ix2 g q)
      = (Finset.univ : Finset (Fin 100)).fold max (Ideal.ofBits .f32 0xFF800000#32) (fun c =>
          graphWeightsFirst (fun a t => hot (v0 (ix2 g a)) t) (fun a b => v19 (ix3 g a b)) (fun t f => v8 (ix2 t f))
            (fun f h => v13 (ix3 g f h)) (fun h h' => v23 (ix3 g h h')) c q) := by
  unfold k0_pay1
  simp only [matmul_zero_eq_dotGeneral]
  refine (Ideal.multiReduction_maximumf_single _ _ reduces_S80x100x128_S80x128 _ _ (ix2 g q)).trans ?_
  refine Finset.fold_congr (fun c _ => ?_)
  rw [Function.comp_apply, lift_mid reduces_S80x100x128_S80x128 g q c]
  unfold graphWeightsFirst
  refine (dotGeneral_firstAxis_apply dot_S80x100x100_S80x100x128_S80x100x128_1_1_2_2_0_0_wf none _ _ g _ q).trans ?_
  refine Finset.sum_congr rfl fun b _ => congrArg (fun z => v19 (ix3 g b _) * z) ?_
  refine (StackMember.dotGeneral_stack_apply dot_S80x100x128_S80x128x128_S80x100x128_2_1_1_2_0_0_wf none _ _ g b q).trans ?_
  refine Finset.sum_congr rfl fun h _ => congrArg (fun z => z * v23 (ix3 g h q)) ?_
  refine (dotGeneral_firstAxis_apply dot_S80x100x100_S80x100x128_S80x100x128_1_1_2_2_0_0_wf none _ _ g b h).trans ?_
  refine Finset.sum_congr rfl fun a _ => congrArg (fun z => v19 (ix3 g a b) * z) ?_
  refine (StackMember.dotGeneral_stack_apply dot_S80x100x43_S80x43x128_S80x100x128_2_1_1_2_0_0_wf none _ _ g a h).trans ?_
  refine Finset.sum_congr rfl fun t _ => ?_
  refine congrArg₂ (· * ·) (oneHot_apply v0 g a t) ?_
  refine (StackMember.dotGeneral_stack_apply dot_S80x43x75_S80x75x128_S80x43x128_2_1_1_2_0_0_wf none _ _ g t h).trans ?_
  refine Finset.sum_congr rfl fun f _ => congrArg (fun z => z * v13 (ix3 g f h)) ?_
  exact tokenStack_apply v8 g t f

end Cert.Bridge

end
-- ==== Proof.GcnRef.lean ====
import proofs.«407199_j78503412236482_3_alg».proof.Proof.RefSpec
import proofs.«407199_j78503412236482_3_alg».proof.Proof.LibStackProduct
import proofs.«407199_j78503412236482_3_alg».proof.Proof.LibMidAxis
import proofs.«407199_j78503412236482_3_alg».proof.Proof.GcnGraph
import Idealize.ShloMosaic.PureOps.Ideal.Laws
import Idealize.ShloMosaic.PureOps.Reduce

noncomputable section

namespace Cert.Bridge

open Idealize.ShloMosaic Idealize.ShloMosaic.ValueIdx Cert.ReferenceIdeal Cert.ReferenceIdeal.Gen Cert.Lib.StackProduct Cert.Lib.MidAxis

theorem gcn_apply (enc : IVec S3040x100 32) (adj : FVec Ideal S3040x100x100 .f32) (tok : FVec Ideal S43x75 .f32)
    (w1 : FVec Ideal S3040x75x128 .f32) (w2 : FVec Ideal S3040x128x128 .f32) (r : Fin 3040) (q : Fin 128) :
    Stages.gcn (F := Ideal) enc adj tok w1 w2 (ix2 r q)
      = (Finset.univ : Finset (Fin 100)).fold max (Ideal.ofBits .f32 0xFF800000#32) (fun c =>
          graphAdjFirst (fun a f => Stages.feats (F := Ideal) enc tok (ix3 r a f)) (fun a b => adj (ix3 r a b))
            (fun f h => w1 (ix3 r f h)) (fun h h' => w2 (ix3 r h h')) c q) := by
  unfold Stages.gcn
  generalize Stages.feats (F := Ideal) enc tok = F
  have hred : (⟨3, ![3040, 100, 128]⟩ : Shape).Reduces [1] (⟨2, ![3040, 128]⟩ : Shape) := by decide
  refine (Host.reduce_eq_fold_single (max : EReal → EReal → EReal) _ _ reducesTo_S3040x100x128_S3040x128_d1 hred h_S_
    (ix2 r q)).trans ?_
  refine Finset.fold_congr fun c _ => ?_
  rw [Function.comp_apply, lift_mid hred r q c]
  unfold graphAdjFirst
  refine (dotGeneral_firstAxis_apply dot_S3040x128x100_S3040x128x128_S3040x100x128_1_1_2_2_0_0_wf none _ _ r _ _).trans ?_
  refine Finset.sum_congr rfl fun h _ => congrArg (fun z => z * _) ?_
  refine (dotGeneral_firstAxis_apply dot_S3040x100x128_S3040x100x100_S3040x128x100_1_1_2_2_0_0_wf none _ _ r _ _).trans ?_
  refine Finset.sum_congr rfl fun b _ => congrArg (fun z => z * _) ?_
  refine (dotGeneral_firstAxis_apply dot_S3040x75x100_S3040x75x128_S3040x100x128_1_1_2_2_0_0_wf none _ _ r _ _).trans ?_
  refine Finset.sum_congr rfl fun f _ => congrArg (fun z => z * _) ?_
  exact dotGeneral_firstAxis_apply dot_S3040x100x75_S3040x100x100_S3040x75x100_1_1_2_2_0_0_wf none _ _ r _ _

end Cert.Bridge

end
-- ==== Proof.GcnIds.lean ====
import proofs.«407199_j78503412236482_3_alg».proof.Proof.Hyps

namespace Cert.Bridge

open Idealize.ShloMosaic

def rowOf (w : BitVec 32) : Fin 43 := ⟨w.toInt.toNat % 43, Nat.mod_lt _ (by decide)⟩

theorem rowOf_val {w : BitVec 32} (h : 0 ≤ w.toInt ∧ w.toInt < 43) : (rowOf w).val = w.toInt.toNat :=
  Nat.mod_eq_of_lt (by omega)

theorem rowOf_val' {w : BitVec 32} (h : 0 ≤ w.toInt ∧ w.toInt < 43) : (rowOf w).val = w.toNat := by
  rw [rowOf_val h]
  have := w.isLt
  rw [BitVec.toInt_eq_toNat_cond] at h ⊢
  split at h <;> split <;> omega

end Cert.Bridge
-- ==== Proof.LibRowGather3.lean ====
import Idealize.ShloMosaic.Lib.ValueIdx

noncomputable section

namespace Cert.Lib.RowGather3

open Idealize.ShloMosaic Idealize.ShloMosaic.ValueIdx

variable {α : Type}

abbrev RowWF (N C E A : Nat) : Prop :=
  GatherDims.WF ⟨2, ![N, C]⟩ ⟨3, ![E, A, 1]⟩ ⟨3, ![E, A, C]⟩ [2] [0] [] [0] [] 2 ![1, C]

abbrev rowDims (N C E A : Nat) (wf : RowWF N C E A) : GatherDims ⟨2, ![N, C]⟩ ⟨3, ![E, A, 1]⟩ ⟨3, ![E, A, C]⟩ where
  offsetDims := [2]
  collapsedSliceDims := [0]
  operandBatchingDims := []
  startIndicesBatchingDims := []
  startIndexMap := [0]
  indexVectorDim := 2
  sliceSizes := ![1, C]
  wf := wf

section Coordinates

variable {N C E A w : Nat} (wf : RowWF N C E A) (idx : IVec ⟨3, ![E, A, 1]⟩ w) (e : Fin E) (a : Fin A) (k : Fin C)

theorem siIdx_eq (c : Fin (rowDims N C E A wf).startIndexMap.length) :
    (rowDims N C E A wf).siIdx (ix3 e a k) c = ix3 e a ⟨0, Nat.one_pos⟩ := by
  have hc : c.val = 0 := Nat.lt_one_iff.mp c.isLt
  funext b
  refine Fin.ext ?_
  match b with
  | ⟨0, _⟩ => rfl
  | ⟨1, _⟩ => rfl
  | ⟨2, _⟩ => exact hc

theorem start_row :
    (rowDims N C E A wf).start (ix3 e a k) idx (0 : Fin 2) = min (idx (ix3 e a ⟨0, Nat.one_pos⟩)).toInt.toNat (N - 1) := by
  unfold GatherDims.start
  rw [dif_pos (show (0 : Fin 2) ∈ (rowDims N C E A wf).startIndexMap from List.mem_singleton.mpr rfl), siIdx_eq]
  rfl

theorem start_col : (rowDims N C E A wf).start (ix3 e a k) idx (1 : Fin 2) = 0 := by
  unfold GatherDims.start
  exact dif_neg (fun h => absurd (congrArg Fin.val (List.mem_singleton.mp h)) Nat.one_ne_zero)

theorem offCoord_row : (rowDims N C E A wf).offCoord (ix3 e a k) (0 : Fin 2) = 0 :=
  GatherDims.offCoord_eq_zero _ _ _ (fun h => ((GatherDims.mem_sKept _ _).mp h).1 (List.mem_singleton.mpr rfl))

theorem offCoord_col : (rowDims N C E A wf).offCoord (ix3 e a k) (1 : Fin 2) = k.val := rfl

end Coordinates

-- Read at (e, a, k): row ids[e, a, 0] (a row of the table, so nothing is clamped), column k.
theorem rowGather_apply_of_lt {N C E A w : Nat} (wf : RowWF N C E A)
    (x : (⟨2, ![N, C]⟩ : Shape).Idx → α) (idx : IVec ⟨3, ![E, A, 1]⟩ w) (e : Fin E) (a : Fin A) (k : Fin C)
    (h : (idx (ix3 e a ⟨0, Nat.one_pos⟩)).toInt.toNat < N) :
    Host.gather (rowDims N C E A wf) x idx (ix3 e a k) = x (ix2 ⟨(idx (ix3 e a ⟨0, Nat.one_pos⟩)).toInt.toNat, h⟩ k) := by
  refine congrArg x (funext fun b => Fin.ext ?_)
  match b with
  | ⟨0, _⟩ =>
    show (rowDims N C E A wf).start (ix3 e a k) idx (0 : Fin 2) + (rowDims N C E A wf).batchCoord (ix3 e a k) (0 : Fin 2)
      + (rowDims N C E A wf).offCoord (ix3 e a k) (0 : Fin 2) = _
    rw [start_row, GatherDims.batchCoord_eq_zero _ _ _ List.not_mem_nil, offCoord_row]
    exact Nat.min_eq_left (by omega)
  | ⟨1, _⟩ =>
    show (rowDims N C E A wf).start (ix3 e a k) idx (1 : Fin 2) + (rowDims N C E A wf).batchCoord (ix3 e a k) (1 : Fin 2)
      + (rowDims N C E A wf).offCoord (ix3 e a k) (1 : Fin 2) = k.val
    rw [start_col, GatherDims.batchCoord_eq_zero _ _ _ List.not_mem_nil, offCoord_col]
    exact Nat.zero_add _

end Cert.Lib.RowGather3

end
-- ==== Proof.GcnFeats.lean ====
import proofs.«407199_j78503412236482_3_alg».proof.Proof.RefSpec
import proofs.«407199_j78503412236482_3_alg».proof.Proof.GcnIds
import proofs.«407199_j78503412236482_3_alg».proof.Proof.LibRowGather3
import Idealize.ShloMosaic.Lib.ValueIdx
import Idealize.ShloMosaic.Lib.Pipeline.Value

namespace Cert.Bridge

open Idealize.ShloMosaic Idealize.ShloMosaic.ValueIdx Cert.Hyps Cert.ReferenceIdeal Cert.ReferenceIdeal.Gen Cert.ReferenceIdeal.Stages

theorem cmpi_slt_zero_of_nonneg {w : BitVec 32} (h : 0 ≤ w.toInt) : IntOp.cmpi .slt w 0#32 = 0#1 := by
  show BitVec.ofBool (decide (w.toInt < (0#32 : BitVec 32).toInt)) = 0#1
  rw [BitVec.toInt_zero, decide_eq_false (Int.not_lt.mpr h)]; rfl

theorem ids_apply (enc : IVec S3040x100 32) (henc : InVocab enc) (i : S3040x100.Idx) : ids enc i = enc i := by
  show Scalar.select (IntOp.cmpi .slt (enc i) 0#32) (IntOp.addi (enc i) 43#32) (enc i) = enc i
  rw [cmpi_slt_zero_of_nonneg (henc i).1]
  exact select_zero _ _

theorem column_apply (y : IVec S3040x100 32) (r : Fin 3040) (a : Fin 100) :
    broadcastInDim S3040x100x1 ![0, 1] bcast_S3040x100_S3040x100x1_0_1 y (ix3 r a ⟨0, Nat.one_pos⟩) = y (ix2 r a) :=
  broadcastInDim_apply _ bcast_S3040x100_S3040x100x1_0_1 y (ix3 r a ⟨0, Nat.one_pos⟩) (ix2 r a) (fun b => match b with | ⟨0, _⟩ => rfl | ⟨1, _⟩ => rfl)

theorem feats_apply (enc : IVec Cert.ReferenceIdeal.S3040x100 32) (tok : FVec Ideal Cert.ReferenceIdeal.S43x75 .f32)
    (henc : InVocab enc) (r : Fin 3040) (a : Fin 100) (f : Fin 75) :
    Cert.ReferenceIdeal.Stages.feats (F := Ideal) enc tok (ix3 r a f) = tok (ix2 (rowOf (enc (ix2 r a))) f) := by
  have hid := (column_apply (ids enc) r a).trans (ids_apply enc henc (ix2 r a))
  have hv := henc (ix2 r a)
  have hn := congrArg (fun w : BitVec 32 => w.toInt.toNat) hid
  exact (Cert.Lib.RowGather3.rowGather_apply_of_lt (N := 43) (C := 75) (E := 3040) (A := 100)
    gather_S43x75_S3040x100x1_S3040x100x75_2_0_n_n_0_2_175_wf tok _ r a f (lt_of_eq_of_lt hn (by omega))).trans
    (congrArg tok (congrArg (fun i => ix2 i f) (Fin.ext (hn.trans (rowOf_val hv).symm))))

end Cert.Bridge
-- ==== Proof.StageGcn.lean ====
import proofs.«407199_j78503412236482_3_alg».proof.Proof.Spec
import proofs.«407199_j78503412236482_3_alg».proof.Proof.RefSpec
import proofs.«407199_j78503412236482_3_alg».proof.Proof.Hyps
import proofs.«407199_j78503412236482_3_alg».proof.Proof.GcnKernel
import proofs.«407199_j78503412236482_3_alg».proof.Proof.GcnRef
import proofs.«407199_j78503412236482_3_alg».proof.Proof.GcnFeats

noncomputable section

namespace Cert.Bridge

open Idealize.ShloMosaic Idealize.ShloMosaic.ValueIdx Cert.Hyps Cert.Lib.RealSums

theorem hot_eq {w : BitVec 32} (hw : 0 ≤ w.toInt ∧ w.toInt < 43) (t : Fin 43) :
    hot w t = if rowOf w = t then 1 else 0 := by
  unfold hot
  have hv := rowOf_val' hw
  by_cases h : rowOf w = t
  · rw [if_pos h, if_pos]
    rw [← h, hv, BitVec.ofNat_toNat, BitVec.setWidth_eq]
  · rw [if_neg h, if_neg]
    intro e
    refine h (Fin.ext ?_)
    rw [hv, e, BitVec.toNat_ofNat]
    exact Nat.mod_eq_of_lt (by have := t.isLt; omega)

-- (r / 80) 80 + r mod 80 = r: slab r mod 80 of tile r / 80 is graph r.
theorem tileRow (r : Fin 3040) :
    (⟨(r.val / 80 * 80 + r.val % 80) % 3040, Nat.mod_lt _ (by decide)⟩ : Fin 3040) = r :=
  Fin.ext (by have := r.isLt; show (r.val / 80 * 80 + r.val % 80) % 3040 = r.val; omega)

theorem emb_eq (enc : IVec Cert.KernelIdeal.S3040x100 32) (adj : FVec Ideal Cert.KernelIdeal.S3040x100x100 .f32) (tok : FVec Ideal Cert.KernelIdeal.S43x75 .f32)
    (w1 : FVec Ideal Cert.KernelIdeal.S3040x75x128 .f32) (w2 : FVec Ideal Cert.KernelIdeal.S3040x128x128 .f32)
    (henc : InVocab enc) (hadj : AllReal adj) (htok : AllReal tok) (hw1 : AllReal w1) (hw2 : AllReal w2) :
    Cert.KernelIdeal.Spec.emb (F := Ideal) enc adj tok w1 w2 = Cert.ReferenceIdeal.Stages.gcn (F := Ideal) enc adj tok w1 w2 := by
  funext i
  obtain ⟨r, q, rfl⟩ : ∃ (r : Fin 3040) (q : Fin 128), i = ix2 r q := ⟨i 0, i 1, eq_ix2 i⟩
  refine ((pay_apply _ _ _ _ _ _ _).trans (Finset.fold_congr fun c _ => ?_)).trans (gcn_apply enc adj tok w1 w2 r q).symm
  rw [show (fun (a : Fin 100) (f : Fin 75) => Cert.ReferenceIdeal.Stages.feats (F := Ideal) enc tok (ix3 r a f))
      = fun a f => tok (ix2 (rowOf (enc (ix2 r a))) f) from
    funext fun a => funext fun f => feats_apply enc tok henc r a f]
  suffices key : ∀ s : Fin 3040, s = r → graphWeightsFirst (fun a t => hot (enc (ix2 s a)) t) (fun a b => adj (ix3 s a b))
      (fun t f => tok (ix2 t f)) (fun f h => w1 (ix3 s f h)) (fun h h' => w2 (ix3 s h h')) c q
      = graphAdjFirst (fun a f => tok (ix2 (rowOf (enc (ix2 r a))) f)) (fun a b => adj (ix3 r a b)) (fun f h => w1 (ix3 r f h))
        (fun h h' => w2 (ix3 r h h')) c q from key _ (tileRow r)
  intro s hs
  rw [hs]
  exact graphWeightsFirst_eq (fun a => rowOf (enc (ix2 r a))) _ (fun a b => adj (ix3 r a b)) (fun t f => tok (ix2 t f))
    (fun f h => w1 (ix3 r f h)) (fun h h' => w2 (ix3 r h h')) (fun a t => hot_eq (henc (ix2 r a)) t)
    (fun a b => hadj (ix3 r a b)) (fun t f => htok (ix2 t f)) (fun f h => hw1 (ix3 r f h)) (fun h h' => hw2 (ix3 r h h')) c q

end Cert.Bridge

end
-- ==== Proof.LibPreDecode.lean ====
import Idealize.ShloMosaic.Lib.ReduceAll
import Idealize.ShloMosaic.PureOps.Ideal

namespace Cert.PreDecode

open Idealize.ShloMosaic

variable {s u : Shape} {ax : List (Fin s.rank)}

instance scalarIdxSubsingleton : Subsingleton (⟨0, ![]⟩ : Shape).Idx := ⟨fun _ _ => funext fun d => d.elim0⟩

theorem andi_left {a b : IVec s 1} (h : andi a b = fun _ => 1#1) : a = fun _ => 1#1 :=
  funext fun i => (IntOp.andi_eq_one.1 (congrFun h i)).1

theorem andi_right {a b : IVec s 1} (h : andi a b = fun _ => 1#1) : b = fun _ => 1#1 :=
  funext fun i => (IntOp.andi_eq_one.1 (congrFun h i)).2

theorem all_of_reduce (p : IVec s 1) (init : IVec u 1) (hr : s.ReducesTo ax ⟨0, ![]⟩) (hu : 0 < u.numel)
    (h : Host.reduce IntOp.andi p init hr hu = fun _ => 1#1) (i : s.Idx) : p i = 1#1 :=
  Host.reduce_andi_all p init hr hu (fun a => a.elim0) (congrFun h _) i

theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem allReal_of_reduce (x : FVec Ideal s .f32) (hb : (⟨0, ![]⟩ : Shape).BroadcastsInDim s ![]) (init : IVec u 1)
    (hr : s.ReducesTo ax ⟨0, ![]⟩) (hu : 0 < u.numel)
    (h : Host.reduce IntOp.andi
        (cmpf .olt (Host.absf x) (broadcastInDim s ![] hb (constant (F := Ideal) ⟨0, ![]⟩ .f32 0x7F800000#32))) init hr hu
      = fun _ => 1#1) (i : s.Idx) : ∃ r : ℝ, x i = (r : EReal) :=
  real_of_abs_lt_inf (x i) (all_of_reduce _ init hr hu h i)

theorem cmpi_of_reduce (p : CmpIPredicate) (x : IVec s 32) (c : BitVec 32) (hb : (⟨0, ![]⟩ : Shape).BroadcastsInDim s ![])
    (init : IVec u 1) (hr : s.ReducesTo ax ⟨0, ![]⟩) (hu : 0 < u.numel)
    (h : Host.reduce IntOp.andi (cmpi p x (broadcastInDim s ![] hb (constantI ⟨0, ![]⟩ 32 c))) init hr hu
      = fun _ => 1#1) (i : s.Idx) : IntOp.cmpi p (x i) c = 1#1 :=
  all_of_reduce _ init hr hu h i

end Cert.PreDecode
-- ==== Proof.PreFacts.lean ====
import proofs.«407199_j78503412236482_3_alg».proof.Pre_finite_inputs
import proofs.«407199_j78503412236482_3_alg».proof.Proof.Gen.Pre_finite_inputs
import proofs.«407199_j78503412236482_3_alg».proof.Proof.Hyps
import proofs.«407199_j78503412236482_3_alg».proof.Proof.LibPreDecode

noncomputable section

namespace Cert.Bridge

open Idealize.ShloMosaic Cert.Hyps Cert.Pre_finite_inputs Cert.PreDecode

theorem pre_facts (x0 : FVec Ideal S3040x384 .f32) (x1 x2 : FVec Ideal S3040x3040 .f32) (x3 : FVec Ideal S3040x100x100 .f32)
    (x4 : IVec S3040x100 32) (x5 : FVec Ideal S43x75 .f32) (x6 : FVec Ideal S3040x75x128 .f32) (x7 : FVec Ideal S3040x128x128 .f32)
    (x8 : FVec Ideal S512x256 .f32) (x9 : FVec Ideal S256x256 .f32) (x10 : FVec Ideal S512x256 .f32) (x11 : FVec Ideal S256x256 .f32)
    (x12 : FVec Ideal S512x256 .f32) (x13 : FVec Ideal S256x512 .f32) (x14 : FVec Ideal S512x256 .f32) (x15 : FVec Ideal S256x256 .f32)
    (h : Cert.Pre_finite_inputs.fn (F := Ideal) x0 x1 x2 x3 x4 x5 x6 x7 x8 x9 x10 x11 x12 x13 x14 x15 = (fun _ => 1#1)) :
    AllReal x3 ∧ AllReal x5 ∧ AllReal x6 ∧ AllReal x7 ∧ InVocab x4 := by
  unfold Cert.Pre_finite_inputs.fn fn_part1 fn_part2 fn_part3 fn_part4 at h
  dsimp only at h
  have hlt := andi_right h
  have hge := andi_right (andi_left h)
  have hfl := andi_left (andi_left (andi_left (andi_left (andi_left (andi_left (andi_left (andi_left (andi_left (andi_left h)))))))))
  have h7 := andi_right hfl
  have h6 := andi_right (andi_left hfl)
  have h5 := andi_right (andi_left (andi_left hfl))
  have h3 := andi_right (andi_left (andi_left (andi_left hfl)))
  have e0 : (0#32 : BitVec 32).toInt = 0 := by decide
  have e43 : (43#32 : BitVec 32).toInt = 43 := by decide
  exact ⟨allReal_of_reduce x3 _ _ _ _ h3, allReal_of_reduce x5 _ _ _ _ h5, allReal_of_reduce x6 _ _ _ _ h6,
    allReal_of_reduce x7 _ _ _ _ h7,
    fun i => ⟨le_of_eq_of_le e0.symm (IntOp.cmpi_sge.1 (cmpi_of_reduce .sge x4 _ _ _ _ _ hge i)),
      lt_of_lt_of_eq (IntOp.cmpi_slt.1 (cmpi_of_reduce .slt x4 _ _ _ _ _ hlt i)) e43⟩⟩

end Cert.Bridge

end
-- ==== Proof.lean ====
import proofs.«407199_j78503412236482_3_alg».proof.Defs
import proofs.«407199_j78503412236482_3_alg».proof.Proof.Gen.Kernel
import proofs.«407199_j78503412236482_3_alg».proof.Proof.Gen.KernelIdeal
import proofs.«407199_j78503412236482_3_alg».proof.Proof.Gen.ReferenceIdeal
import proofs.«407199_j78503412236482_3_alg».proof.Proof.Gen.Pre_finite_inputs
import proofs.«407199_j78503412236482_3_alg».proof.Proof.KernelFrame
import proofs.«407199_j78503412236482_3_alg».proof.Proof.KernelRun
import proofs.«407199_j78503412236482_3_alg».proof.Proof.RefHand
import proofs.«407199_j78503412236482_3_alg».proof.Proof.StageDense
import proofs.«407199_j78503412236482_3_alg».proof.Proof.StageGcn
import proofs.«407199_j78503412236482_3_alg».proof.Proof.PreFacts

noncomputable section

namespace Cert.Proof

open Idealize.ShloMosaic Idealize.ShloMosaic.TcCoe Idealize.SL.Sem Cert.Hyps Cert.Bridge

theorem result_eq (x0 : FVec Ideal Cert.KernelIdeal.S3040x384 .f32) (x1 x2 : FVec Ideal Cert.KernelIdeal.S3040x3040 .f32)
    (x3 : FVec Ideal Cert.KernelIdeal.S3040x100x100 .f32) (x4 : IVec Cert.KernelIdeal.S3040x100 32) (x5 : FVec Ideal Cert.KernelIdeal.S43x75 .f32)
    (x6 : FVec Ideal Cert.KernelIdeal.S3040x75x128 .f32) (x7 : FVec Ideal Cert.KernelIdeal.S3040x128x128 .f32)
    (x8 : FVec Ideal Cert.KernelIdeal.S512x256 .f32) (x9 : FVec Ideal Cert.KernelIdeal.S256x256 .f32) (x10 : FVec Ideal Cert.KernelIdeal.S512x256 .f32)
    (x11 : FVec Ideal Cert.KernelIdeal.S256x256 .f32) (x12 : FVec Ideal Cert.KernelIdeal.S512x256 .f32) (x13 : FVec Ideal Cert.KernelIdeal.S256x512 .f32)
    (x14 : FVec Ideal Cert.KernelIdeal.S512x256 .f32) (x15 : FVec Ideal Cert.KernelIdeal.S256x256 .f32)
    (h : Cert.Pre_finite_inputs.fn (F := Ideal) x0 x1 x2 x3 x4 x5 x6 x7 x8 x9 x10 x11 x12 x13 x14 x15 = (fun _ => 1#1)) :
    Cert.KernelIdeal.Spec.result (F := Ideal) x0 x1 x2 x3 x4 x5 x6 x7 x8 x9 x10 x11 x12 x13 x14 x15
      = Cert.ReferenceIdeal.Stages.result (F := Ideal) x0 x1 x2 x3 x4 x5 x6 x7 x8 x9 x10 x11 x12 x13 x14 x15 := by
  obtain ⟨h3, h5, h6, h7, h4⟩ := pre_facts x0 x1 x2 x3 x4 x5 x6 x7 x8 x9 x10 x11 x12 x13 x14 x15 h
  unfold Cert.KernelIdeal.Spec.result Cert.ReferenceIdeal.Stages.result
  dsimp only
  rw [emb_eq x4 x3 x5 x6 x7 h4 h3 h5 h6 h7, projP_eq, projN_eq, adjRelu2_eq, adjMul3_eq, adjRelu4_eq, adjMul5_eq, tailZ_eq, tailDec_eq, mulT_eq]

theorem frame_k : Cert.frame_Kernel := fun m ρ _ => Cert.Kernel.Hand.frame (F := Bits) m ρ

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal := by
  intro m ρ m' ρ' hpre hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  exact (result_eq _ _ _ _ _ _ _ _ _ _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
